-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1701888 : Shape := ⟨1, ![1701888]⟩
abbrev S1x1701888 : Shape := ⟨2, ![1, 1701888]⟩
abbrev S100352x128 : Shape := ⟨2, ![100352, 128]⟩
abbrev S2048x128 : Shape := ⟨2, ![2048, 128]⟩
abbrev S1701888x128 : Shape := ⟨2, ![1701888, 128]⟩
abbrev S1x2048 : Shape := ⟨2, ![1, 2048]⟩
abbrev S2048x1 : Shape := ⟨2, ![2048, 1]⟩
abbrev S2048x2048 : Shape := ⟨2, ![2048, 2048]⟩
abbrev S1x128 : Shape := ⟨2, ![1, 128]⟩
abbrev S100352x64 : Shape := ⟨2, ![100352, 64]⟩
abbrev S2048x64 : Shape := ⟨2, ![2048, 64]⟩
abbrev S1701888x64 : Shape := ⟨2, ![1701888, 64]⟩
abbrev S1x64 : Shape := ⟨2, ![1, 64]⟩
abbrev S100000x64 : Shape := ⟨2, ![100000, 64]⟩

abbrev nBuf : Space → Nat
  | .hbm => 70
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S_, .i32⟩
  | .hbm, ⟨48, _⟩ => ⟨S1701888, .i32⟩
  | .hbm, ⟨49, _⟩ => ⟨S_, .i32⟩
  | .hbm, ⟨50, _⟩ => ⟨S_, .i32⟩
  | .hbm, ⟨51, _⟩ => ⟨S1701888, .i32⟩
  | .hbm, ⟨52, _⟩ => ⟨S_, .i32⟩
  | .hbm, ⟨53, _⟩ => ⟨S_, .f32⟩
  | .hbm, ⟨54, _⟩ => ⟨S1701888, .f32⟩
  | .hbm, ⟨55, _⟩ => ⟨S1x1701888, .i32⟩
  | .hbm, ⟨56, _⟩ => ⟨S1x1701888, .i32⟩
  | .hbm, ⟨57, _⟩ => ⟨S1x1701888, .f32⟩
  | .hbm, ⟨58, _⟩ => ⟨S_, .i32⟩
  | .hbm, ⟨59, _⟩ => ⟨S_, .f32⟩
  | .hbm, ⟨60, _⟩ => ⟨S100352x128, .f32⟩
  | .hbm, ⟨61, _⟩ => ⟨S100352x128, .f32⟩
  | .hbm, ⟨62, _⟩ => ⟨S1701888x128, .f32⟩
  | .hbm, ⟨63, _⟩ => ⟨S1x128, .f32⟩
  | .hbm, ⟨64, _⟩ => ⟨S100352x128, .f32⟩
  | .hbm, ⟨65, _⟩ => ⟨S100352x64, .f32⟩
  | .hbm, ⟨66, _⟩ => ⟨S1701888x64, .f32⟩
  | .hbm, ⟨67, _⟩ => ⟨S1x64, .f32⟩
  | .hbm, ⟨68, _⟩ => ⟨S100352x64, .f32⟩
  | .hbm, ⟨69, _⟩ => ⟨S100000x64, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x2048, .i32⟩
  | .local _ .vmem, ⟨8, _⟩ => ⟨S1x2048, .i32⟩
  | .local _ .vmem, ⟨9, _⟩ => ⟨S1x2048, .f32⟩
  | .local _ .vmem, ⟨10, _⟩ => ⟨S1x2048, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x2048, .i32⟩
  | .local _ .vmem, ⟨17, _⟩ => ⟨S1x2048, .i32⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S128x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | .local _ .vmem, ⟨29, _⟩ => ⟨S1x2048, .i32⟩
  | .local _ .vmem, ⟨30, _⟩ => ⟨S1x2048, .i32⟩
  | .local _ .vmem, ⟨31, _⟩ => ⟨S1x2048, .f32⟩
  | .local _ .vmem, ⟨32, _⟩ => ⟨S1x2048, .f32⟩
  | .local _ .vmem, ⟨33, _⟩ => ⟨S2048x64, .f32⟩
  | .local _ .vmem, ⟨34, _⟩ => ⟨S2048x64, .f32⟩
  | .local _ .vmem, ⟨35, _⟩ => ⟨S2048x64, .f32⟩
  | .local _ .vmem, ⟨36, _⟩ => ⟨S2048x64, .f32⟩
  | .local _ .vmem, ⟨37, _⟩ => ⟨S2048x64, .f32⟩
  | .local _ .vmem, ⟨38, _⟩ => ⟨S1x2048, .i32⟩
  | .local _ .vmem, ⟨39, _⟩ => ⟨S1x2048, .i32⟩
  | .local _ .vmem, ⟨40, _⟩ => ⟨S1x64, .f32⟩
  | .local _ .vmem, ⟨41, _⟩ => ⟨S2048x64, .f32⟩
  | .local _ .vmem, ⟨42, _⟩ => ⟨S2048x64, .f32⟩
  | .local _ .vmem, ⟨43, _⟩ => ⟨S2048x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call1_v0 : Ref sig .tc := ⟨.hbm, 47, rfl⟩
abbrev main_v30 : Ref sig .tc := ⟨.hbm, 48, rfl⟩
abbrev main_c_7 : Ref sig .tc := ⟨.hbm, 49, rfl⟩
abbrev main_call2_v0 : Ref sig .tc := ⟨.hbm, 50, rfl⟩
abbrev main_v31 : Ref sig .tc := ⟨.hbm, 51, rfl⟩
abbrev main_c_8 : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_call4_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![831, 49], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 831], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![831, 49], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![49, 831], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x2048 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S1700000_S1701888_018880 : S1700000.Pads (![0] : Fin 1 → Nat) ![1888] ![0] S1701888
  h_S_ : 0 < S_.numel
  shapeCasts_S1701888_S1x1701888 : S1701888.ShapeCasts S1x1701888
  pads_S100000x128_S100352x128_03520_000 : S100000x128.Pads (![0, 0] : Fin 2 → Nat) ![352, 0] ![0, 0] S100352x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  slices_S100352x64_S100000x64_0_0 : S100352x64.Slices ![0, 0] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2048x128_S128x128_S2048x128_1_0_0_1_n_n_wf : DotDims.WF S2048x128 S128x128 S2048x128 [1] [0] [0] [1] [] []
  dot_S2048x2048_S2048x128_S2048x128_0_0_1_1_n_n_wf : DotDims.WF S2048x2048 S2048x128 S2048x128 [0] [0] [1] [1] [] []
  dot_S2048x2048_S2048x128_S2048x128_1_0_0_1_n_n_wf : DotDims.WF S2048x2048 S2048x128 S2048x128 [1] [0] [0] [1] [] []
  dot_S2048x128_S128x64_S2048x64_1_0_0_1_n_n_wf : DotDims.WF S2048x128 S128x64 S2048x64 [1] [0] [0] [1] [] []
  dot_S2048x2048_S2048x64_S2048x64_0_0_1_1_n_n_wf : DotDims.WF S2048x2048 S2048x64 S2048x64 [0] [0] [1] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S100352x128.size a
  hwx0_0 : ∀ i : grid0.Coords, EltTy.bits .f32 = 32 ∨ (Rect.block (s := S100352x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S100352x128.size a
  hwx0_2 : ∀ i : grid0.Coords, EltTy.bits .f32 = 32 ∨ (Rect.block (s := S100352x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S100352x128.size a
  hwx1_0 : ∀ i : grid1.Coords, EltTy.bits .f32 = 32 ∨ (Rect.block (s := S100352x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x1701888.size a
  hwx1_1 : ∀ i : grid1.Coords, EltTy.bits .i32 = 32 ∨ (Rect.block (s := S1x1701888) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x1701888.size a
  hwx1_2 : ∀ i : grid1.Coords, EltTy.bits .f32 = 32 ∨ (Rect.block (s := S1x1701888) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S1701888x128.size a
  hwx1_3 : ∀ i : grid1.Coords, EltTy.bits .f32 = 32 ∨ (Rect.block (s := S1701888x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S1701888x128.size a
  hwx2_0 : ∀ i : grid2.Coords, EltTy.bits .f32 = 32 ∨ (Rect.block (s := S1701888x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x1701888.size a
  hwx2_1 : ∀ i : grid2.Coords, EltTy.bits .i32 = 32 ∨ (Rect.block (s := S1x1701888) S1x2048.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S100352x128.size a
  hwx2_3 : ∀ i : grid2.Coords, EltTy.bits .f32 = 32 ∨ (Rect.block (s := S100352x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S100352x128.size a
  hwx3_0 : ∀ i : grid3.Coords, EltTy.bits .f32 = 32 ∨ (Rect.block (s := S100352x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S100352x64.size a
  hwx3_2 : ∀ i : grid3.Coords, EltTy.bits .f32 = 32 ∨ (Rect.block (s := S100352x64) S2048x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S100352x64.size a
  hwx4_0 : ∀ i : grid4.Coords, EltTy.bits .f32 = 32 ∨ (Rect.block (s := S100352x64) S2048x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x1701888.size a
  hwx4_1 : ∀ i : grid4.Coords, EltTy.bits .i32 = 32 ∨ (Rect.block (s := S1x1701888) S1x2048.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x1701888.size a
  hwx4_2 : ∀ i : grid4.Coords, EltTy.bits .f32 = 32 ∨ (Rect.block (s := S1x1701888) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x64.size a ≤ S1701888x64.size a
  hwx4_3 : ∀ i : grid4.Coords, EltTy.bits .f32 = 32 ∨ (Rect.block (s := S1701888x64) S2048x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S1701888x64.size a
  hwx5_0 : ∀ i : grid5.Coords, EltTy.bits .f32 = 32 ∨ (Rect.block (s := S1701888x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x1701888.size a
  hwx5_1 : ∀ i : grid5.Coords, EltTy.bits .i32 = 32 ∨ (Rect.block (s := S1x1701888) S1x2048.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x64.size a ≤ S100352x64.size a
  hwx5_3 : ∀ i : grid5.Coords, EltTy.bits .f32 = 32 ∨ (Rect.block (s := S100352x64) S2048x64.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_0_0_1_1_n_n : DotDims S2048x2048 S2048x128 S2048x128 where
  lhsContracting := [0]
  rhsContracting := [0]
  lhsNonContracting := [1]
  rhsNonContracting := [1]
  lhsBatch := []
  rhsBatch := []
  wf := dot_S2048x2048_S2048x128_S2048x128_0_0_1_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_v36) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v41) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S1x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S2048x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v42) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S1x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S2048x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.IdealRegions.Proj0.lean ====
/- A projection region: each point is an independent matrix product. -/
import proofs.«127098_j12489764897128_1_alg».proof.Proof.Gen.KernelIdeal.Launch
import proofs.«127098_j12489764897128_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S2048x128 := Rect.unit (s := S2048x128) ![0, 0] S2048x128.size inb_S2048x128_S2048x128_0_0
abbrev rW : Rect S128x128 := Rect.unit (s := S128x128) ![0, 0] S128x128.size inb_S128x128_S128x128_0_0

def out (x : Vec F S2048x128 .f32) (w : Vec F S128x128 .f32) : Vec F S2048x128 .f32 :=
  View.canon [⟨rX, k0_pay1 (View.ld x rX) (View.ld w rW)⟩]

theorem cover (p0 : Vec F S2048x128 .f32) (y : S2048x128.Idx) :
    ∃ pc ∈ ([⟨rX, p0⟩] : List (View.Piece (Elt F) S2048x128 .f32)), y ∈ pc.1.set :=
  View.cover_of_tiled [⟨rX, p0⟩] S2048x128.size (by rfl) y

set_option maxHeartbeats 1000000 in

theorem sound_kernel (c : Dev nD) (E : Set ℕ) (i : grid0.Coords)
    (arg1 : Memref sig .tc .vmem S2048x128 .f32) (harg1 : arg1.IsWhole)
    (arg2 : Memref sig .tc .vmem S128x128 .f32) (harg2 : arg2.IsWhole)
    (arg3 : Memref sig .tc .vmem S2048x128 .f32) (harg3 : arg3.IsWhole)
    (x : Vec F S2048x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (out x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

abbrev st (w : Fin cfg0.W) (t : Fin cfg0.N) := (cfg0.win w).stage (cfg0.slots t w)

abbrev bodyAt (t : Fin cfg0.N) : Prog (TpuEff nD τ sig (Elt F) Λ₀ .tc) PUnit :=
  cc0__proj_kernel (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))

def bodyPre (c : Dev nD) (t : Fin cfg0.N) : sProp 𝕄 :=
  iprop((dat V c).Φ t.castSucc ∗ (dat V c).owesAt () t.castSucc
    ∗ (∃ d, owns (c : Thread nD τ) (st 0 t) fullShare ((dat V c).before 0 t d))
    ∗ (∃ d, owns (c : Thread nD τ) (st 1 t) fullShare ((dat V c).before 1 t d))
    ∗ (∃ d, owns (c : Thread nD τ) (st 2 t) fullShare ((dat V c).before 2 t d)))

def bodyPost (c : Dev nD) (t : Fin cfg0.N) : sProp 𝕄 :=
  iprop((dat V c).Φ t.succ ∗ (dat V c).owesAt () t.succ
    ∗ owns (c : Thread nD τ) (st 0 t) fullShare ((dat V c).after 0 t)
    ∗ owns (c : Thread nD τ) (st 1 t) fullShare ((dat V c).after 1 t)
    ∗ owns (c : Thread nD τ) (st 2 t) fullShare ((dat V c).after 2 t))

theorem sound_body (c : Dev nD) (t : Fin cfg0.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.KernelIdeal.Proj0

end
-- ==== Proof.IdealRegions.Gather1.lean ====
/- A gather region as a running sum over node blocks, restarted at each edge block; the sum after each point is defined by recursion on the point. -/
import proofs.«127098_j12489764897128_1_alg».proof.Proof.Gen.KernelIdeal.Launch
import proofs.«127098_j12489764897128_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gather1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev isFirst (i : grid1.Coords) : Prop :=
  (Scalar.cmpi .ne (Scalar.extui (Scalar.cmpi .eq (BitVec.ofNat 32 (i 1).val) 0#32)) 0#32) = 1#1

abbrev scM : Memref sig .tc .vmem S2048x128 .f32 := Memref.whole cc1_scratch0
abbrev VS : View sig .tc .vmem S2048x128 .f32 := (scM).view
abbrev VO : View sig .tc .vmem S2048x128 .f32 := (Memref.whole cc1_stg3_0 : Memref sig .tc .vmem S2048x128 .f32).view

section Run

variable (c : Dev nD) (i : grid1.Coords) (arg2 : Memref sig .tc .vmem S2048x128 .f32) (harg2 : arg2.IsWhole)
  (arg3 : Memref sig .tc .vmem S1x2048 .i32) (harg3 : arg3.IsWhole) (arg4 : Memref sig .tc .vmem S1x2048 .f32) (harg4 : arg4.IsWhole)
  (arg5 : Memref sig .tc .vmem S2048x128 .f32) (harg5 : arg5.IsWhole) (arg6 : Memref sig .tc .vmem S2048x128 .f32) (harg6 : arg6.IsWhole)
  (x0 : Vec F S2048x128 .f32) (x1 : Vec F S1x2048 .i32) (x2 : Vec F S1x2048 .f32)

/-- A run of the body from the accumulator held as `acc`, naming the pieces it stores. -/
abbrev Run (acc : sProp 𝕄) :=
  Σ' (LO : List (View.Piece (Elt F) S2048x128 .f32)), { LS : List (View.Piece (Elt F) S2048x128 .f32) //
    ∀ (E : Set ℕ) (K : PUnit → sProp 𝕄),
      iprop(owns (c : Thread nD τ) arg2 fullShare x0 ∗ owns (c : Thread nD τ) arg3 fullShare x1 ∗ owns (c : Thread nD τ) arg4 fullShare x2
          ∗ (∃ d, owns (c : Thread nD τ) arg5 fullShare d) ∗ acc
          ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
        ⊢ wp frame (wpE (defs₀ (F := F)) Variants.none c none) E (cc1__gather_kernel i arg2 harg2 arg3 harg3 arg4 harg4 arg5 harg5 arg6 harg6) K }

set_option maxHeartbeats 4000000 in
/-- The first node block of an edge block restarts the sum. -/
noncomputable def runFirst (hc : isFirst i) : Run c i arg2 harg2 arg3 harg3 arg4 harg4 arg5 harg5 arg6 harg6 x0 x1 x2 iprop(∃ d, owns (c : Thread nD τ) arg6 fullShare d) := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d5, %f5, -, H5⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

set_option maxHeartbeats 4000000 in
/-- A later node block adds to the sum `xs` so far. -/
noncomputable def runNext (hc : ¬isFirst i) (xs : Vec F S2048x128 .f32) : Run c i arg2 harg2 arg3 harg3 arg4 harg4 arg5 harg5 arg6 harg6 x0 x1 x2 (owns (c : Thread nD τ) arg6 fullShare xs) := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d5, %f5, -, H5⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

/-- The stored pieces tile the whole block. -/
theorem coverFirst (hc : isFirst i) (y : S2048x128.Idx) :
    (∃ pc ∈ (runFirst c i arg2 harg2 arg3 harg3 arg4 harg4 arg5 harg5 arg6 harg6 x0 x1 x2 hc).1, y ∈ pc.1.set) ∧ ∃ pc ∈ (runFirst c i arg2 harg2 arg3 harg3 arg4 harg4 arg5 harg5 arg6 harg6 x0 x1 x2 hc).2.1, y ∈ pc.1.set :=
  ⟨View.cover_of_tiledL _ S2048x128.size (by sl_kernel_rfl) y, View.cover_of_tiledL _ S2048x128.size (by sl_kernel_rfl) y⟩
theorem coverNext (hc : ¬isFirst i) (xs : Vec F S2048x128 .f32) (y : S2048x128.Idx) :
    (∃ pc ∈ (runNext c i arg2 harg2 arg3 harg3 arg4 harg4 arg5 harg5 arg6 harg6 x0 x1 x2 hc xs).1, y ∈ pc.1.set) ∧ ∃ pc ∈ (runNext c i arg2 harg2 arg3 harg3 arg4 harg4 arg5 harg5 arg6 harg6 x0 x1 x2 hc xs).2.1, y ∈ pc.1.set :=
  ⟨View.cover_of_tiledL _ S2048x128.size (by sl_kernel_rfl) y, View.cover_of_tiledL _ S2048x128.size (by sl_kernel_rfl) y⟩

/-- (output block, running sum) read back from stored pieces. -/
def leaves (LO LS : List (View.Piece (Elt F) S2048x128 .f32)) : Vec F S2048x128 .f32 × Vec F S2048x128 .f32 :=
  (VO.read (Elt F) (VO.writes (Elt F) VO.junk LO), VS.read (Elt F) (VS.writes (Elt F) VS.junk LS))

end Run

abbrev ms0 (t : Fin cfg1.N) : Memref sig .tc .vmem S2048x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x2048 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x128 .f32 := win1_3.stage (cfg1.slots t 3)
abbrev hs3 (t : Fin cfg1.N) : (ms3 t).IsWhole := hstage1_3 ((cfg1.slots t 3).cast nbuf1_3)

abbrev bodyAt (t : Fin cfg1.N) : Prog (TpuEff nD τ sig (Elt F) Λ₀ .tc) PUnit :=
  cc1__gather_kernel (grid1.coords t) (ms0 t) (hs0 t) (ms1 t) (hs1 t) (ms2 t) (hs2 t) (ms3 t) (hs3 t) scM (Memref.isWhole_whole _)

/-- (output block, running sum) after point `t`, by case. -/
def firstAt (c : Dev nD) (t : Fin cfg1.N) (hc : isFirst (grid1.coords t)) : Vec F S2048x128 .f32 × Vec F S2048x128 .f32 :=
  leaves (runFirst c (grid1.coords t) (ms0 t) (hs0 t) (ms1 t) (hs1 t) (ms2 t) (hs2 t) (ms3 t) (hs3 t) scM (Memref.isWhole_whole _) (iblk V c 0 t) (iblk V c 1 t) (iblk V c 2 t) hc).1 (runFirst c (grid1.coords t) (ms0 t) (hs0 t) (ms1 t) (hs1 t) (ms2 t) (hs2 t) (ms3 t) (hs3 t) scM (Memref.isWhole_whole _) (iblk V c 0 t) (iblk V c 1 t) (iblk V c 2 t) hc).2.1
def nextAt (c : Dev nD) (t : Fin cfg1.N) (hc : ¬isFirst (grid1.coords t)) (xs : Vec F S2048x128 .f32) :
    Vec F S2048x128 .f32 × Vec F S2048x128 .f32 :=
  leaves (runNext c (grid1.coords t) (ms0 t) (hs0 t) (ms1 t) (hs1 t) (ms2 t) (hs2 t) (ms3 t) (hs3 t) scM (Memref.isWhole_whole _) (iblk V c 0 t) (iblk V c 1 t) (iblk V c 2 t) hc xs).1 (runNext c (grid1.coords t) (ms0 t) (hs0 t) (ms1 t) (hs1 t) (ms2 t) (hs2 t) (ms3 t) (hs3 t) scM (Memref.isWhole_whole _) (iblk V c 0 t) (iblk V c 1 t) (iblk V c 2 t) hc xs).2.1

def outsAt (c : Dev nD) : (n : ℕ) → n < cfg1.N → Vec F S2048x128 .f32 × Vec F S2048x128 .f32
  | 0, hn => if h : isFirst (grid1.coords ⟨0, hn⟩) then firstAt V c ⟨0, hn⟩ h else nextAt V c ⟨0, hn⟩ h (k1_pay1 (F := F))
  | n + 1, hn =>
    if h : isFirst (grid1.coords ⟨n + 1, hn⟩) then firstAt V c ⟨n + 1, hn⟩ h
    else nextAt V c ⟨n + 1, hn⟩ h (outsAt c n (Nat.lt_of_succ_lt hn)).2

theorem outsAt_first (c : Dev nD) (t : Fin cfg1.N) (hc : isFirst (grid1.coords t)) :
    outsAt V c t.val t.isLt = firstAt V c t hc := by
  obtain ⟨n, hn⟩ := t
  cases n with
  | zero => exact dif_pos hc
  | succ n => exact dif_pos hc

theorem outsAt_next (c : Dev nD) (t : Fin cfg1.N) (ht : t.val ≠ 0) (hc : ¬isFirst (grid1.coords t)) :
    outsAt V c t.val t.isLt
      = nextAt V c t hc (outsAt V c (t.val - 1) (Nat.lt_of_le_of_lt (Nat.sub_le _ _) t.isLt)).2 := by
  obtain ⟨n, hn⟩ := t
  cases n with
  | zero => exact absurd rfl ht
  | succ n => exact dif_neg hc

theorem isFirst_of_coord (i : grid1.Coords) (h : (i 1).val = 0) : isFirst i := by
  unfold isFirst; rw [h]; decide

theorem isFirst_of_zero (t : Fin cfg1.N) (ht : t.val = 0) : isFirst (grid1.coords t) :=
  isFirst_of_coord _ (by
    show t.val / grid1.stride 1 % grid1.bound 1 = 0
    rw [ht, Nat.zero_div, Nat.zero_mod])

theorem PhiA_eq (c : Dev nD) :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM, owns_whole]; try rfl

def PhiS (c : Dev nD) : (n : ℕ) → n ≤ cfg1.N → sProp 𝕄
  | 0, _ => Pipeline.ΦA spec1 c
  | n + 1, hn => iprop(iprop(owns (c : Thread nD τ) scM fullShare ((outsAt V c n hn).2)
      ∗ Pipeline.scopedRestBut (Ix := Unit) (Name := ℕ) (U := UR sig nD τ) (Lvl := ℕ) (Val := Elt F) spec1 c [cc1_scratch0])
      ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare ((outsAt V c n hn).2)
      ∗ Pipeline.scopedRestBut (Ix := Unit) (Name := ℕ) (U := UR sig nD τ) (Lvl := ℕ) (Val := Elt F) spec1 c [cc1_scratch0])
      ∗ (∃ r, prngReg c r)) := rfl
theorem PhiS_pos (c : Dev nD) (n : ℕ) (h : n ≤ cfg1.N) (hz : n ≠ 0) :
    PhiS V c n h = iprop(iprop(owns (c : Thread nD τ) scM fullShare ((outsAt V c (n - 1) (by omega)).2)
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 4800000 in
/-- One argument serves the three cases: any run whose pieces tile both blocks re-establishes the invariant. -/
theorem body_of_run (c : Dev nD) (t : Fin cfg1.N) {A acc O : sProp 𝕄} (hA : A ⊢ acc) (r : Run c (grid1.coords t) (ms0 t) (hs0 t) (ms1 t) (hs1 t) (ms2 t) (hs2 t) (ms3 t) (hs3 t) scM (Memref.isWhole_whole _) (iblk V c 0 t) (iblk V c 1 t) (iblk V c 2 t) acc)
    (hO : ∀ y, ∃ pc ∈ r.1, y ∈ pc.1.set) (hS : ∀ y, ∃ pc ∈ r.2.1, y ∈ pc.1.set) :
    iprop(iprop(iprop(A ∗ Pipeline.scopedRestBut (Ix := Unit) (Name := ℕ) (U := UR sig nD τ) (Lvl := ℕ) (Val := Elt F) spec1 c [cc1_scratch0]) ∗ (∃ r, prngReg c r)) ∗ O
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d))
        ∗ (∃ d, owns (c : Thread nD τ) (ms3 t) fullShare ((dat V c).before 3 t d)))
      ⊢ wp frame (wpE (defs₀ (F := F)) Variants.none c none) Set.univ (bodyAt t) (fun _ =>
        iprop(iprop(iprop(owns (c : Thread nD τ) scM fullShare (leaves r.1 r.2.1).2 ∗ Pipeline.scopedRestBut (Ix := Unit) (Name := ℕ) (U := UR sig nD τ) (Lvl := ℕ) (Val := Elt F) spec1 c [cc1_scratch0]) ∗ (∃ r, prngReg c r)) ∗ O
          ∗ owns (c : Thread nD τ) (ms0 t) fullShare (iblk V c 0 t)
          ∗ owns (c : Thread nD τ) (ms1 t) fullShare (iblk V c 1 t)
          ∗ owns (c : Thread nD τ) (ms2 t) fullShare (iblk V c 2 t)
          ∗ owns (c : Thread nD τ) (ms3 t) fullShare (leaves r.1 r.2.1).1)) := by
  simp only [before_0, before_1, before_2]
  iintro ⟨⟨⟨HS, Hrest⟩, Hg⟩, Ho, ⟨%d0, H0⟩, ⟨%d1, H1⟩, ⟨%d2, H2⟩, ⟨%d3, H3⟩⟩
  iapply (r.2.2 Set.univ _)
  isplitl [H0]; · iexact H0
  isplitl [H1]; · iexact H1
  isplitl [H2]; · iexact H2
  isplitl [H3]; · iexists _; iexact H3
  isplitl [HS]; · iapply hA; iexact HS
  iintro ⟨H0, H1, H2, ⟨%e3, H3⟩, ⟨%es, HS⟩⟩
  isplitl [HS Hrest Hg]
  · isplitl [HS Hrest]
    · isplitl [HS]
      · unfold owns; iexists _; isplitr
        swap; · iexact HS
        ipureintro; exact View.read_writes_of_cover _ _ VS VS.junk _ hS
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ VO VO.junk _ hO

/-- Cases: a restart from anything, a restart over an earlier sum, a continuation. -/
theorem sound_body (c : Dev nD) (t : Fin cfg1.N) :
    bodyPre V c t ⊢ wp frame (wpE (defs₀ (F := F)) Variants.none c none) Set.univ (bodyAt t) (fun _ => bodyPost V c t) := by
  unfold bodyPre bodyPost
  rw [show (dat V c).owesAt () t.succ = (dat V c).owesAt () t.castSucc from rfl,
    show (dat V c).Φ t.succ = PhiS V c (t.val + 1) t.isLt from rfl, PhiS_succ, after_0, after_1, after_2, after_3, Phi_castSucc V c t]
  by_cases hc : isFirst (grid1.coords t)
  · rw [outsAt_first V c t hc]
    by_cases hz : t.val = 0
    · rw [PhiS_zero V c _ _ hz, PhiA_eq]
      exact body_of_run V c t .rfl (runFirst c (grid1.coords t) (ms0 t) (hs0 t) (ms1 t) (hs1 t) (ms2 t) (hs2 t) (ms3 t) (hs3 t) scM (Memref.isWhole_whole _) (iblk V c 0 t) (iblk V c 1 t) (iblk V c 2 t) hc) (fun y => (coverFirst c (grid1.coords t) (ms0 t) (hs0 t) (ms1 t) (hs1 t) (ms2 t) (hs2 t) (ms3 t) (hs3 t) scM (Memref.isWhole_whole _) (iblk V c 0 t) (iblk V c 1 t) (iblk V c 2 t) hc y).1) (fun y => (coverFirst c (grid1.coords t) (ms0 t) (hs0 t) (ms1 t) (hs1 t) (ms2 t) (hs2 t) (ms3 t) (hs3 t) scM (Memref.isWhole_whole _) (iblk V c 0 t) (iblk V c 1 t) (iblk V c 2 t) hc y).2)
    · rw [PhiS_pos V c _ _ hz]
      exact body_of_run V c t (by iintro H; iexists _; iexact H) (runFirst c (grid1.coords t) (ms0 t) (hs0 t) (ms1 t) (hs1 t) (ms2 t) (hs2 t) (ms3 t) (hs3 t) scM (Memref.isWhole_whole _) (iblk V c 0 t) (iblk V c 1 t) (iblk V c 2 t) hc) (fun y => (coverFirst c (grid1.coords t) (ms0 t) (hs0 t) (ms1 t) (hs1 t) (ms2 t) (hs2 t) (ms3 t) (hs3 t) scM (Memref.isWhole_whole _) (iblk V c 0 t) (iblk V c 1 t) (iblk V c 2 t) hc y).1) (fun y => (coverFirst c (grid1.coords t) (ms0 t) (hs0 t) (ms1 t) (hs1 t) (ms2 t) (hs2 t) (ms3 t) (hs3 t) scM (Memref.isWhole_whole _) (iblk V c 0 t) (iblk V c 1 t) (iblk V c 2 t) hc y).2)
  · have hz : t.val ≠ 0 := fun h0 => hc (isFirst_of_zero t h0)
    rw [outsAt_next V c t hz hc, PhiS_pos V c _ _ hz]
    exact body_of_run V c t .rfl (runNext c (grid1.coords t) (ms0 t) (hs0 t) (ms1 t) (hs1 t) (ms2 t) (hs2 t) (ms3 t) (hs3 t) scM (Memref.isWhole_whole _) (iblk V c 0 t) (iblk V c 1 t) (iblk V c 2 t) hc _) (fun y => (coverNext c (grid1.coords t) (ms0 t) (hs0 t) (ms1 t) (hs1 t) (ms2 t) (hs2 t) (ms3 t) (hs3 t) scM (Memref.isWhole_whole _) (iblk V c 0 t) (iblk V c 1 t) (iblk V c 2 t) hc _ y).1) (fun y => (coverNext c (grid1.coords t) (ms0 t) (hs0 t) (ms1 t) (hs1 t) (ms2 t) (hs2 t) (ms3 t) (hs3 t) scM (Memref.isWhole_whole _) (iblk V c 0 t) (iblk V c 1 t) (iblk V c 2 t) hc _ y).2)

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  rw [show (dat V c).Φ (Fin.last cfg1.N) = PhiS V c cfg1.N (Nat.le_refl _) from rfl,
    PhiS_pos V c _ _ (by have : cfg1.N = 40719 := N_1; omega), PhiA_eq]
  iintro ⟨⟨HS, Hrest⟩, Hg⟩
  isplitl [HS Hrest]
  · isplitl [HS]
    · iexists _; iexact HS
    iexact Hrest
  iexact Hg

end Cert.KernelIdeal.Gather1

end
-- ==== Proof.IdealRegions.Scatter2.lean ====
/- A scatter region as a running sum over edge blocks, restarted at each node block; the sum after each point is defined by recursion on the point. -/
import proofs.«127098_j12489764897128_1_alg».proof.Proof.Gen.KernelIdeal.Launch
import proofs.«127098_j12489764897128_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scatter2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev isFirst (i : grid2.Coords) : Prop :=
  (Scalar.cmpi .ne (Scalar.extui (Scalar.cmpi .eq (BitVec.ofNat 32 (i 1).val) 0#32)) 0#32) = 1#1

abbrev scM : Memref sig .tc .vmem S2048x128 .f32 := Memref.whole cc2_scratch0
abbrev VS : View sig .tc .vmem S2048x128 .f32 := (scM).view
abbrev VO : View sig .tc .vmem S2048x128 .f32 := (Memref.whole cc2_stg3_0 : Memref sig .tc .vmem S2048x128 .f32).view

section Run

variable (c : Dev nD) (i : grid2.Coords) (arg2 : Memref sig .tc .vmem S2048x128 .f32) (harg2 : arg2.IsWhole)
  (arg3 : Memref sig .tc .vmem S1x2048 .i32) (harg3 : arg3.IsWhole) (arg4 : Memref sig .tc .vmem S1x128 .f32) (harg4 : arg4.IsWhole)
  (arg5 : Memref sig .tc .vmem S2048x128 .f32) (harg5 : arg5.IsWhole) (arg6 : Memref sig .tc .vmem S2048x128 .f32) (harg6 : arg6.IsWhole)
  (x0 : Vec F S2048x128 .f32) (x1 : Vec F S1x2048 .i32) (x2 : Vec F S1x128 .f32)

/-- A run of the body from the accumulator held as `acc`, naming the pieces it stores. -/
abbrev Run (acc : sProp 𝕄) :=
  Σ' (LO : List (View.Piece (Elt F) S2048x128 .f32)), { LS : List (View.Piece (Elt F) S2048x128 .f32) //
    ∀ (E : Set ℕ) (K : PUnit → sProp 𝕄),
      iprop(owns (c : Thread nD τ) arg2 fullShare x0 ∗ owns (c : Thread nD τ) arg3 fullShare x1 ∗ owns (c : Thread nD τ) arg4 fullShare x2
          ∗ (∃ d, owns (c : Thread nD τ) arg5 fullShare d) ∗ acc
          ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
        ⊢ wp frame (wpE (defs₀ (F := F)) Variants.none c none) E (cc2__scatter_kernel i arg2 harg2 arg3 harg3 arg4 harg4 arg5 harg5 arg6 harg6) K }

set_option maxHeartbeats 4000000 in
/-- The first edge block of an node block restarts the sum. -/
noncomputable def runFirst (hc : isFirst i) : Run c i arg2 harg2 arg3 harg3 arg4 harg4 arg5 harg5 arg6 harg6 x0 x1 x2 iprop(∃ d, owns (c : Thread nD τ) arg6 fullShare d) := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d5, %f5, -, H5⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

set_option maxHeartbeats 4000000 in
/-- A later edge block adds to the sum `xs` so far. -/
noncomputable def runNext (hc : ¬isFirst i) (xs : Vec F S2048x128 .f32) : Run c i arg2 harg2 arg3 harg3 arg4 harg4 arg5 harg5 arg6 harg6 x0 x1 x2 (owns (c : Thread nD τ) arg6 fullShare xs) := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d5, %f5, -, H5⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

/-- The stored pieces tile the whole block. -/
theorem coverFirst (hc : isFirst i) (y : S2048x128.Idx) :
    (∃ pc ∈ (runFirst c i arg2 harg2 arg3 harg3 arg4 harg4 arg5 harg5 arg6 harg6 x0 x1 x2 hc).1, y ∈ pc.1.set) ∧ ∃ pc ∈ (runFirst c i arg2 harg2 arg3 harg3 arg4 harg4 arg5 harg5 arg6 harg6 x0 x1 x2 hc).2.1, y ∈ pc.1.set :=
  ⟨View.cover_of_tiledL _ S2048x128.size (by sl_kernel_rfl) y, View.cover_of_tiledL _ S2048x128.size (by sl_kernel_rfl) y⟩
theorem coverNext (hc : ¬isFirst i) (xs : Vec F S2048x128 .f32) (y : S2048x128.Idx) :
    (∃ pc ∈ (runNext c i arg2 harg2 arg3 harg3 arg4 harg4 arg5 harg5 arg6 harg6 x0 x1 x2 hc xs).1, y ∈ pc.1.set) ∧ ∃ pc ∈ (runNext c i arg2 harg2 arg3 harg3 arg4 harg4 arg5 harg5 arg6 harg6 x0 x1 x2 hc xs).2.1, y ∈ pc.1.set :=
  ⟨View.cover_of_tiledL _ S2048x128.size (by sl_kernel_rfl) y, View.cover_of_tiledL _ S2048x128.size (by sl_kernel_rfl) y⟩

/-- (output block, running sum) read back from stored pieces. -/
def leaves (LO LS : List (View.Piece (Elt F) S2048x128 .f32)) : Vec F S2048x128 .f32 × Vec F S2048x128 .f32 :=
  (VO.read (Elt F) (VO.writes (Elt F) VO.junk LO), VS.read (Elt F) (VS.writes (Elt F) VS.junk LS))

end Run

abbrev ms0 (t : Fin cfg2.N) : Memref sig .tc .vmem S2048x128 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x2048 .i32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x128 .f32 := win2_3.stage (cfg2.slots t 3)
abbrev hs3 (t : Fin cfg2.N) : (ms3 t).IsWhole := hstage2_3 ((cfg2.slots t 3).cast nbuf2_3)

abbrev bodyAt (t : Fin cfg2.N) : Prog (TpuEff nD τ sig (Elt F) Λ₀ .tc) PUnit :=
  cc2__scatter_kernel (grid2.coords t) (ms0 t) (hs0 t) (ms1 t) (hs1 t) (ms2 t) (hs2 t) (ms3 t) (hs3 t) scM (Memref.isWhole_whole _)

/-- (output block, running sum) after point `t`, by case. -/
def firstAt (c : Dev nD) (t : Fin cfg2.N) (hc : isFirst (grid2.coords t)) : Vec F S2048x128 .f32 × Vec F S2048x128 .f32 :=
  leaves (runFirst c (grid2.coords t) (ms0 t) (hs0 t) (ms1 t) (hs1 t) (ms2 t) (hs2 t) (ms3 t) (hs3 t) scM (Memref.isWhole_whole _) (iblk V c 0 t) (iblk V c 1 t) (iblk V c 2 t) hc).1 (runFirst c (grid2.coords t) (ms0 t) (hs0 t) (ms1 t) (hs1 t) (ms2 t) (hs2 t) (ms3 t) (hs3 t) scM (Memref.isWhole_whole _) (iblk V c 0 t) (iblk V c 1 t) (iblk V c 2 t) hc).2.1
def nextAt (c : Dev nD) (t : Fin cfg2.N) (hc : ¬isFirst (grid2.coords t)) (xs : Vec F S2048x128 .f32) :
    Vec F S2048x128 .f32 × Vec F S2048x128 .f32 :=
  leaves (runNext c (grid2.coords t) (ms0 t) (hs0 t) (ms1 t) (hs1 t) (ms2 t) (hs2 t) (ms3 t) (hs3 t) scM (Memref.isWhole_whole _) (iblk V c 0 t) (iblk V c 1 t) (iblk V c 2 t) hc xs).1 (runNext c (grid2.coords t) (ms0 t) (hs0 t) (ms1 t) (hs1 t) (ms2 t) (hs2 t) (ms3 t) (hs3 t) scM (Memref.isWhole_whole _) (iblk V c 0 t) (iblk V c 1 t) (iblk V c 2 t) hc xs).2.1

def outsAt (c : Dev nD) : (n : ℕ) → n < cfg2.N → Vec F S2048x128 .f32 × Vec F S2048x128 .f32
  | 0, hn => if h : isFirst (grid2.coords ⟨0, hn⟩) then firstAt V c ⟨0, hn⟩ h else nextAt V c ⟨0, hn⟩ h (k2_pay1 (F := F))
  | n + 1, hn =>
    if h : isFirst (grid2.coords ⟨n + 1, hn⟩) then firstAt V c ⟨n + 1, hn⟩ h
    else nextAt V c ⟨n + 1, hn⟩ h (outsAt c n (Nat.lt_of_succ_lt hn)).2

theorem outsAt_first (c : Dev nD) (t : Fin cfg2.N) (hc : isFirst (grid2.coords t)) :
    outsAt V c t.val t.isLt = firstAt V c t hc := by
  obtain ⟨n, hn⟩ := t
  cases n with
  | zero => exact dif_pos hc
  | succ n => exact dif_pos hc

theorem outsAt_next (c : Dev nD) (t : Fin cfg2.N) (ht : t.val ≠ 0) (hc : ¬isFirst (grid2.coords t)) :
    outsAt V c t.val t.isLt
      = nextAt V c t hc (outsAt V c (t.val - 1) (Nat.lt_of_le_of_lt (Nat.sub_le _ _) t.isLt)).2 := by
  obtain ⟨n, hn⟩ := t
  cases n with
  | zero => exact absurd rfl ht
  | succ n => exact dif_neg hc

theorem isFirst_of_coord (i : grid2.Coords) (h : (i 1).val = 0) : isFirst i := by
  unfold isFirst; rw [h]; decide

theorem isFirst_of_zero (t : Fin cfg2.N) (ht : t.val = 0) : isFirst (grid2.coords t) :=
  isFirst_of_coord _ (by
    show t.val / grid2.stride 1 % grid2.bound 1 = 0
    rw [ht, Nat.zero_div, Nat.zero_mod])

theorem PhiA_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM, owns_whole]; try rfl

def PhiS (c : Dev nD) : (n : ℕ) → n ≤ cfg2.N → sProp 𝕄
  | 0, _ => Pipeline.ΦA spec2 c
  | n + 1, hn => iprop(iprop(owns (c : Thread nD τ) scM fullShare ((outsAt V c n hn).2)
      ∗ Pipeline.scopedRestBut (Ix := Unit) (Name := ℕ) (U := UR sig nD τ) (Lvl := ℕ) (Val := Elt F) spec2 c [cc2_scratch0])
      ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2)
      ∗ Pipeline.scopedRestBut (Ix := Unit) (Name := ℕ) (U := UR sig nD τ) (Lvl := ℕ) (Val := Elt F) spec2 c [cc2_scratch0])
      ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2)
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 4800000 in
/-- One argument serves the three cases: any run whose pieces tile both blocks re-establishes the invariant. -/
theorem body_of_run (c : Dev nD) (t : Fin cfg2.N) {A acc O : sProp 𝕄} (hA : A ⊢ acc) (r : Run c (grid2.coords t) (ms0 t) (hs0 t) (ms1 t) (hs1 t) (ms2 t) (hs2 t) (ms3 t) (hs3 t) scM (Memref.isWhole_whole _) (iblk V c 0 t) (iblk V c 1 t) (iblk V c 2 t) acc)
    (hO : ∀ y, ∃ pc ∈ r.1, y ∈ pc.1.set) (hS : ∀ y, ∃ pc ∈ r.2.1, y ∈ pc.1.set) :
    iprop(iprop(iprop(A ∗ Pipeline.scopedRestBut (Ix := Unit) (Name := ℕ) (U := UR sig nD τ) (Lvl := ℕ) (Val := Elt F) spec2 c [cc2_scratch0]) ∗ (∃ r, prngReg c r)) ∗ O
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d))
        ∗ (∃ d, owns (c : Thread nD τ) (ms3 t) fullShare ((dat V c).before 3 t d)))
      ⊢ wp frame (wpE (defs₀ (F := F)) Variants.none c none) Set.univ (bodyAt t) (fun _ =>
        iprop(iprop(iprop(owns (c : Thread nD τ) scM fullShare (leaves r.1 r.2.1).2 ∗ Pipeline.scopedRestBut (Ix := Unit) (Name := ℕ) (U := UR sig nD τ) (Lvl := ℕ) (Val := Elt F) spec2 c [cc2_scratch0]) ∗ (∃ r, prngReg c r)) ∗ O
          ∗ owns (c : Thread nD τ) (ms0 t) fullShare (iblk V c 0 t)
          ∗ owns (c : Thread nD τ) (ms1 t) fullShare (iblk V c 1 t)
          ∗ owns (c : Thread nD τ) (ms2 t) fullShare (iblk V c 2 t)
          ∗ owns (c : Thread nD τ) (ms3 t) fullShare (leaves r.1 r.2.1).1)) := by
  simp only [before_0, before_1, before_2]
  iintro ⟨⟨⟨HS, Hrest⟩, Hg⟩, Ho, ⟨%d0, H0⟩, ⟨%d1, H1⟩, ⟨%d2, H2⟩, ⟨%d3, H3⟩⟩
  iapply (r.2.2 Set.univ _)
  isplitl [H0]; · iexact H0
  isplitl [H1]; · iexact H1
  isplitl [H2]; · iexact H2
  isplitl [H3]; · iexists _; iexact H3
  isplitl [HS]; · iapply hA; iexact HS
  iintro ⟨H0, H1, H2, ⟨%e3, H3⟩, ⟨%es, HS⟩⟩
  isplitl [HS Hrest Hg]
  · isplitl [HS Hrest]
    · isplitl [HS]
      · unfold owns; iexists _; isplitr
        swap; · iexact HS
        ipureintro; exact View.read_writes_of_cover _ _ VS VS.junk _ hS
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ VO VO.junk _ hO

/-- Cases: a restart from anything, a restart over an earlier sum, a continuation. -/
theorem sound_body (c : Dev nD) (t : Fin cfg2.N) :
    bodyPre V c t ⊢ wp frame (wpE (defs₀ (F := F)) Variants.none c none) Set.univ (bodyAt t) (fun _ => bodyPost V c t) := by
  unfold bodyPre bodyPost
  rw [show (dat V c).owesAt () t.succ = (dat V c).owesAt () t.castSucc from rfl,
    show (dat V c).Φ t.succ = PhiS V c (t.val + 1) t.isLt from rfl, PhiS_succ, after_0, after_1, after_2, after_3, Phi_castSucc V c t]
  by_cases hc : isFirst (grid2.coords t)
  · rw [outsAt_first V c t hc]
    by_cases hz : t.val = 0
    · rw [PhiS_zero V c _ _ hz, PhiA_eq]
      exact body_of_run V c t .rfl (runFirst c (grid2.coords t) (ms0 t) (hs0 t) (ms1 t) (hs1 t) (ms2 t) (hs2 t) (ms3 t) (hs3 t) scM (Memref.isWhole_whole _) (iblk V c 0 t) (iblk V c 1 t) (iblk V c 2 t) hc) (fun y => (coverFirst c (grid2.coords t) (ms0 t) (hs0 t) (ms1 t) (hs1 t) (ms2 t) (hs2 t) (ms3 t) (hs3 t) scM (Memref.isWhole_whole _) (iblk V c 0 t) (iblk V c 1 t) (iblk V c 2 t) hc y).1) (fun y => (coverFirst c (grid2.coords t) (ms0 t) (hs0 t) (ms1 t) (hs1 t) (ms2 t) (hs2 t) (ms3 t) (hs3 t) scM (Memref.isWhole_whole _) (iblk V c 0 t) (iblk V c 1 t) (iblk V c 2 t) hc y).2)
    · rw [PhiS_pos V c _ _ hz]
      exact body_of_run V c t (by iintro H; iexists _; iexact H) (runFirst c (grid2.coords t) (ms0 t) (hs0 t) (ms1 t) (hs1 t) (ms2 t) (hs2 t) (ms3 t) (hs3 t) scM (Memref.isWhole_whole _) (iblk V c 0 t) (iblk V c 1 t) (iblk V c 2 t) hc) (fun y => (coverFirst c (grid2.coords t) (ms0 t) (hs0 t) (ms1 t) (hs1 t) (ms2 t) (hs2 t) (ms3 t) (hs3 t) scM (Memref.isWhole_whole _) (iblk V c 0 t) (iblk V c 1 t) (iblk V c 2 t) hc y).1) (fun y => (coverFirst c (grid2.coords t) (ms0 t) (hs0 t) (ms1 t) (hs1 t) (ms2 t) (hs2 t) (ms3 t) (hs3 t) scM (Memref.isWhole_whole _) (iblk V c 0 t) (iblk V c 1 t) (iblk V c 2 t) hc y).2)
  · have hz : t.val ≠ 0 := fun h0 => hc (isFirst_of_zero t h0)
    rw [outsAt_next V c t hz hc, PhiS_pos V c _ _ hz]
    exact body_of_run V c t .rfl (runNext c (grid2.coords t) (ms0 t) (hs0 t) (ms1 t) (hs1 t) (ms2 t) (hs2 t) (ms3 t) (hs3 t) scM (Memref.isWhole_whole _) (iblk V c 0 t) (iblk V c 1 t) (iblk V c 2 t) hc _) (fun y => (coverNext c (grid2.coords t) (ms0 t) (hs0 t) (ms1 t) (hs1 t) (ms2 t) (hs2 t) (ms3 t) (hs3 t) scM (Memref.isWhole_whole _) (iblk V c 0 t) (iblk V c 1 t) (iblk V c 2 t) hc _ y).1) (fun y => (coverNext c (grid2.coords t) (ms0 t) (hs0 t) (ms1 t) (hs1 t) (ms2 t) (hs2 t) (ms3 t) (hs3 t) scM (Memref.isWhole_whole _) (iblk V c 0 t) (iblk V c 1 t) (iblk V c 2 t) hc _ y).2)

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg2.N) ⊢ Pipeline.ΦA spec2 c := by
  rw [show (dat V c).Φ (Fin.last cfg2.N) = PhiS V c cfg2.N (Nat.le_refl _) from rfl,
    PhiS_pos V c _ _ (by have : cfg2.N = 40719 := N_2; omega), PhiA_eq]
  iintro ⟨⟨HS, Hrest⟩, Hg⟩
  isplitl [HS Hrest]
  · isplitl [HS]
    · iexists _; iexact HS
    iexact Hrest
  iexact Hg

end Cert.KernelIdeal.Scatter2

end
-- ==== Proof.IdealRegions.Proj3.lean ====
/- A projection region: each point is an independent matrix product. -/
import proofs.«127098_j12489764897128_1_alg».proof.Proof.Gen.KernelIdeal.Launch
import proofs.«127098_j12489764897128_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S2048x128 := Rect.unit (s := S2048x128) ![0, 0] S2048x128.size inb_S2048x128_S2048x128_0_0
abbrev rW : Rect S128x64 := Rect.unit (s := S128x64) ![0, 0] S128x64.size inb_S128x64_S128x64_0_0
abbrev rO : Rect S2048x64 := Rect.unit (s := S2048x64) ![0, 0] S2048x64.size inb_S2048x64_S2048x64_0_0

def out (x : Vec F S2048x128 .f32) (w : Vec F S128x64 .f32) : Vec F S2048x64 .f32 :=
  View.canon [⟨rO, k3_pay1 (View.ld x rX) (View.ld w rW)⟩]

theorem cover (p0 : Vec F S2048x64 .f32) (y : S2048x64.Idx) :
    ∃ pc ∈ ([⟨rO, p0⟩] : List (View.Piece (Elt F) S2048x64 .f32)), y ∈ pc.1.set :=
  View.cover_of_tiled [⟨rO, p0⟩] S2048x64.size (by rfl) y

set_option maxHeartbeats 1000000 in

theorem sound_kernel (c : Dev nD) (E : Set ℕ) (i : grid3.Coords)
    (arg1 : Memref sig .tc .vmem S2048x128 .f32) (harg1 : arg1.IsWhole)
    (arg2 : Memref sig .tc .vmem S128x64 .f32) (harg2 : arg2.IsWhole)
    (arg3 : Memref sig .tc .vmem S2048x64 .f32) (harg3 : arg3.IsWhole)
    (x : Vec F S2048x128 .f32) (w : Vec F S128x64 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (out x w)) -∗ K ⟨⟩))
      ⊢ wp frame (wpE (defs₀ (F := F)) Variants.none c none) E (cc3__proj_kernel i arg1 harg1 arg2 harg2 arg3 harg3) K := by
  simp only [cc3__proj_kernel_eq_skeleton]; unfold cc3__proj_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => out (iblk V c 0 t) (iblk V c 1 t)
  Φ _ := Pipeline.ΦA spec3 c
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = out (iblk V c 0 t) (iblk V c 1 t) := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

abbrev st (w : Fin cfg3.W) (t : Fin cfg3.N) := (cfg3.win w).stage (cfg3.slots t w)

abbrev bodyAt (t : Fin cfg3.N) : Prog (TpuEff nD τ sig (Elt F) Λ₀ .tc) PUnit :=
  cc3__proj_kernel (grid3.coords t) (win3_0.stage (cfg3.slots t 0)) (hstage3_0 ((cfg3.slots t 0).cast nbuf3_0))
    (win3_1.stage (cfg3.slots t 1)) (hstage3_1 ((cfg3.slots t 1).cast nbuf3_1))
    (win3_2.stage (cfg3.slots t 2)) (hstage3_2 ((cfg3.slots t 2).cast nbuf3_2))

def bodyPre (c : Dev nD) (t : Fin cfg3.N) : sProp 𝕄 :=
  iprop((dat V c).Φ t.castSucc ∗ (dat V c).owesAt () t.castSucc
    ∗ (∃ d, owns (c : Thread nD τ) (st 0 t) fullShare ((dat V c).before 0 t d))
    ∗ (∃ d, owns (c : Thread nD τ) (st 1 t) fullShare ((dat V c).before 1 t d))
    ∗ (∃ d, owns (c : Thread nD τ) (st 2 t) fullShare ((dat V c).before 2 t d)))

def bodyPost (c : Dev nD) (t : Fin cfg3.N) : sProp 𝕄 :=
  iprop((dat V c).Φ t.succ ∗ (dat V c).owesAt () t.succ
    ∗ owns (c : Thread nD τ) (st 0 t) fullShare ((dat V c).after 0 t)
    ∗ owns (c : Thread nD τ) (st 1 t) fullShare ((dat V c).after 1 t)
    ∗ owns (c : Thread nD τ) (st 2 t) fullShare ((dat V c).after 2 t))

theorem sound_body (c : Dev nD) (t : Fin cfg3.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W3, bigSep_W3]
  exact sound_body V c t

end Cert.KernelIdeal.Proj3

end
-- ==== Proof.IdealRegions.Gather4.lean ====
/- A gather region as a running sum over node blocks, restarted at each edge block; the sum after each point is defined by recursion on the point. -/
import proofs.«127098_j12489764897128_1_alg».proof.Proof.Gen.KernelIdeal.Launch
import proofs.«127098_j12489764897128_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gather4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev isFirst (i : grid4.Coords) : Prop :=
  (Scalar.cmpi .ne (Scalar.extui (Scalar.cmpi .eq (BitVec.ofNat 32 (i 1).val) 0#32)) 0#32) = 1#1

abbrev scM : Memref sig .tc .vmem S2048x64 .f32 := Memref.whole cc4_scratch0
abbrev VS : View sig .tc .vmem S2048x64 .f32 := (scM).view
abbrev VO : View sig .tc .vmem S2048x64 .f32 := (Memref.whole cc4_stg3_0 : Memref sig .tc .vmem S2048x64 .f32).view

section Run

variable (c : Dev nD) (i : grid4.Coords) (arg2 : Memref sig .tc .vmem S2048x64 .f32) (harg2 : arg2.IsWhole)
  (arg3 : Memref sig .tc .vmem S1x2048 .i32) (harg3 : arg3.IsWhole) (arg4 : Memref sig .tc .vmem S1x2048 .f32) (harg4 : arg4.IsWhole)
  (arg5 : Memref sig .tc .vmem S2048x64 .f32) (harg5 : arg5.IsWhole) (arg6 : Memref sig .tc .vmem S2048x64 .f32) (harg6 : arg6.IsWhole)
  (x0 : Vec F S2048x64 .f32) (x1 : Vec F S1x2048 .i32) (x2 : Vec F S1x2048 .f32)

/-- A run of the body from the accumulator held as `acc`, naming the pieces it stores. -/
abbrev Run (acc : sProp 𝕄) :=
  Σ' (LO : List (View.Piece (Elt F) S2048x64 .f32)), { LS : List (View.Piece (Elt F) S2048x64 .f32) //
    ∀ (E : Set ℕ) (K : PUnit → sProp 𝕄),
      iprop(owns (c : Thread nD τ) arg2 fullShare x0 ∗ owns (c : Thread nD τ) arg3 fullShare x1 ∗ owns (c : Thread nD τ) arg4 fullShare x2
          ∗ (∃ d, owns (c : Thread nD τ) arg5 fullShare d) ∗ acc
          ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
        ⊢ wp frame (wpE (defs₀ (F := F)) Variants.none c none) E (cc4__gather_kernel i arg2 harg2 arg3 harg3 arg4 harg4 arg5 harg5 arg6 harg6) K }

set_option maxHeartbeats 4000000 in
/-- The first node block of an edge block restarts the sum. -/
noncomputable def runFirst (hc : isFirst i) : Run c i arg2 harg2 arg3 harg3 arg4 harg4 arg5 harg5 arg6 harg6 x0 x1 x2 iprop(∃ d, owns (c : Thread nD τ) arg6 fullShare d) := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d5, %f5, -, H5⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

set_option maxHeartbeats 4000000 in
/-- A later node block adds to the sum `xs` so far. -/
noncomputable def runNext (hc : ¬isFirst i) (xs : Vec F S2048x64 .f32) : Run c i arg2 harg2 arg3 harg3 arg4 harg4 arg5 harg5 arg6 harg6 x0 x1 x2 (owns (c : Thread nD τ) arg6 fullShare xs) := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d5, %f5, -, H5⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

/-- The stored pieces tile the whole block. -/
theorem coverFirst (hc : isFirst i) (y : S2048x64.Idx) :
    (∃ pc ∈ (runFirst c i arg2 harg2 arg3 harg3 arg4 harg4 arg5 harg5 arg6 harg6 x0 x1 x2 hc).1, y ∈ pc.1.set) ∧ ∃ pc ∈ (runFirst c i arg2 harg2 arg3 harg3 arg4 harg4 arg5 harg5 arg6 harg6 x0 x1 x2 hc).2.1, y ∈ pc.1.set :=
  ⟨View.cover_of_tiledL _ S2048x64.size (by sl_kernel_rfl) y, View.cover_of_tiledL _ S2048x64.size (by sl_kernel_rfl) y⟩
theorem coverNext (hc : ¬isFirst i) (xs : Vec F S2048x64 .f32) (y : S2048x64.Idx) :
    (∃ pc ∈ (runNext c i arg2 harg2 arg3 harg3 arg4 harg4 arg5 harg5 arg6 harg6 x0 x1 x2 hc xs).1, y ∈ pc.1.set) ∧ ∃ pc ∈ (runNext c i arg2 harg2 arg3 harg3 arg4 harg4 arg5 harg5 arg6 harg6 x0 x1 x2 hc xs).2.1, y ∈ pc.1.set :=
  ⟨View.cover_of_tiledL _ S2048x64.size (by sl_kernel_rfl) y, View.cover_of_tiledL _ S2048x64.size (by sl_kernel_rfl) y⟩

/-- (output block, running sum) read back from stored pieces. -/
def leaves (LO LS : List (View.Piece (Elt F) S2048x64 .f32)) : Vec F S2048x64 .f32 × Vec F S2048x64 .f32 :=
  (VO.read (Elt F) (VO.writes (Elt F) VO.junk LO), VS.read (Elt F) (VS.writes (Elt F) VS.junk LS))

end Run

abbrev ms0 (t : Fin cfg4.N) : Memref sig .tc .vmem S2048x64 .f32 := win4_0.stage (cfg4.slots t 0)
abbrev hs0 (t : Fin cfg4.N) : (ms0 t).IsWhole := hstage4_0 ((cfg4.slots t 0).cast nbuf4_0)
abbrev ms1 (t : Fin cfg4.N) : Memref sig .tc .vmem S1x2048 .i32 := win4_1.stage (cfg4.slots t 1)
abbrev hs1 (t : Fin cfg4.N) : (ms1 t).IsWhole := hstage4_1 ((cfg4.slots t 1).cast nbuf4_1)
abbrev ms2 (t : Fin cfg4.N) : Memref sig .tc .vmem S1x2048 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S2048x64 .f32 := win4_3.stage (cfg4.slots t 3)
abbrev hs3 (t : Fin cfg4.N) : (ms3 t).IsWhole := hstage4_3 ((cfg4.slots t 3).cast nbuf4_3)

abbrev bodyAt (t : Fin cfg4.N) : Prog (TpuEff nD τ sig (Elt F) Λ₀ .tc) PUnit :=
  cc4__gather_kernel (grid4.coords t) (ms0 t) (hs0 t) (ms1 t) (hs1 t) (ms2 t) (hs2 t) (ms3 t) (hs3 t) scM (Memref.isWhole_whole _)

/-- (output block, running sum) after point `t`, by case. -/
def firstAt (c : Dev nD) (t : Fin cfg4.N) (hc : isFirst (grid4.coords t)) : Vec F S2048x64 .f32 × Vec F S2048x64 .f32 :=
  leaves (runFirst c (grid4.coords t) (ms0 t) (hs0 t) (ms1 t) (hs1 t) (ms2 t) (hs2 t) (ms3 t) (hs3 t) scM (Memref.isWhole_whole _) (iblk V c 0 t) (iblk V c 1 t) (iblk V c 2 t) hc).1 (runFirst c (grid4.coords t) (ms0 t) (hs0 t) (ms1 t) (hs1 t) (ms2 t) (hs2 t) (ms3 t) (hs3 t) scM (Memref.isWhole_whole _) (iblk V c 0 t) (iblk V c 1 t) (iblk V c 2 t) hc).2.1
def nextAt (c : Dev nD) (t : Fin cfg4.N) (hc : ¬isFirst (grid4.coords t)) (xs : Vec F S2048x64 .f32) :
    Vec F S2048x64 .f32 × Vec F S2048x64 .f32 :=
  leaves (runNext c (grid4.coords t) (ms0 t) (hs0 t) (ms1 t) (hs1 t) (ms2 t) (hs2 t) (ms3 t) (hs3 t) scM (Memref.isWhole_whole _) (iblk V c 0 t) (iblk V c 1 t) (iblk V c 2 t) hc xs).1 (runNext c (grid4.coords t) (ms0 t) (hs0 t) (ms1 t) (hs1 t) (ms2 t) (hs2 t) (ms3 t) (hs3 t) scM (Memref.isWhole_whole _) (iblk V c 0 t) (iblk V c 1 t) (iblk V c 2 t) hc xs).2.1

def outsAt (c : Dev nD) : (n : ℕ) → n < cfg4.N → Vec F S2048x64 .f32 × Vec F S2048x64 .f32
  | 0, hn => if h : isFirst (grid4.coords ⟨0, hn⟩) then firstAt V c ⟨0, hn⟩ h else nextAt V c ⟨0, hn⟩ h (k4_pay1 (F := F))
  | n + 1, hn =>
    if h : isFirst (grid4.coords ⟨n + 1, hn⟩) then firstAt V c ⟨n + 1, hn⟩ h
    else nextAt V c ⟨n + 1, hn⟩ h (outsAt c n (Nat.lt_of_succ_lt hn)).2

theorem outsAt_first (c : Dev nD) (t : Fin cfg4.N) (hc : isFirst (grid4.coords t)) :
    outsAt V c t.val t.isLt = firstAt V c t hc := by
  obtain ⟨n, hn⟩ := t
  cases n with
  | zero => exact dif_pos hc
  | succ n => exact dif_pos hc

theorem outsAt_next (c : Dev nD) (t : Fin cfg4.N) (ht : t.val ≠ 0) (hc : ¬isFirst (grid4.coords t)) :
    outsAt V c t.val t.isLt
      = nextAt V c t hc (outsAt V c (t.val - 1) (Nat.lt_of_le_of_lt (Nat.sub_le _ _) t.isLt)).2 := by
  obtain ⟨n, hn⟩ := t
  cases n with
  | zero => exact absurd rfl ht
  | succ n => exact dif_neg hc

theorem isFirst_of_coord (i : grid4.Coords) (h : (i 1).val = 0) : isFirst i := by
  unfold isFirst; rw [h]; decide

theorem isFirst_of_zero (t : Fin cfg4.N) (ht : t.val = 0) : isFirst (grid4.coords t) :=
  isFirst_of_coord _ (by
    show t.val / grid4.stride 1 % grid4.bound 1 = 0
    rw [ht, Nat.zero_div, Nat.zero_mod])

theorem PhiA_eq (c : Dev nD) :
    (Pipeline.ΦA spec4 c : sProp 𝕄)
      = iprop(iprop((∃ d, owns (c : Thread nD τ) scM fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM, owns_whole]; try rfl

def PhiS (c : Dev nD) : (n : ℕ) → n ≤ cfg4.N → sProp 𝕄
  | 0, _ => Pipeline.ΦA spec4 c
  | n + 1, hn => iprop(iprop(owns (c : Thread nD τ) scM fullShare ((outsAt V c n hn).2)
      ∗ Pipeline.scopedRestBut (Ix := Unit) (Name := ℕ) (U := UR sig nD τ) (Lvl := ℕ) (Val := Elt F) spec4 c [cc4_scratch0])
      ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(iprop(owns (c : Thread nD τ) scM fullShare ((outsAt V c n hn).2)
      ∗ Pipeline.scopedRestBut (Ix := Unit) (Name := ℕ) (U := UR sig nD τ) (Lvl := ℕ) (Val := Elt F) spec4 c [cc4_scratch0])
      ∗ (∃ r, prngReg c r)) := rfl
theorem PhiS_pos (c : Dev nD) (n : ℕ) (h : n ≤ cfg4.N) (hz : n ≠ 0) :
    PhiS V c n h = iprop(iprop(owns (c : Thread nD τ) scM fullShare ((outsAt V c (n - 1) (by omega)).2)
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]
theorem Phi_castSucc (c : Dev nD) (t : Fin cfg4.N) :
    (dat V c).Φ t.castSucc = PhiS V c t.val (Nat.le_of_lt t.isLt) := by
  dsimp only [dat]; simp only [Fin.coe_castSucc]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = (outsAt V c t.val t.isLt).1 := by dsimp only [dat]

theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d
theorem before_2 (c : Dev nD) (t : Fin cfg4.N) (d) : (dat V c).before 2 t d = iblk V c 2 t :=
  before_2_of V (dat V c) (A_eq V c 2) (after_2 V c) t d

def bodyPre (c : Dev nD) (t : Fin cfg4.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg4.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 4800000 in
/-- One argument serves the three cases: any run whose pieces tile both blocks re-establishes the invariant. -/
theorem body_of_run (c : Dev nD) (t : Fin cfg4.N) {A acc O : sProp 𝕄} (hA : A ⊢ acc) (r : Run c (grid4.coords t) (ms0 t) (hs0 t) (ms1 t) (hs1 t) (ms2 t) (hs2 t) (ms3 t) (hs3 t) scM (Memref.isWhole_whole _) (iblk V c 0 t) (iblk V c 1 t) (iblk V c 2 t) acc)
    (hO : ∀ y, ∃ pc ∈ r.1, y ∈ pc.1.set) (hS : ∀ y, ∃ pc ∈ r.2.1, y ∈ pc.1.set) :
    iprop(iprop(iprop(A ∗ Pipeline.scopedRestBut (Ix := Unit) (Name := ℕ) (U := UR sig nD τ) (Lvl := ℕ) (Val := Elt F) spec4 c [cc4_scratch0]) ∗ (∃ r, prngReg c r)) ∗ O
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d))
        ∗ (∃ d, owns (c : Thread nD τ) (ms3 t) fullShare ((dat V c).before 3 t d)))
      ⊢ wp frame (wpE (defs₀ (F := F)) Variants.none c none) Set.univ (bodyAt t) (fun _ =>
        iprop(iprop(iprop(owns (c : Thread nD τ) scM fullShare (leaves r.1 r.2.1).2 ∗ Pipeline.scopedRestBut (Ix := Unit) (Name := ℕ) (U := UR sig nD τ) (Lvl := ℕ) (Val := Elt F) spec4 c [cc4_scratch0]) ∗ (∃ r, prngReg c r)) ∗ O
          ∗ owns (c : Thread nD τ) (ms0 t) fullShare (iblk V c 0 t)
          ∗ owns (c : Thread nD τ) (ms1 t) fullShare (iblk V c 1 t)
          ∗ owns (c : Thread nD τ) (ms2 t) fullShare (iblk V c 2 t)
          ∗ owns (c : Thread nD τ) (ms3 t) fullShare (leaves r.1 r.2.1).1)) := by
  simp only [before_0, before_1, before_2]
  iintro ⟨⟨⟨HS, Hrest⟩, Hg⟩, Ho, ⟨%d0, H0⟩, ⟨%d1, H1⟩, ⟨%d2, H2⟩, ⟨%d3, H3⟩⟩
  iapply (r.2.2 Set.univ _)
  isplitl [H0]; · iexact H0
  isplitl [H1]; · iexact H1
  isplitl [H2]; · iexact H2
  isplitl [H3]; · iexists _; iexact H3
  isplitl [HS]; · iapply hA; iexact HS
  iintro ⟨H0, H1, H2, ⟨%e3, H3⟩, ⟨%es, HS⟩⟩
  isplitl [HS Hrest Hg]
  · isplitl [HS Hrest]
    · isplitl [HS]
      · unfold owns; iexists _; isplitr
        swap; · iexact HS
        ipureintro; exact View.read_writes_of_cover _ _ VS VS.junk _ hS
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ VO VO.junk _ hO

/-- Cases: a restart from anything, a restart over an earlier sum, a continuation. -/
theorem sound_body (c : Dev nD) (t : Fin cfg4.N) :
    bodyPre V c t ⊢ wp frame (wpE (defs₀ (F := F)) Variants.none c none) Set.univ (bodyAt t) (fun _ => bodyPost V c t) := by
  unfold bodyPre bodyPost
  rw [show (dat V c).owesAt () t.succ = (dat V c).owesAt () t.castSucc from rfl,
    show (dat V c).Φ t.succ = PhiS V c (t.val + 1) t.isLt from rfl, PhiS_succ, after_0, after_1, after_2, after_3, Phi_castSucc V c t]
  by_cases hc : isFirst (grid4.coords t)
  · rw [outsAt_first V c t hc]
    by_cases hz : t.val = 0
    · rw [PhiS_zero V c _ _ hz, PhiA_eq]
      exact body_of_run V c t .rfl (runFirst c (grid4.coords t) (ms0 t) (hs0 t) (ms1 t) (hs1 t) (ms2 t) (hs2 t) (ms3 t) (hs3 t) scM (Memref.isWhole_whole _) (iblk V c 0 t) (iblk V c 1 t) (iblk V c 2 t) hc) (fun y => (coverFirst c (grid4.coords t) (ms0 t) (hs0 t) (ms1 t) (hs1 t) (ms2 t) (hs2 t) (ms3 t) (hs3 t) scM (Memref.isWhole_whole _) (iblk V c 0 t) (iblk V c 1 t) (iblk V c 2 t) hc y).1) (fun y => (coverFirst c (grid4.coords t) (ms0 t) (hs0 t) (ms1 t) (hs1 t) (ms2 t) (hs2 t) (ms3 t) (hs3 t) scM (Memref.isWhole_whole _) (iblk V c 0 t) (iblk V c 1 t) (iblk V c 2 t) hc y).2)
    · rw [PhiS_pos V c _ _ hz]
      exact body_of_run V c t (by iintro H; iexists _; iexact H) (runFirst c (grid4.coords t) (ms0 t) (hs0 t) (ms1 t) (hs1 t) (ms2 t) (hs2 t) (ms3 t) (hs3 t) scM (Memref.isWhole_whole _) (iblk V c 0 t) (iblk V c 1 t) (iblk V c 2 t) hc) (fun y => (coverFirst c (grid4.coords t) (ms0 t) (hs0 t) (ms1 t) (hs1 t) (ms2 t) (hs2 t) (ms3 t) (hs3 t) scM (Memref.isWhole_whole _) (iblk V c 0 t) (iblk V c 1 t) (iblk V c 2 t) hc y).1) (fun y => (coverFirst c (grid4.coords t) (ms0 t) (hs0 t) (ms1 t) (hs1 t) (ms2 t) (hs2 t) (ms3 t) (hs3 t) scM (Memref.isWhole_whole _) (iblk V c 0 t) (iblk V c 1 t) (iblk V c 2 t) hc y).2)
  · have hz : t.val ≠ 0 := fun h0 => hc (isFirst_of_zero t h0)
    rw [outsAt_next V c t hz hc, PhiS_pos V c _ _ hz]
    exact body_of_run V c t .rfl (runNext c (grid4.coords t) (ms0 t) (hs0 t) (ms1 t) (hs1 t) (ms2 t) (hs2 t) (ms3 t) (hs3 t) scM (Memref.isWhole_whole _) (iblk V c 0 t) (iblk V c 1 t) (iblk V c 2 t) hc _) (fun y => (coverNext c (grid4.coords t) (ms0 t) (hs0 t) (ms1 t) (hs1 t) (ms2 t) (hs2 t) (ms3 t) (hs3 t) scM (Memref.isWhole_whole _) (iblk V c 0 t) (iblk V c 1 t) (iblk V c 2 t) hc _ y).1) (fun y => (coverNext c (grid4.coords t) (ms0 t) (hs0 t) (ms1 t) (hs1 t) (ms2 t) (hs2 t) (ms3 t) (hs3 t) scM (Memref.isWhole_whole _) (iblk V c 0 t) (iblk V c 1 t) (iblk V c 2 t) hc _ y).2)

theorem body_obligation (c : Dev nD) : BodyObligation (dat (F := F) V c) (defs₀ (F := F)) Variants.none () Set.univ := fun t => by
  rw [bigSep_W4, bigSep_W4]
  exact sound_body V c t

theorem hin (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg4.N) ⊢ Pipeline.ΦA spec4 c := by
  rw [show (dat V c).Φ (Fin.last cfg4.N) = PhiS V c cfg4.N (Nat.le_refl _) from rfl,
    PhiS_pos V c _ _ (by have : cfg4.N = 40719 := N_4; omega), PhiA_eq]
  iintro ⟨⟨HS, Hrest⟩, Hg⟩
  isplitl [HS Hrest]
  · isplitl [HS]
    · iexists _; iexact HS
    iexact Hrest
  iexact Hg

end Cert.KernelIdeal.Gather4

end
-- ==== Proof.IdealRegions.Scatter5.lean ====
/- A scatter region as a running sum over edge blocks, restarted at each node block; the sum after each point is defined by recursion on the point. -/
import proofs.«127098_j12489764897128_1_alg».proof.Proof.Gen.KernelIdeal.Launch
import proofs.«127098_j12489764897128_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scatter5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before_0_of {c : Dev nD} (dat : Dat τ (Elt F) Unit ℕ (UR sig nD τ) ℕ cfg5 c) (hA : dat.A 0 = V c (Pipeline.arrRef spec5 0))
    (hafter : ∀ t, dat.after 0 t = iblk V c 0 t) (t : Fin cfg5.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg5 c) (hA : dat.A 1 = V c (Pipeline.arrRef spec5 1))
    (hafter : ∀ t, dat.after 1 t = iblk V c 1 t) (t : Fin cfg5.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg5 c) (hA : dat.A 2 = V c (Pipeline.arrRef spec5 2))
    (hafter : ∀ t, dat.after 2 t = iblk V c 2 t) (t : Fin cfg5.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev isFirst (i : grid5.Coords) : Prop :=
  (Scalar.cmpi .ne (Scalar.extui (Scalar.cmpi .eq (BitVec.ofNat 32 (i 1).val) 0#32)) 0#32) = 1#1

abbrev scM : Memref sig .tc .vmem S2048x64 .f32 := Memref.whole cc5_scratch0
abbrev VS : View sig .tc .vmem S2048x64 .f32 := (scM).view
abbrev VO : View sig .tc .vmem S2048x64 .f32 := (Memref.whole cc5_stg3_0 : Memref sig .tc .vmem S2048x64 .f32).view

section Run

variable (c : Dev nD) (i : grid5.Coords) (arg2 : Memref sig .tc .vmem S2048x64 .f32) (harg2 : arg2.IsWhole)
  (arg3 : Memref sig .tc .vmem S1x2048 .i32) (harg3 : arg3.IsWhole) (arg4 : Memref sig .tc .vmem S1x64 .f32) (harg4 : arg4.IsWhole)
  (arg5 : Memref sig .tc .vmem S2048x64 .f32) (harg5 : arg5.IsWhole) (arg6 : Memref sig .tc .vmem S2048x64 .f32) (harg6 : arg6.IsWhole)
  (x0 : Vec F S2048x64 .f32) (x1 : Vec F S1x2048 .i32) (x2 : Vec F S1x64 .f32)

/-- A run of the body from the accumulator held as `acc`, naming the pieces it stores. -/
abbrev Run (acc : sProp 𝕄) :=
  Σ' (LO : List (View.Piece (Elt F) S2048x64 .f32)), { LS : List (View.Piece (Elt F) S2048x64 .f32) //
    ∀ (E : Set ℕ) (K : PUnit → sProp 𝕄),
      iprop(owns (c : Thread nD τ) arg2 fullShare x0 ∗ owns (c : Thread nD τ) arg3 fullShare x1 ∗ owns (c : Thread nD τ) arg4 fullShare x2
          ∗ (∃ d, owns (c : Thread nD τ) arg5 fullShare d) ∗ acc
          ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
        ⊢ wp frame (wpE (defs₀ (F := F)) Variants.none c none) E (cc5__scatter_kernel i arg2 harg2 arg3 harg3 arg4 harg4 arg5 harg5 arg6 harg6) K }

set_option maxHeartbeats 4000000 in
/-- The first edge block of an node block restarts the sum. -/
noncomputable def runFirst (hc : isFirst i) : Run c i arg2 harg2 arg3 harg3 arg4 harg4 arg5 harg5 arg6 harg6 x0 x1 x2 iprop(∃ d, owns (c : Thread nD τ) arg6 fullShare d) := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d5, %f5, -, H5⟩, ⟨%ds, %fs, -, HS⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

set_option maxHeartbeats 4000000 in
/-- A later edge block adds to the sum `xs` so far. -/
noncomputable def runNext (hc : ¬isFirst i) (xs : Vec F S2048x64 .f32) : Run c i arg2 harg2 arg3 harg3 arg4 harg4 arg5 harg5 arg6 harg6 x0 x1 x2 (owns (c : Thread nD τ) arg6 fullShare xs) := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d5, %f5, -, H5⟩, ⟨%fs, %hfs, HS⟩, Hk⟩
    obtain rfl := harg2.eq_unread hf0; obtain rfl := harg3.eq_unread hf1; obtain rfl := harg4.eq_unread hf2; obtain rfl := harg6.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    iexists _; iexact HS

/-- The stored pieces tile the whole block. -/
theorem coverFirst (hc : isFirst i) (y : S2048x64.Idx) :
    (∃ pc ∈ (runFirst c i arg2 harg2 arg3 harg3 arg4 harg4 arg5 harg5 arg6 harg6 x0 x1 x2 hc).1, y ∈ pc.1.set) ∧ ∃ pc ∈ (runFirst c i arg2 harg2 arg3 harg3 arg4 harg4 arg5 harg5 arg6 harg6 x0 x1 x2 hc).2.1, y ∈ pc.1.set :=
  ⟨View.cover_of_tiledL _ S2048x64.size (by sl_kernel_rfl) y, View.cover_of_tiledL _ S2048x64.size (by sl_kernel_rfl) y⟩
theorem coverNext (hc : ¬isFirst i) (xs : Vec F S2048x64 .f32) (y : S2048x64.Idx) :
    (∃ pc ∈ (runNext c i arg2 harg2 arg3 harg3 arg4 harg4 arg5 harg5 arg6 harg6 x0 x1 x2 hc xs).1, y ∈ pc.1.set) ∧ ∃ pc ∈ (runNext c i arg2 harg2 arg3 harg3 arg4 harg4 arg5 harg5 arg6 harg6 x0 x1 x2 hc xs).2.1, y ∈ pc.1.set :=
  ⟨View.cover_of_tiledL _ S2048x64.size (by sl_kernel_rfl) y, View.cover_of_tiledL _ S2048x64.size (by sl_kernel_rfl) y⟩

/-- (output block, running sum) read back from stored pieces. -/
def leaves (LO LS : List (View.Piece (Elt F) S2048x64 .f32)) : Vec F S2048x64 .f32 × Vec F S2048x64 .f32 :=
  (VO.read (Elt F) (VO.writes (Elt F) VO.junk LO), VS.read (Elt F) (VS.writes (Elt F) VS.junk LS))

end Run

abbrev ms0 (t : Fin cfg5.N) : Memref sig .tc .vmem S2048x64 .f32 := win5_0.stage (cfg5.slots t 0)
abbrev hs0 (t : Fin cfg5.N) : (ms0 t).IsWhole := hstage5_0 ((cfg5.slots t 0).cast nbuf5_0)
abbrev ms1 (t : Fin cfg5.N) : Memref sig .tc .vmem S1x2048 .i32 := win5_1.stage (cfg5.slots t 1)
abbrev hs1 (t : Fin cfg5.N) : (ms1 t).IsWhole := hstage5_1 ((cfg5.slots t 1).cast nbuf5_1)
abbrev ms2 (t : Fin cfg5.N) : Memref sig .tc .vmem S1x64 .f32 := win5_2.stage (cfg5.slots t 2)
abbrev hs2 (t : Fin cfg5.N) : (ms2 t).IsWhole := hstage5_2 ((cfg5.slots t 2).cast nbuf5_2)
abbrev ms3 (t : Fin cfg5.N) : Memref sig .tc .vmem S2048x64 .f32 := win5_3.stage (cfg5.slots t 3)
abbrev hs3 (t : Fin cfg5.N) : (ms3 t).IsWhole := hstage5_3 ((cfg5.slots t 3).cast nbuf5_3)

abbrev bodyAt (t : Fin cfg5.N) : Prog (TpuEff nD τ sig (Elt F) Λ₀ .tc) PUnit :=
  cc5__scatter_kernel (grid5.coords t) (ms0 t) (hs0 t) (ms1 t) (hs1 t) (ms2 t) (hs2 t) (ms3 t) (hs3 t) scM (Memref.isWhole_whole _)

/-- (output block, running sum) after point `t`, by case. -/
def firstAt (c : Dev nD) (t : Fin cfg5.N) (hc : isFirst (grid5.coords t)) : Vec F S2048x64 .f32 × Vec F S2048x64 .f32 :=
  leaves (runFirst c (grid5.coords t) (ms0 t) (hs0 t) (ms1 t) (hs1 t) (ms2 t) (hs2 t) (ms3 t) (hs3 t) scM (Memref.isWhole_whole _) (iblk V c 0 t) (iblk V c 1 t) (iblk V c 2 t) hc).1 (runFirst c (grid5.coords t) (ms0 t) (hs0 t) (ms1 t) (hs1 t) (ms2 t) (hs2 t) (ms3 t) (hs3 t) scM (Memref.isWhole_whole _) (iblk V c 0 t) (iblk V c 1 t) (iblk V c 2 t) hc).2.1
def nextAt (c : Dev nD) (t : Fin cfg5.N) (hc : ¬isFirst (grid5.coords t)) (xs : Vec F S2048x64 .f32) :
    Vec F S2048x64 .f32 × Vec F S2048x64 .f32 :=
  leaves (runNext c (grid5.coords t) (ms0 t) (hs0 t) (ms1 t) (hs1 t) (ms2 t) (hs2 t) (ms3 t) (hs3 t) scM (Memref.isWhole_whole _) (iblk V c 0 t) (iblk V c 1 t) (iblk V c 2 t) hc xs).1 (runNext c (grid5.coords t) (ms0 t) (hs0 t) (ms1 t) (hs1 t) (ms2 t) (hs2 t) (ms3 t) (hs3 t) scM (Memref.isWhole_whole _) (iblk V c 0 t) (iblk V c 1 t) (iblk V c 2 t) hc xs).2.1

def outsAt (c : Dev nD) : (n : ℕ) → n < cfg5.N → Vec F S2048x64 .f32 × Vec F S2048x64 .f32
  | 0, hn => if h : isFirst (grid5.coords ⟨0, hn⟩) then firstAt V c ⟨0, hn⟩ h else nextAt V c ⟨0, hn⟩ h (k5_pay1 (F := F))
  | n + 1, hn =>
    if h : isFirst (grid5.coords ⟨n + 1, hn⟩) then firstAt V c ⟨n + 1, hn⟩ h
    else nextAt V c ⟨n + 1, hn⟩ h (outsAt c n (Nat.lt_of_succ_lt hn)).2

theorem outsAt_first (c : Dev nD) (t : Fin cfg5.N) (hc : isFirst (grid5.coords t)) :
    outsAt V c t.val t.isLt = firstAt V c t hc := by
  obtain ⟨n, hn⟩ := t
  cases n with
  | zero => exact dif_pos hc
  | succ n => exact dif_pos hc

theorem outsAt_next (c : Dev nD) (t : Fin cfg5.N) (ht : t.val ≠ 0) (hc : ¬isFirst (grid5.coords t)) :
    outsAt V c t.val t.isLt
      = nextAt V c t hc (outsAt V c (t.val - 1) (Nat.lt_of_le_of_lt (Nat.sub_le _ _) t.isLt)).2 := by
  obtain ⟨n, hn⟩ := t
  cases n with
  | zero => exact absurd rfl ht
  | succ n => exact dif_neg hc

theorem isFirst_of_coord (i : grid5.Coords) (h : (i 1).val = 0) : isFirst i := by
  unfold isFirst; rw [h]; decide

theorem isFirst_of_zero (t : Fin cfg5.N) (ht : t.val = 0) : isFirst (grid5.coords t) :=
  isFirst_of_coord _ (by
    show t.val / grid5.stride 1 % grid5.bound 1 = 0
    rw [ht, Nat.zero_div, Nat.zero_mod])

theorem PhiA_eq (c : Dev nD) :
    (Pipeline.ΦA spec5 c : sProp 𝕄)
      = iprop(iprop((∃ d, owns (c : Thread nD τ) scM fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM, owns_whole]; try rfl

def PhiS (c : Dev nD) : (n : ℕ) → n ≤ cfg5.N → sProp 𝕄
  | 0, _ => Pipeline.ΦA spec5 c
  | n + 1, hn => iprop(iprop(owns (c : Thread nD τ) scM fullShare ((outsAt V c n hn).2)
      ∗ Pipeline.scopedRestBut (Ix := Unit) (Name := ℕ) (U := UR sig nD τ) (Lvl := ℕ) (Val := Elt F) spec5 c [cc5_scratch0])
      ∗ (∃ r, prngReg c r))

theorem PhiS_zero (c : Dev nD) (n : ℕ) (h : n ≤ cfg5.N) (hz : n = 0) : PhiS V c n h = Pipeline.ΦA spec5 c := by
  subst hz; rfl
theorem PhiS_succ (c : Dev nD) (n : ℕ) (hn : n < cfg5.N) :
    PhiS V c (n + 1) hn = iprop(iprop(owns (c : Thread nD τ) scM fullShare ((outsAt V c n hn).2)
      ∗ Pipeline.scopedRestBut (Ix := Unit) (Name := ℕ) (U := UR sig nD τ) (Lvl := ℕ) (Val := Elt F) spec5 c [cc5_scratch0])
      ∗ (∃ r, prngReg c r)) := rfl
theorem PhiS_pos (c : Dev nD) (n : ℕ) (h : n ≤ cfg5.N) (hz : n ≠ 0) :
    PhiS V c n h = iprop(iprop(owns (c : Thread nD τ) scM fullShare ((outsAt V c (n - 1) (by omega)).2)
      ∗ Pipeline.scopedRestBut (Ix := Unit) (Name := ℕ) (U := UR sig nD τ) (Lvl := ℕ) (Val := Elt F) spec5 c [cc5_scratch0])
      ∗ (∃ r, prngReg c r)) := by
  cases n with
  | zero => exact absurd rfl hz
  | succ n => rfl

def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg5.W) : (dat V c).A w = V c (Pipeline.arrRef spec5 w) := by
  dsimp only [dat]
theorem Phi_castSucc (c : Dev nD) (t : Fin cfg5.N) :
    (dat V c).Φ t.castSucc = PhiS V c t.val (Nat.le_of_lt t.isLt) := by
  dsimp only [dat]; simp only [Fin.coe_castSucc]
theorem after_0 (c : Dev nD) (t : Fin cfg5.N) : (dat V c).after 0 t = iblk V c 0 t := by dsimp only [dat]
theorem after_1 (c : Dev nD) (t : Fin cfg5.N) : (dat V c).after 1 t = iblk V c 1 t := by dsimp only [dat]
theorem after_2 (c : Dev nD) (t : Fin cfg5.N) : (dat V c).after 2 t = iblk V c 2 t := by dsimp only [dat]
theorem after_3 (c : Dev nD) (t : Fin cfg5.N) : (dat V c).after 3 t = (outsAt V c t.val t.isLt).1 := by dsimp only [dat]

theorem before_0 (c : Dev nD) (t : Fin cfg5.N) (d) : (dat V c).before 0 t d = iblk V c 0 t :=
  before_0_of V (dat V c) (A_eq V c 0) (after_0 V c) t d
theorem before_1 (c : Dev nD) (t : Fin cfg5.N) (d) : (dat V c).before 1 t d = iblk V c 1 t :=
  before_1_of V (dat V c) (A_eq V c 1) (after_1 V c) t d
theorem before_2 (c : Dev nD) (t : Fin cfg5.N) (d) : (dat V c).before 2 t d = iblk V c 2 t :=
  before_2_of V (dat V c) (A_eq V c 2) (after_2 V c) t d

def bodyPre (c : Dev nD) (t : Fin cfg5.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg5.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t))

set_option maxHeartbeats 4800000 in
/-- One argument serves the three cases: any run whose pieces tile both blocks re-establishes the invariant. -/
theorem body_of_run (c : Dev nD) (t : Fin cfg5.N) {A acc O : sProp 𝕄} (hA : A ⊢ acc) (r : Run c (grid5.coords t) (ms0 t) (hs0 t) (ms1 t) (hs1 t) (ms2 t) (hs2 t) (ms3 t) (hs3 t) scM (Memref.isWhole_whole _) (iblk V c 0 t) (iblk V c 1 t) (iblk V c 2 t) acc)
    (hO : ∀ y, ∃ pc ∈ r.1, y ∈ pc.1.set) (hS : ∀ y, ∃ pc ∈ r.2.1, y ∈ pc.1.set) :
    iprop(iprop(iprop(A ∗ Pipeline.scopedRestBut (Ix := Unit) (Name := ℕ) (U := UR sig nD τ) (Lvl := ℕ) (Val := Elt F) spec5 c [cc5_scratch0]) ∗ (∃ r, prngReg c r)) ∗ O
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d))
        ∗ (∃ d, owns (c : Thread nD τ) (ms3 t) fullShare ((dat V c).before 3 t d)))
      ⊢ wp frame (wpE (defs₀ (F := F)) Variants.none c none) Set.univ (bodyAt t) (fun _ =>
        iprop(iprop(iprop(owns (c : Thread nD τ) scM fullShare (leaves r.1 r.2.1).2 ∗ Pipeline.scopedRestBut (Ix := Unit) (Name := ℕ) (U := UR sig nD τ) (Lvl := ℕ) (Val := Elt F) spec5 c [cc5_scratch0]) ∗ (∃ r, prngReg c r)) ∗ O
          ∗ owns (c : Thread nD τ) (ms0 t) fullShare (iblk V c 0 t)
          ∗ owns (c : Thread nD τ) (ms1 t) fullShare (iblk V c 1 t)
          ∗ owns (c : Thread nD τ) (ms2 t) fullShare (iblk V c 2 t)
          ∗ owns (c : Thread nD τ) (ms3 t) fullShare (leaves r.1 r.2.1).1)) := by
  simp only [before_0, before_1, before_2]
  iintro ⟨⟨⟨HS, Hrest⟩, Hg⟩, Ho, ⟨%d0, H0⟩, ⟨%d1, H1⟩, ⟨%d2, H2⟩, ⟨%d3, H3⟩⟩
  iapply (r.2.2 Set.univ _)
  isplitl [H0]; · iexact H0
  isplitl [H1]; · iexact H1
  isplitl [H2]; · iexact H2
  isplitl [H3]; · iexists _; iexact H3
  isplitl [HS]; · iapply hA; iexact HS
  iintro ⟨H0, H1, H2, ⟨%e3, H3⟩, ⟨%es, HS⟩⟩
  isplitl [HS Hrest Hg]
  · isplitl [HS Hrest]
    · isplitl [HS]
      · unfold owns; iexists _; isplitr
        swap; · iexact HS
        ipureintro; exact View.read_writes_of_cover _ _ VS VS.junk _ hS
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ VO VO.junk _ hO

/-- Cases: a restart from anything, a restart over an earlier sum, a continuation. -/
theorem sound_body (c : Dev nD) (t : Fin cfg5.N) :
    bodyPre V c t ⊢ wp frame (wpE (defs₀ (F := F)) Variants.none c none) Set.univ (bodyAt t) (fun _ => bodyPost V c t) := by
  unfold bodyPre bodyPost
  rw [show (dat V c).owesAt () t.succ = (dat V c).owesAt () t.castSucc from rfl,
    show (dat V c).Φ t.succ = PhiS V c (t.val + 1) t.isLt from rfl, PhiS_succ, after_0, after_1, after_2, after_3, Phi_castSucc V c t]
  by_cases hc : isFirst (grid5.coords t)
  · rw [outsAt_first V c t hc]
    by_cases hz : t.val = 0
    · rw [PhiS_zero V c _ _ hz, PhiA_eq]
      exact body_of_run V c t .rfl (runFirst c (grid5.coords t) (ms0 t) (hs0 t) (ms1 t) (hs1 t) (ms2 t) (hs2 t) (ms3 t) (hs3 t) scM (Memref.isWhole_whole _) (iblk V c 0 t) (iblk V c 1 t) (iblk V c 2 t) hc) (fun y => (coverFirst c (grid5.coords t) (ms0 t) (hs0 t) (ms1 t) (hs1 t) (ms2 t) (hs2 t) (ms3 t) (hs3 t) scM (Memref.isWhole_whole _) (iblk V c 0 t) (iblk V c 1 t) (iblk V c 2 t) hc y).1) (fun y => (coverFirst c (grid5.coords t) (ms0 t) (hs0 t) (ms1 t) (hs1 t) (ms2 t) (hs2 t) (ms3 t) (hs3 t) scM (Memref.isWhole_whole _) (iblk V c 0 t) (iblk V c 1 t) (iblk V c 2 t) hc y).2)
    · rw [PhiS_pos V c _ _ hz]
      exact body_of_run V c t (by iintro H; iexists _; iexact H) (runFirst c (grid5.coords t) (ms0 t) (hs0 t) (ms1 t) (hs1 t) (ms2 t) (hs2 t) (ms3 t) (hs3 t) scM (Memref.isWhole_whole _) (iblk V c 0 t) (iblk V c 1 t) (iblk V c 2 t) hc) (fun y => (coverFirst c (grid5.coords t) (ms0 t) (hs0 t) (ms1 t) (hs1 t) (ms2 t) (hs2 t) (ms3 t) (hs3 t) scM (Memref.isWhole_whole _) (iblk V c 0 t) (iblk V c 1 t) (iblk V c 2 t) hc y).1) (fun y => (coverFirst c (grid5.coords t) (ms0 t) (hs0 t) (ms1 t) (hs1 t) (ms2 t) (hs2 t) (ms3 t) (hs3 t) scM (Memref.isWhole_whole _) (iblk V c 0 t) (iblk V c 1 t) (iblk V c 2 t) hc y).2)
  · have hz : t.val ≠ 0 := fun h0 => hc (isFirst_of_zero t h0)
    rw [outsAt_next V c t hz hc, PhiS_pos V c _ _ hz]
    exact body_of_run V c t .rfl (runNext c (grid5.coords t) (ms0 t) (hs0 t) (ms1 t) (hs1 t) (ms2 t) (hs2 t) (ms3 t) (hs3 t) scM (Memref.isWhole_whole _) (iblk V c 0 t) (iblk V c 1 t) (iblk V c 2 t) hc _) (fun y => (coverNext c (grid5.coords t) (ms0 t) (hs0 t) (ms1 t) (hs1 t) (ms2 t) (hs2 t) (ms3 t) (hs3 t) scM (Memref.isWhole_whole _) (iblk V c 0 t) (iblk V c 1 t) (iblk V c 2 t) hc _ y).1) (fun y => (coverNext c (grid5.coords t) (ms0 t) (hs0 t) (ms1 t) (hs1 t) (ms2 t) (hs2 t) (ms3 t) (hs3 t) scM (Memref.isWhole_whole _) (iblk V c 0 t) (iblk V c 1 t) (iblk V c 2 t) hc _ y).2)

theorem body_obligation (c : Dev nD) : BodyObligation (dat (F := F) V c) (defs₀ (F := F)) Variants.none () Set.univ := fun t => by
  rw [bigSep_W5, bigSep_W5]
  exact sound_body V c t

theorem hin (c : Dev nD) : Pipeline.ΦA spec5 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg5.N) ⊢ Pipeline.ΦA spec5 c := by
  rw [show (dat V c).Φ (Fin.last cfg5.N) = PhiS V c cfg5.N (Nat.le_refl _) from rfl,
    PhiS_pos V c _ _ (by have : cfg5.N = 40719 := N_5; omega), PhiA_eq]
  iintro ⟨⟨HS, Hrest⟩, Hg⟩
  isplitl [HS Hrest]
  · isplitl [HS]
    · iexists _; iexact HS
    iexact Hrest
  iexact Hg

end Cert.KernelIdeal.Scatter5

end
-- ==== Proof.IdealRegions.Run.lean ====
/- The whole program: the contents between the items as a fold from the launch memory, each region a segment of it. -/
import proofs.«127098_j12489764897128_1_alg».proof.Proof.IdealRegions.RunCond
import proofs.«127098_j12489764897128_1_alg».proof.Proof.IdealRegions.Proj0
import proofs.«127098_j12489764897128_1_alg».proof.Proof.IdealRegions.Gather1
import proofs.«127098_j12489764897128_1_alg».proof.Proof.IdealRegions.Scatter2
import proofs.«127098_j12489764897128_1_alg».proof.Proof.IdealRegions.Proj3
import proofs.«127098_j12489764897128_1_alg».proof.Proof.IdealRegions.Gather4
import proofs.«127098_j12489764897128_1_alg».proof.Proof.IdealRegions.Scatter5

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

def X0 (c : Dev nD) : Buf (Elt F) ((c : Thread nD τ).loc main_v37) := (Proj0.dat (atTc (Gen.V10 m)) c).arrAt 2 cfg0.N

def U11 (c : Dev nD) : Valuation τ sig (Elt F) := Function.update (Gen.V10 m c) main_v37 (X0 m c)
theorem U11_out (c : Dev nD) : U11 m c main_v37 = X0 m c := by unfold U11; exact Function.update_self ..
theorem U11_of_ne (c : Dev nD) (b : Ref sig .tc) (h : b ≠ main_v37) : U11 m c b = Gen.V10 m c b := by
  unfold U11; exact Function.update_of_ne (StableHlo.devRef_ne_of_ne h) _ _

def X1 (c : Dev nD) : Buf (Elt F) ((c : Thread nD τ).loc main_v38) := (Gather1.dat (atTc (U11 m)) c).arrAt 3 cfg1.N

def U12 (c : Dev nD) : Valuation τ sig (Elt F) := Function.update (U11 m c) main_v38 (X1 m c)
theorem U12_out (c : Dev nD) : U12 m c main_v38 = X1 m c := by unfold U12; exact Function.update_self ..
theorem U12_of_ne (c : Dev nD) (b : Ref sig .tc) (h : b ≠ main_v38) : U12 m c b = U11 m c b := by
  unfold U12; exact Function.update_of_ne (StableHlo.devRef_ne_of_ne h) _ _

def U13 (c : Dev nD) : Valuation τ sig (Elt F) := StableHlo.after hostOps2 (U12 m c)

def X2 (c : Dev nD) : Buf (Elt F) ((c : Thread nD τ).loc main_v40) := (Scatter2.dat (atTc (U13 m)) c).arrAt 3 cfg2.N

def U14 (c : Dev nD) : Valuation τ sig (Elt F) := Function.update (U13 m c) main_v40 (X2 m c)
theorem U14_out (c : Dev nD) : U14 m c main_v40 = X2 m c := by unfold U14; exact Function.update_self ..
theorem U14_of_ne (c : Dev nD) (b : Ref sig .tc) (h : b ≠ main_v40) : U14 m c b = U13 m c b := by
  unfold U14; exact Function.update_of_ne (StableHlo.devRef_ne_of_ne h) _ _

def X3 (c : Dev nD) : Buf (Elt F) ((c : Thread nD τ).loc main_v41) := (Proj3.dat (atTc (U14 m)) c).arrAt 2 cfg3.N

def U15 (c : Dev nD) : Valuation τ sig (Elt F) := Function.update (U14 m c) main_v41 (X3 m c)
theorem U15_out (c : Dev nD) : U15 m c main_v41 = X3 m c := by unfold U15; exact Function.update_self ..
theorem U15_of_ne (c : Dev nD) (b : Ref sig .tc) (h : b ≠ main_v41) : U15 m c b = U14 m c b := by
  unfold U15; exact Function.update_of_ne (StableHlo.devRef_ne_of_ne h) _ _

def X4 (c : Dev nD) : Buf (Elt F) ((c : Thread nD τ).loc main_v42) := (Gather4.dat (atTc (U15 m)) c).arrAt 3 cfg4.N

def U16 (c : Dev nD) : Valuation τ sig (Elt F) := Function.update (U15 m c) main_v42 (X4 m c)
theorem U16_out (c : Dev nD) : U16 m c main_v42 = X4 m c := by unfold U16; exact Function.update_self ..
theorem U16_of_ne (c : Dev nD) (b : Ref sig .tc) (h : b ≠ main_v42) : U16 m c b = U15 m c b := by
  unfold U16; exact Function.update_of_ne (StableHlo.devRef_ne_of_ne h) _ _

def U17 (c : Dev nD) : Valuation τ sig (Elt F) := StableHlo.after hostOps5 (U16 m c)

def X5 (c : Dev nD) : Buf (Elt F) ((c : Thread nD τ).loc main_v44) := (Scatter5.dat (atTc (U17 m)) c).arrAt 3 cfg5.N

def U18 (c : Dev nD) : Valuation τ sig (Elt F) := Function.update (U17 m c) main_v44 (X5 m c)
theorem U18_out (c : Dev nD) : U18 m c main_v44 = X5 m c := by unfold U18; exact Function.update_self ..
theorem U18_of_ne (c : Dev nD) (b : Ref sig .tc) (h : b ≠ main_v44) : U18 m c b = U17 m c b := by
  unfold U18; exact Function.update_of_ne (StableHlo.devRef_ne_of_ne h) _ _

def U19 (c : Dev nD) : Valuation τ sig (Elt F) := StableHlo.after hostOps6 (U18 m c)

def outs : Gen.Outs (F := F) := fun J r c =>
  match J with
  | 11 => U11 m c r
  | 12 => U12 m c r
  | 14 => U14 m c r
  | 15 => U15 m c r
  | 16 => U16 m c r
  | 18 => U18 m c r
  | _ => Gen.V10 m c r

theorem V11_eq (c : Dev nD) : Gen.V11 m (outs m) c = U11 m c := by
  rw [show Gen.V11 m (outs m) c = Function.update (Gen.V10 m c) main_v37 (U11 m c main_v37) from rfl, U11_out]; rfl
theorem V12_eq (c : Dev nD) : Gen.V12 m (outs m) c = U12 m c := by
  rw [show Gen.V12 m (outs m) c = Function.update (Gen.V11 m (outs m) c) main_v38 (U12 m c main_v38) from rfl, V11_eq, U12_out]; rfl
theorem V13_eq (c : Dev nD) : Gen.V13 m (outs m) c = U13 m c := by
  rw [show Gen.V13 m (outs m) c = StableHlo.after hostOps2 (Gen.V12 m (outs m) c) from rfl, V12_eq]; rfl
theorem V14_eq (c : Dev nD) : Gen.V14 m (outs m) c = U14 m c := by
  rw [show Gen.V14 m (outs m) c = Function.update (Gen.V13 m (outs m) c) main_v40 (U14 m c main_v40) from rfl, V13_eq, U14_out]; rfl
theorem V15_eq (c : Dev nD) : Gen.V15 m (outs m) c = U15 m c := by
  rw [show Gen.V15 m (outs m) c = Function.update (Gen.V14 m (outs m) c) main_v41 (U15 m c main_v41) from rfl, V14_eq, U15_out]; rfl
theorem V16_eq (c : Dev nD) : Gen.V16 m (outs m) c = U16 m c := by
  rw [show Gen.V16 m (outs m) c = Function.update (Gen.V15 m (outs m) c) main_v42 (U16 m c main_v42) from rfl, V15_eq, U16_out]; rfl
theorem V17_eq (c : Dev nD) : Gen.V17 m (outs m) c = U17 m c := by
  rw [show Gen.V17 m (outs m) c = StableHlo.after hostOps5 (Gen.V16 m (outs m) c) from rfl, V16_eq]; rfl
theorem V18_eq (c : Dev nD) : Gen.V18 m (outs m) c = U18 m c := by
  rw [show Gen.V18 m (outs m) c = Function.update (Gen.V17 m (outs m) c) main_v44 (U18 m c main_v44) from rfl, V17_eq, U18_out]; rfl
theorem V19_eq (c : Dev nD) : Gen.V19 m (outs m) c = U19 m c := by
  rw [show Gen.V19 m (outs m) c = StableHlo.after hostOps6 (Gen.V18 m (outs m) c) from rfl, V18_eq]; rfl

def pdats : (p : Fin 6) → (c : Dev nD) → Dat τ (Elt F) Unit ℕ (UR sig nD τ) ℕ (cfgs p) c
  | ⟨0, _⟩ => fun c => Proj0.dat (atTc (Gen.V10 m)) c
  | ⟨1, _⟩ => fun c => Gather1.dat (atTc (U11 m)) c
  | ⟨2, _⟩ => fun c => Scatter2.dat (atTc (U13 m)) c
  | ⟨3, _⟩ => fun c => Proj3.dat (atTc (U14 m)) c
  | ⟨4, _⟩ => fun c => Gather4.dat (atTc (U15 m)) c
  | ⟨5, _⟩ => fun c => Scatter5.dat (atTc (U17 m)) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 7 → Dev nD → sProp 𝕄 := fun _ c => R c

section Region

variable (pd : (p : Fin 6) → (c : Dev nD) → Dat τ (Elt F) Unit ℕ (UR sig nD τ) ℕ (cfgs p) c)

set_option backward.isDefEq.respectTransparency.types false in

def regionBetween (p : Fin 6) (lf : Pipeline.LaunchFacts (nD := nD) (τ := τ) cfgs p)
    (V V' : Dev nD → Valuation τ sig (Elt F))
    (hbody : ∀ c, BodyObligation (pd p c) (defs₀ (F := F)) Variants.none () Set.univ)
    (hq : ∀ c w, (pd p c).q w = fullShare)
    (howed : ∀ c t, (pd p c).owed t = 0)
    (hrec : ∀ c, (pd p c).recorded 0 = Set.univ)
    (hA : ∀ c w, (pd p c).A w = V c (Pipeline.arrRef (cfgs p).spec w))
    (hΦin : ∀ c, (Pipeline.ΦA (cfgs p).spec c : sProp 𝕄) ⊢ (pd p c).Φ 0)
    (hΦout : ∀ c, (pd p c).Φ (Fin.last (cfgs p).N) ⊢ (Pipeline.ΦA (cfgs p).spec c : sProp 𝕄))
    (hF : ∀ c w, (pd p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun x _ => Or.inl (by rw [hrec c]; trivial)
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine BIBase.Entails.trans (hΦout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => V c b) (fun b => V' c b) ((pd p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Region

theorem arrays_after0 (c : Dev nD) (w : Fin 3) : (pdats m 0 c).arrAt w cfg0.N = U11 m c (Pipeline.arrRef spec0 w) := by
  match w with
  | ⟨0, _⟩ => exact ((pdats m 0 c).arrAt_in 0 rfl _).trans ((Proj0.A_eq _ c 0).trans (U11_of_ne m c _ (by decide)).symm)
  | ⟨1, _⟩ => exact ((pdats m 0 c).arrAt_in 1 rfl _).trans ((Proj0.A_eq _ c 1).trans (U11_of_ne m c _ (by decide)).symm)
  | ⟨2, _⟩ => exact (U11_out m c).symm

theorem rest_after0 (c : Dev nD) (b : Ref sig .tc) (hb : b ∉ Finset.univ.image (Pipeline.arrRef spec0)) : U11 m c b = Gen.V10 m c b :=
  U11_of_ne m c b fun e => hb (Finset.mem_image.mpr ⟨2, Finset.mem_univ _, e.symm⟩)

def reg0 : Pipeline.RegionSeg (pcfgs (F := F)) adm (pdats m) () defs₀ Variants.none L lv 0 :=
  regionBetween (pdats m) 0 launch0 (Gen.V10 m) (U11 m)
    (fun c => Proj0.body_obligation _ c) (fun _ _ => rfl) (fun _ _ => rfl) (fun _ => rfl) (fun c w => Proj0.A_eq _ c w)
    (fun c => .rfl) (fun c => .rfl) (arrays_after0 m) (rest_after0 m)

theorem arrays_after1 (c : Dev nD) (w : Fin 4) : (pdats m 1 c).arrAt w cfg1.N = U12 m c (Pipeline.arrRef spec1 w) := by
  match w with
  | ⟨0, _⟩ => exact ((pdats m 1 c).arrAt_in 0 rfl _).trans ((Gather1.A_eq _ c 0).trans (U12_of_ne m c _ (by decide)).symm)
  | ⟨1, _⟩ => exact ((pdats m 1 c).arrAt_in 1 rfl _).trans ((Gather1.A_eq _ c 1).trans (U12_of_ne m c _ (by decide)).symm)
  | ⟨2, _⟩ => exact ((pdats m 1 c).arrAt_in 2 rfl _).trans ((Gather1.A_eq _ c 2).trans (U12_of_ne m c _ (by decide)).symm)
  | ⟨3, _⟩ => exact (U12_out m c).symm

theorem rest_after1 (c : Dev nD) (b : Ref sig .tc) (hb : b ∉ Finset.univ.image (Pipeline.arrRef spec1)) : U12 m c b = U11 m c b :=
  U12_of_ne m c b fun e => hb (Finset.mem_image.mpr ⟨3, Finset.mem_univ _, e.symm⟩)

def reg1 : Pipeline.RegionSeg (pcfgs (F := F)) adm (pdats m) () defs₀ Variants.none L lv 1 :=
  regionBetween (pdats m) 1 launch1 (U11 m) (U12 m)
    (fun c => Gather1.body_obligation _ c) (fun _ _ => rfl) (fun _ _ => rfl) (fun _ => rfl) (fun c w => Gather1.A_eq _ c w)
    (fun c => Gather1.hin _ c) (fun c => Gather1.hout _ c) (arrays_after1 m) (rest_after1 m)

theorem arrays_after2 (c : Dev nD) (w : Fin 4) : (pdats m 2 c).arrAt w cfg2.N = U14 m c (Pipeline.arrRef spec2 w) := by
  match w with
  | ⟨0, _⟩ => exact ((pdats m 2 c).arrAt_in 0 rfl _).trans ((Scatter2.A_eq _ c 0).trans (U14_of_ne m c _ (by decide)).symm)
  | ⟨1, _⟩ => exact ((pdats m 2 c).arrAt_in 1 rfl _).trans ((Scatter2.A_eq _ c 1).trans (U14_of_ne m c _ (by decide)).symm)
  | ⟨2, _⟩ => exact ((pdats m 2 c).arrAt_in 2 rfl _).trans ((Scatter2.A_eq _ c 2).trans (U14_of_ne m c _ (by decide)).symm)
  | ⟨3, _⟩ => exact (U14_out m c).symm

theorem rest_after2 (c : Dev nD) (b : Ref sig .tc) (hb : b ∉ Finset.univ.image (Pipeline.arrRef spec2)) : U14 m c b = U13 m c b :=
  U14_of_ne m c b fun e => hb (Finset.mem_image.mpr ⟨3, Finset.mem_univ _, e.symm⟩)

def reg2 : Pipeline.RegionSeg (pcfgs (F := F)) adm (pdats m) () defs₀ Variants.none L lv 2 :=
  regionBetween (pdats m) 2 launch2 (U13 m) (U14 m)
    (fun c => Scatter2.body_obligation _ c) (fun _ _ => rfl) (fun _ _ => rfl) (fun _ => rfl) (fun c w => Scatter2.A_eq _ c w)
    (fun c => Scatter2.hin _ c) (fun c => Scatter2.hout _ c) (arrays_after2 m) (rest_after2 m)

theorem arrays_after3 (c : Dev nD) (w : Fin 3) : (pdats m 3 c).arrAt w cfg3.N = U15 m c (Pipeline.arrRef spec3 w) := by
  match w with
  | ⟨0, _⟩ => exact ((pdats m 3 c).arrAt_in 0 rfl _).trans ((Proj3.A_eq _ c 0).trans (U15_of_ne m c _ (by decide)).symm)
  | ⟨1, _⟩ => exact ((pdats m 3 c).arrAt_in 1 rfl _).trans ((Proj3.A_eq _ c 1).trans (U15_of_ne m c _ (by decide)).symm)
  | ⟨2, _⟩ => exact (U15_out m c).symm

theorem rest_after3 (c : Dev nD) (b : Ref sig .tc) (hb : b ∉ Finset.univ.image (Pipeline.arrRef spec3)) : U15 m c b = U14 m c b :=
  U15_of_ne m c b fun e => hb (Finset.mem_image.mpr ⟨2, Finset.mem_univ _, e.symm⟩)

def reg3 : Pipeline.RegionSeg (pcfgs (F := F)) adm (pdats m) () defs₀ Variants.none L lv 3 :=
  regionBetween (pdats m) 3 launch3 (U14 m) (U15 m)
    (fun c => Proj3.body_obligation _ c) (fun _ _ => rfl) (fun _ _ => rfl) (fun _ => rfl) (fun c w => Proj3.A_eq _ c w)
    (fun c => .rfl) (fun c => .rfl) (arrays_after3 m) (rest_after3 m)

theorem arrays_after4 (c : Dev nD) (w : Fin 4) : (pdats m 4 c).arrAt w cfg4.N = U16 m c (Pipeline.arrRef spec4 w) := by
  match w with
  | ⟨0, _⟩ => exact ((pdats m 4 c).arrAt_in 0 rfl _).trans ((Gather4.A_eq _ c 0).trans (U16_of_ne m c _ (by decide)).symm)
  | ⟨1, _⟩ => exact ((pdats m 4 c).arrAt_in 1 rfl _).trans ((Gather4.A_eq _ c 1).trans (U16_of_ne m c _ (by decide)).symm)
  | ⟨2, _⟩ => exact ((pdats m 4 c).arrAt_in 2 rfl _).trans ((Gather4.A_eq _ c 2).trans (U16_of_ne m c _ (by decide)).symm)
  | ⟨3, _⟩ => exact (U16_out m c).symm

theorem rest_after4 (c : Dev nD) (b : Ref sig .tc) (hb : b ∉ Finset.univ.image (Pipeline.arrRef spec4)) : U16 m c b = U15 m c b :=
  U16_of_ne m c b fun e => hb (Finset.mem_image.mpr ⟨3, Finset.mem_univ _, e.symm⟩)

def reg4 : Pipeline.RegionSeg (pcfgs (F := F)) adm (pdats m) () defs₀ Variants.none L lv 4 :=
  regionBetween (pdats m) 4 launch4 (U15 m) (U16 m)
    (fun c => Gather4.body_obligation _ c) (fun _ _ => rfl) (fun _ _ => rfl) (fun _ => rfl) (fun c w => Gather4.A_eq _ c w)
    (fun c => Gather4.hin _ c) (fun c => Gather4.hout _ c) (arrays_after4 m) (rest_after4 m)

theorem arrays_after5 (c : Dev nD) (w : Fin 4) : (pdats m 5 c).arrAt w cfg5.N = U18 m c (Pipeline.arrRef spec5 w) := by
  match w with
  | ⟨0, _⟩ => exact ((pdats m 5 c).arrAt_in 0 rfl _).trans ((Scatter5.A_eq _ c 0).trans (U18_of_ne m c _ (by decide)).symm)
  | ⟨1, _⟩ => exact ((pdats m 5 c).arrAt_in 1 rfl _).trans ((Scatter5.A_eq _ c 1).trans (U18_of_ne m c _ (by decide)).symm)
  | ⟨2, _⟩ => exact ((pdats m 5 c).arrAt_in 2 rfl _).trans ((Scatter5.A_eq _ c 2).trans (U18_of_ne m c _ (by decide)).symm)
  | ⟨3, _⟩ => exact (U18_out m c).symm

theorem rest_after5 (c : Dev nD) (b : Ref sig .tc) (hb : b ∉ Finset.univ.image (Pipeline.arrRef spec5)) : U18 m c b = U17 m c b :=
  U18_of_ne m c b fun e => hb (Finset.mem_image.mpr ⟨3, Finset.mem_univ _, e.symm⟩)

def reg5 : Pipeline.RegionSeg (pcfgs (F := F)) adm (pdats m) () defs₀ Variants.none L lv 5 :=
  regionBetween (pdats m) 5 launch5 (U17 m) (U18 m)
    (fun c => Scatter5.body_obligation _ c) (fun _ _ => rfl) (fun _ _ => rfl) (fun _ => rfl) (fun c w => Scatter5.A_eq _ c w)
    (fun c => Scatter5.hin _ c) (fun c => Scatter5.hout _ c) (arrays_after5 m) (rest_after5 m)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : E (F := F) 6 c ⊢ (iprop(∃ W, owes (c : Thread nD τ) (0 : CellTallies nD τ sig Unit) W) : sProp 𝕄) := by
  iintro ⟨-, HO⟩; iexact HO

set_option backward.isDefEq.respectTransparency.types false in

theorem run (ρ : Dev nD → PrngReg) :
    θ_run defs (onTc (τ := τ) (main (F := F))) ⟨m, fun _ => 0, ρ⟩ (fun r => ∀ c : Dev nD,
      r.2.mem ((c.tc : Thread nD τ).loc main_v45) = U19 m c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h := GenP.run_cond m emb₁ () Variants.none L lv (fun _ _ => rfl) ρ (outs m) (pdats m) 0 (fun _ => iprop(emp))
    (initOf (Pipeline.cells cfgs cellOf_inj) (Pipeline.launchToks cfgs cellOf_inj)) hu₀ E (hE0 ρ) hE6
    (reg0 m) (fun c => .rfl) (fun c => by rw [V11_eq]; exact .rfl)
    (reg1 m) (fun c => by rw [V11_eq]; exact .rfl) (fun c => by rw [V12_eq]; exact .rfl)
    (reg2 m) (fun c => by rw [V13_eq]; exact .rfl) (fun c => by rw [V14_eq]; exact .rfl)
    (reg3 m) (fun c => by rw [V14_eq]; exact .rfl) (fun c => by rw [V15_eq]; exact .rfl)
    (reg4 m) (fun c => by rw [V15_eq]; exact .rfl) (fun c => by rw [V16_eq]; exact .rfl)
    (reg5 m) (fun c => by rw [V17_eq]; exact .rfl) (fun c => by rw [V18_eq]; exact .rfl)
  refine (θ_run defs _ _).mono (fun r hr c => ?_) h
  rw [← V19_eq m c]; exact hr c

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Run

end
-- ==== Proof.Edges.lean ====
/- The edge list with self loops, the degrees, and the edge weights. -/
import Idealize.ShloMosaic.PureOps

noncomputable section

namespace Cert.Edges

open Idealize.ShloMosaic

abbrev SIn : Shape := ⟨2, ![2, 1600000]⟩
abbrev SRow : Shape := ⟨2, ![1, 1600000]⟩
abbrev SE0 : Shape := ⟨1, ![1600000]⟩
abbrev SN : Shape := ⟨1, ![100000]⟩
abbrev SE : Shape := ⟨1, ![1700000]⟩
abbrev SEc : Shape := ⟨2, ![1700000, 1]⟩
abbrev S0 : Shape := ⟨0, ![]⟩

def ends (r : Nat) (hsl : SIn.Slices ![r, 0] SRow) (hsc : SRow.ShapeCasts SE0)
    (hcat : Shape.Concatenates [SE0, SN] SE 0) (a1 : IVec SIn 32) : IVec SE 32 :=
  concatenate SE 0 [⟨SE0, shapeCast SE0 (extractStridedSlice SRow ![r, 0] a1 hsl) hsc⟩, ⟨SN, iotaInDim SN 32 0⟩] hcat

def wrap (hb : S0.BroadcastsInDim SE ![]) (v : IVec SE 32) : IVec SE 32 :=
  select (cmpi .slt v (broadcastInDim SE ![] hb (constantI S0 32 0#32)))
    (addi v (broadcastInDim SE ![] hb (constantI S0 32 100000#32))) v

variable {F : FTy → Type} [FloatOps F]

def deg (dS : ScatterDims SN SEc SE) (hbE : S0.BroadcastsInDim SE ![]) (hbN : S0.BroadcastsInDim SN ![])
    (hcol : SE.BroadcastsInDim SEc ![0]) (dst : IVec SE 32) : FVec F SN .f32 :=
  Host.scatterAdd dS (broadcastInDim SN ![] hbN (constant S0 .f32 0x00000000#32))
    (broadcastInDim SEc ![0] hcol dst) (broadcastInDim SE ![] hbE (constant S0 .f32 0x3F800000#32))

def dinv (hbN : S0.BroadcastsInDim SN ![]) (dg : FVec F SN .f32) : FVec F SN .f32 :=
  select (cmpf .ogt dg (broadcastInDim SN ![] hbN (constant S0 .f32 0x00000000#32))) (Host.rsqrt dg)
    (broadcastInDim SN ![] hbN (id (constant S0 .f32 0x00000000#32)))

def norm (dS : ScatterDims SN SEc SE) (dG : GatherDims SN SEc SE) (hbE : S0.BroadcastsInDim SE ![])
    (hbN : S0.BroadcastsInDim SN ![]) (hcol : SE.BroadcastsInDim SEc ![0]) (src dst : IVec SE 32) : FVec F SE .f32 :=
  mulf (Host.gather dG (dinv hbN (deg (F := F) dS hbE hbN hcol dst)) (broadcastInDim SEc ![0] hcol (wrap hbE src)))
    (Host.gather dG (dinv hbN (deg (F := F) dS hbE hbN hcol dst)) (broadcastInDim SEc ![0] hcol (wrap hbE dst)))

end Cert.Edges

end
-- ==== Proof.IdealRegions.HostReads.lean ====
/- The edge words and weights the kernel program computes are the edge list's. -/
import proofs.«127098_j12489764897128_1_alg».proof.Proof.Gen.KernelIdeal.Regions
import proofs.«127098_j12489764897128_1_alg».proof.Proof.Edges
import Idealize.ShloMosaic.Lib.StableHlo.Run

noncomputable section

namespace Cert.KernelIdeal.HostReads

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

abbrev ksrc (c : Dev nD) : IVec S1700000 32 :=
  Cert.Edges.ends 0 slices_S2x1600000_S1x1600000_0_0 shapeCasts_S1x1600000_S1600000 concatenates_S1600000_S100000_S1700000_d0
    (m ((c.tc : Thread nD τ).loc main_arg1))
abbrev kdst (c : Dev nD) : IVec S1700000 32 :=
  Cert.Edges.ends 1 slices_S2x1600000_S1x1600000_1_0 shapeCasts_S1x1600000_S1600000 concatenates_S1600000_S100000_S1700000_d0
    (m ((c.tc : Thread nD τ).loc main_arg1))
abbrev knorm (c : Dev nD) : FVec F S1700000 .f32 :=
  Cert.Edges.norm (F := F) scatter_S100000_S1700000x1_S1700000_n_0_0_1 gather_S100000_S1700000x1_S1700000_n_0_n_n_0_1_1
    bcast_S_S1700000 bcast_S_S100000 bcast_S1700000_S1700000x1_0 (ksrc m c) (kdst m c)

set_option maxHeartbeats 2000000 in
theorem V1_src (c : Dev nD) : (V1 m c main_v3 : IVec S1700000 32) = ksrc m c := by
  dsimp only [V1, V0]; after_results; rfl
set_option maxHeartbeats 2000000 in
theorem V1_dst (c : Dev nD) : (V1 m c main_v6 : IVec S1700000 32) = kdst m c := by
  dsimp only [V1, V0]; after_results; rfl
set_option maxHeartbeats 4000000 in
theorem V3_norm (c : Dev nD) : (V3 m c main_v29 : FVec F S1700000 .f32) = knorm m c := by
  dsimp only [V3, V2, V1, V0]; after_results; rfl

end Cert.KernelIdeal.HostReads

end
-- ==== Proof.Layout.lean ====
/- Padded and reshaped arrays read at an index. -/
import Idealize.ShloMosaic.PureOps
import Idealize.ShloMosaic.Lib.ValueIdx
import Idealize.ShloMosaic.Lib.Pipeline.Value

noncomputable section

namespace Cert.Layout

open Idealize.ShloMosaic Idealize.ShloMosaic.ValueIdx

theorem pad_tail_apply {α : Type} {n p t : Nat} {u : Shape}
    (h : (⟨1, ![n]⟩ : Shape).Pads (![0] : Fin 1 → Nat) ![p] ![0] ⟨1, ![t]⟩) (hu : 0 < u.numel)
    (x : (⟨1, ![n]⟩ : Shape).Idx → α) (v : u.Idx → α) (e : Fin t) :
    pad ⟨1, ![t]⟩ ![0] ![p] ![0] x v h hu (ix1 e)
      = if he : e.val < n then x (ix1 ⟨e.val, he⟩) else v (Shape.Idx.first hu) := by
  unfold pad
  by_cases he : e.val < n
  ·
    rw [dif_pos he]
    split
    · exact congrArg x (funext fun a => Fin.ext (by
        match a with
        | ⟨0, _⟩ => show (e.val - 0) / (0 + 1) = e.val; simp))
    · next hin =>
      exact absurd (fun a => by
        match a with
        | ⟨0, _⟩ => exact ⟨Nat.zero_le _, by show (e.val - 0) % (0 + 1) = 0; exact Nat.mod_one _, by show (e.val - 0) / (0 + 1) < n; simpa using he⟩) hin
  ·
    rw [dif_neg he]
    split
    · next hin =>
      exact absurd (by have h0 : (e.val - 0) / (0 + 1) < n := (hin ⟨0, Nat.one_pos⟩).2.2; simpa using h0) he
    · rfl

theorem pad_rows_apply_of_lt {α : Type} {n p t k : Nat} {u : Shape}
    (h : (⟨2, ![n, k]⟩ : Shape).Pads (![0, 0] : Fin 2 → Nat) ![p, 0] ![0, 0] ⟨2, ![t, k]⟩) (hu : 0 < u.numel)
    (x : (⟨2, ![n, k]⟩ : Shape).Idx → α) (v : u.Idx → α) (r : Fin t) (j : Fin k) (hr : r.val < n) :
    pad ⟨2, ![t, k]⟩ ![0, 0] ![p, 0] ![0, 0] x v h hu (ix2 r j) = x (ix2 ⟨r.val, hr⟩ j) := by
  unfold pad
  split
  · exact congrArg x (funext fun a => Fin.ext (by
      match a with
      | ⟨0, _⟩ => show (r.val - 0) / (0 + 1) = r.val; simp
      | ⟨1, _⟩ => show (j.val - 0) / (0 + 1) = j.val; simp))
  · next hin =>
    exact absurd (fun a => by
      match a with
      | ⟨0, _⟩ => exact ⟨Nat.zero_le _, by show (r.val - 0) % (0 + 1) = 0; exact Nat.mod_one _, by show (r.val - 0) / (0 + 1) < n; simpa using hr⟩
      | ⟨1, _⟩ => exact ⟨Nat.zero_le _, by show (j.val - 0) % (0 + 1) = 0; exact Nat.mod_one _, by show (j.val - 0) / (0 + 1) < k; simpa using j.isLt⟩) hin

theorem row_of_vec_apply {α : Type} {t : Nat} (h : (⟨1, ![t]⟩ : Shape).ShapeCasts ⟨2, ![1, t]⟩)
    (x : (⟨1, ![t]⟩ : Shape).Idx → α) (z : Fin 1) (e : Fin t) :
    shapeCast ⟨2, ![1, t]⟩ x h (ix2 z e) = x (ix1 e) := by

  have hz : z.val = 0 := by have := z.isLt; omega
  refine shapeCast_apply x h (ix2 z e) (ix1 e) ?_
  rw [Shape.rowMajor_val_one, Shape.rowMajor_val_two]
  show e.val = z.val * t + e.val
  rw [hz, Nat.zero_mul, Nat.zero_add]

theorem lead_rows_apply {α : Type} {n t k : Nat} (h : (⟨2, ![t, k]⟩ : Shape).Slices (![0, 0] : Fin 2 → Nat) ⟨2, ![n, k]⟩)
    (hnt : n ≤ t) (x : (⟨2, ![t, k]⟩ : Shape).Idx → α) (r : Fin n) (j : Fin k) :
    extractStridedSlice ⟨2, ![n, k]⟩ ![0, 0] x h (ix2 r j) = x (ix2 ⟨r.val, Nat.lt_of_lt_of_le r.isLt hnt⟩ j) := by
  refine extractStridedSlice_apply _ x h (ix2 r j) _ (fun a => ?_)
  match a with
  | ⟨0, _⟩ => show r.val = 0 + r.val; omega
  | ⟨1, _⟩ => show j.val = 0 + j.val; omega

end Cert.Layout

end
-- ==== Proof.IdealRegions.PaddedReads.lean ====
/- The padded arrays read at an index: true entries below the padding, zeros in it. -/
import proofs.«127098_j12489764897128_1_alg».proof.Proof.IdealRegions.HostReads
import proofs.«127098_j12489764897128_1_alg».proof.Proof.Layout

noncomputable section

namespace Cert.KernelIdeal.HostReads

open Cert.KernelIdeal Cert.KernelIdeal.Gen
open Idealize.ShloMosaic Idealize.ShloMosaic.TcCoe Idealize.ShloMosaic.StableHlo Idealize.ShloMosaic.ValueIdx
open Idealize.SL Idealize.SL.Sem

variable {F : FTy → Type} [FloatOps F]
variable (m : (ℓ : Loc nD τ sig) → Buf (Elt F) ℓ)

theorem after2_c6 (W : Valuation τ sig (Elt F)) :
    (StableHlo.after hostOps0_2 W main_c_6 : IVec S_ 32) = constantI S_ 32 0#32 := by
  after_results

theorem after3_v30 (W : Valuation τ sig (Elt F)) :
    (StableHlo.after hostOps0_3 W main_v30 : IVec S1701888 32)
      = pad S1701888 ![0] ![1888] ![0] (W main_v3 : IVec S1700000 32) (id (W main_c_6 : IVec S_ 32)) pads_S1700000_S1701888_018880 h_S_ := by
  after_results; rfl

theorem after8_v33 (W : Valuation τ sig (Elt F)) :
    (StableHlo.after hostOps0_8 W main_v33 : IVec S1x1701888 32)
      = shapeCast S1x1701888 (W main_v30 : IVec S1701888 32) shapeCasts_S1701888_S1x1701888 := by
  after_results; rfl

theorem after4_c7 (W : Valuation τ sig (Elt F)) :
    (StableHlo.after hostOps0_4 W main_c_7 : IVec S_ 32) = constantI S_ 32 0#32 := by
  after_results

theorem after5_v31 (W : Valuation τ sig (Elt F)) :
    (StableHlo.after hostOps0_5 W main_v31 : IVec S1701888 32)
      = pad S1701888 ![0] ![1888] ![0] (W main_v6 : IVec S1700000 32) (id (W main_c_7 : IVec S_ 32)) pads_S1700000_S1701888_018880 h_S_ := by
  after_results; rfl

theorem after8_v34 (W : Valuation τ sig (Elt F)) :
    (StableHlo.after hostOps0_8 W main_v34 : IVec S1x1701888 32)
      = shapeCast S1x1701888 (W main_v31 : IVec S1701888 32) shapeCasts_S1701888_S1x1701888 := by
  after_results; rfl

theorem after6_c8 (W : Valuation τ sig (Elt F)) :
    (StableHlo.after hostOps0_6 W main_c_8 : IVec S_ 32) = constantI S_ 32 0#32 := by
  after_results

theorem after7_v32 (W : Valuation τ sig (Elt F)) :
    (StableHlo.after hostOps0_7 W main_v32 : FVec F S1701888 .f32)
      = pad S1701888 ![0] ![1888] ![0] (W main_v29 : FVec F S1700000 .f32) (sitofp (F := F) .f32 (W main_c_8 : IVec S_ 32)) pads_S1700000_S1701888_018880 h_S_ := by
  after_results; rfl

theorem after8_v35 (W : Valuation τ sig (Elt F)) :
    (StableHlo.after hostOps0_8 W main_v35 : FVec F S1x1701888 .f32)
      = shapeCast S1x1701888 (W main_v32 : FVec F S1701888 .f32) shapeCasts_S1701888_S1x1701888 := by
  after_results; rfl

theorem after9_v36 (W : Valuation τ sig (Elt F)) :
    (StableHlo.after hostOps0_9 W main_v36 : FVec F S100352x128 .f32)
      = pad S100352x128 ![0, 0] ![352, 0] ![0, 0] (W main_arg0 : FVec F S100000x128 .f32) (sitofp (F := F) .f32 (W main_c_9 : IVec S_ 32))
          pads_S100000x128_S100352x128_03520_000 h_S_ := by
  after_results; rfl

theorem V10_v33 (c : Dev nD) :
    (V10 m c main_v33 : IVec S1x1701888 32)
      = shapeCast S1x1701888 (pad S1701888 ![0] ![1888] ![0] (ksrc m c) (id (constantI S_ 32 0#32 : IVec S_ 32))
          pads_S1700000_S1701888_018880 h_S_) shapeCasts_S1701888_S1x1701888 := by
  rw [V10_of m c main_v33 (by decide)]
  show (StableHlo.after hostOps0_8 (V8 m c) main_v33 : IVec S1x1701888 32) = _
  rw [after8_v33, V8_of m c main_v30 (by decide), V7_of m c main_v30 (by decide), V6_of m c main_v30 (by decide), V5_of m c main_v30 (by decide)]
  show shapeCast S1x1701888 (StableHlo.after hostOps0_3 (V3 m c) main_v30 : IVec S1701888 32) _ = _
  rw [after3_v30, V3_of m c main_v3 (by decide), V2_of m c main_v3 (by decide), V1_src]
  show shapeCast S1x1701888 (pad S1701888 ![0] ![1888] ![0] (ksrc m c) (id (StableHlo.after hostOps0_2 (V2 m c) main_c_6 : IVec S_ 32)) _ _) _ = _
  rw [after2_c6]

theorem src_apply (c : Dev nD) (e : Fin 1701888) :
    (V10 m c main_v33 : IVec S1x1701888 32) (ix2 (0 : Fin 1) e)
      = if h : e.val < 1700000 then ksrc m c (ix1 ⟨e.val, h⟩) else 0#32 := by
  rw [V10_v33, Cert.Layout.row_of_vec_apply, Cert.Layout.pad_tail_apply]
  split <;> rfl

theorem V10_v34 (c : Dev nD) :
    (V10 m c main_v34 : IVec S1x1701888 32)
      = shapeCast S1x1701888 (pad S1701888 ![0] ![1888] ![0] (kdst m c) (id (constantI S_ 32 0#32 : IVec S_ 32))
          pads_S1700000_S1701888_018880 h_S_) shapeCasts_S1701888_S1x1701888 := by
  rw [V10_of m c main_v34 (by decide)]
  show (StableHlo.after hostOps0_8 (V8 m c) main_v34 : IVec S1x1701888 32) = _
  rw [after8_v34, V8_of m c main_v31 (by decide), V7_of m c main_v31 (by decide)]
  show shapeCast S1x1701888 (StableHlo.after hostOps0_5 (V5 m c) main_v31 : IVec S1701888 32) _ = _
  rw [after5_v31, V5_of m c main_v6 (by decide), V4_of m c main_v6 (by decide), V3_of m c main_v6 (by decide), V2_of m c main_v6 (by decide), V1_dst]
  show shapeCast S1x1701888 (pad S1701888 ![0] ![1888] ![0] (kdst m c) (id (StableHlo.after hostOps0_4 (V4 m c) main_c_7 : IVec S_ 32)) _ _) _ = _
  rw [after4_c7]

theorem dst_apply (c : Dev nD) (e : Fin 1701888) :
    (V10 m c main_v34 : IVec S1x1701888 32) (ix2 (0 : Fin 1) e)
      = if h : e.val < 1700000 then kdst m c (ix1 ⟨e.val, h⟩) else 0#32 := by
  rw [V10_v34, Cert.Layout.row_of_vec_apply, Cert.Layout.pad_tail_apply]
  split <;> rfl

theorem x_apply_of_lt (c : Dev nD) (r : Fin 100352) (k : Fin 128) (h : r.val < 100000) :
    (V10 m c main_v36 : FVec F S100352x128 .f32) (ix2 r k)
      = (m ((c.tc : Thread nD τ).loc main_arg0) : FVec F S100000x128 .f32) (ix2 ⟨r.val, h⟩ k) := by
  show (StableHlo.after hostOps0_9 (V9 m c) main_v36 : FVec F S100352x128 .f32) (ix2 r k) = _
  rw [after9_v36, Cert.Layout.pad_rows_apply_of_lt _ _ _ _ r k h,
    V9_of m c main_arg0 (by decide), V8_of m c main_arg0 (by decide), V7_of m c main_arg0 (by decide), V6_of m c main_arg0 (by decide),
    V5_of m c main_arg0 (by decide), V4_of m c main_arg0 (by decide), V3_of m c main_arg0 (by decide), V2_of m c main_arg0 (by decide),
    V1_of m c main_arg0 (by decide)]

theorem V10_arg2 (c : Dev nD) : (V10 m c main_arg2 : FVec F S128x128 .f32) = m ((c.tc : Thread nD τ).loc main_arg2) := by
  rw [V10_of m c main_arg2 (by decide), V9_of m c main_arg2 (by decide), V8_of m c main_arg2 (by decide), V7_of m c main_arg2 (by decide),
    V6_of m c main_arg2 (by decide), V5_of m c main_arg2 (by decide), V4_of m c main_arg2 (by decide), V3_of m c main_arg2 (by decide),
    V2_of m c main_arg2 (by decide), V1_of m c main_arg2 (by decide)]

theorem V10_v35 (c : Dev nD) :
    (V10 m c main_v35 : FVec F S1x1701888 .f32)
      = shapeCast S1x1701888 (pad S1701888 ![0] ![1888] ![0] (knorm m c) (sitofp (F := F) .f32 (constantI S_ 32 0#32 : IVec S_ 32))
          pads_S1700000_S1701888_018880 h_S_) shapeCasts_S1701888_S1x1701888 := by
  rw [V10_of m c main_v35 (by decide)]
  show (StableHlo.after hostOps0_8 (V8 m c) main_v35 : FVec F S1x1701888 .f32) = _
  rw [after8_v35]
  show shapeCast S1x1701888 (StableHlo.after hostOps0_7 (V7 m c) main_v32 : FVec F S1701888 .f32) _ = _
  rw [after7_v32, V7_of m c main_v29 (by decide), V6_of m c main_v29 (by decide), V5_of m c main_v29 (by decide), V4_of m c main_v29 (by decide), V3_norm]
  show shapeCast S1x1701888 (pad S1701888 ![0] ![1888] ![0] (knorm m c) (sitofp (F := F) .f32 (StableHlo.after hostOps0_6 (V6 m c) main_c_8 : IVec S_ 32)) _ _) _ = _
  rw [after6_c8]

end Cert.KernelIdeal.HostReads

namespace Cert.KernelIdeal.HostReads

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

theorem norm_apply (c : Dev nD) (e : Fin 1701888) :
    (V10 m c main_v35 : FVec Ideal S1x1701888 .f32) (ix2 (0 : Fin 1) e)
      = if h : e.val < 1700000 then knorm (F := Ideal) m c (ix1 ⟨e.val, h⟩) else 0 := by
  rw [V10_v35, Cert.Layout.row_of_vec_apply, Cert.Layout.pad_tail_apply]
  split
  · rfl
  · show (((constantI S_ 32 0#32 : IVec S_ 32) _).toInt : ℝ) = (0 : EReal)
    simp [constantI]

end Cert.KernelIdeal.HostReads

end
-- ==== Proof.PreRange.lean ====
/- The precondition's last conjunct: every source word is a node number. -/
import proofs.«127098_j12489764897128_1_alg».proof.Pre_finite_inputs
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx
open Cert.Pre_finite_inputs

variable {F : FTy → Type} [FloatOps F] [Cert.Pre_finite_inputs.Facts]

abbrev srcRow (a1 : IVec S2x1600000 32) : IVec S1600000 32 :=
  shapeCast S1600000 (extractStridedSlice S1x1600000 ![0, 0] a1 Facts.slices_S2x1600000_S1x1600000_0_0)
    Facts.shapeCasts_S1x1600000_S1600000

theorem srcRow_apply (a1 : IVec S2x1600000 32) (e : Fin 1600000) : srcRow a1 (ix1 e) = a1 (ix2 (0 : Fin 2) e) := by
  have hk : Shape.reshapeEquiv Facts.shapeCasts_S1x1600000_S1600000 (ix1 e) = (ix2 (0 : Fin 1) e : S1x1600000.Idx) :=
    Shape.reshapeEquiv_eq_of_rowMajor _ (by
      rw [Shape.rowMajor_val_two, Shape.rowMajor_val_one]
      show 0 * 1600000 + e.val = e.val
      omega)
  unfold srcRow shapeCast
  rw [hk]
  unfold extractStridedSlice
  refine congrArg a1 (funext fun a => Fin.ext ?_)
  match a with
  | ⟨0, _⟩ => rfl
  | ⟨1, _⟩ => show 0 + e.val = e.val; omega

theorem src_in_range (a0 : FVec F S100000x128 .f32) (a1 : IVec S2x1600000 32) (a2 : FVec F S128x128 .f32)
    (a3 : FVec F S128 .f32) (a4 : FVec F S128x64 .f32) (a5 : FVec F S64 .f32)
    (h : Cert.Pre_finite_inputs.fn (F := F) a0 a1 a2 a3 a4 a5 = fun _ => 1#1) (e : Fin 1600000) :
    0 ≤ (a1 (ix2 (0 : Fin 2) e)).toInt ∧ (a1 (ix2 (0 : Fin 2) e)).toInt < 100000 := by
  haveI : Subsingleton S_.Idx := ⟨fun a b => funext fun d => d.elim0⟩

  have hred : Host.reduce IntOp.andi
      (andi (cmpi .sge (srcRow a1) (broadcastInDim S1600000 ![] Facts.bcast_S_S1600000 (constantI S_ 32 0#32)))
        (cmpi .slt (srcRow a1) (broadcastInDim S1600000 ![] Facts.bcast_S_S1600000 (constantI S_ 32 100000#32))))
      (constantI S_ 1 1#1) Facts.reducesTo_S1600000_S_d0 Facts.h_S_ ix0 = 1#1 :=
    (IntOp.andi_eq_one.1 (congrFun h ix0)).2

  have hall := Host.reduce_andi_all _ _ _ _ _ hred (ix1 e)
  obtain ⟨hge, hlt⟩ := IntOp.andi_eq_one.1 hall

  have hge' : IntOp.cmpi .sge (a1 (ix2 (0 : Fin 2) e)) 0#32 = 1#1 := by rw [← srcRow_apply a1 e]; exact hge
  have hlt' : IntOp.cmpi .slt (a1 (ix2 (0 : Fin 2) e)) 100000#32 = 1#1 := by rw [← srcRow_apply a1 e]; exact hlt
  rw [IntOp.cmpi_sge, show (0#32 : BitVec 32).toInt = 0 from by decide] at hge'
  rw [IntOp.cmpi_slt, StableHlo.Predicate.toInt_ofNat_small 100000 (by norm_num)] at hlt'
  exact ⟨hge', by exact_mod_cast hlt'⟩

end Cert.PreRange

end
-- ==== Proof.IdealRegions.SrcRange.lean ====
/- Under the precondition every source word is a node number. -/
import proofs.«127098_j12489764897128_1_alg».proof.Defs
import proofs.«127098_j12489764897128_1_alg».proof.Proof.Gen.Pre_finite_inputs
import proofs.«127098_j12489764897128_1_alg».proof.Proof.IdealRegions.HostReads
import proofs.«127098_j12489764897128_1_alg».proof.Proof.PreRange
import Idealize.ShloMosaic.Lib.Pipeline.Value
import Idealize.ShloMosaic.Lib.ValueIdx

noncomputable section

namespace Cert.KernelIdeal.HostReads

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

theorem src_range (hpre : Cert.Pre_KernelIdeal m) (c : Dev nD) (e : Fin 1700000) :
    0 ≤ (ksrc m c (ix1 e)).toInt ∧ (ksrc m c (ix1 e)).toInt < 100000 := by
  have he : e.val < 1700000 := e.isLt
  by_cases h : e.val < 1600000
  ·
    have hread : ksrc m c (ix1 e)
        = Cert.PreRange.srcRow (m ((c.tc : Thread nD τ).loc main_arg1)) (ix1 (⟨e.val, h⟩ : Fin 1600000)) := by
      unfold ksrc Cert.Edges.ends
      exact concatenate_pair_apply_left (t := Cert.Edges.SE) (s₁ := Cert.Edges.SE0) (s₂ := Cert.Edges.SN) (0 : Fin 1) _ _ _
        (ix1 e) rfl (ix1 (⟨e.val, h⟩ : Fin 1600000)) (fun b => by
          match b with
          | ⟨0, _⟩ => rfl)
    rw [hread, Cert.PreRange.srcRow_apply]
    exact Cert.PreRange.src_in_range (F := Ideal) _ _ _ _ _ _ (hpre c) ⟨e.val, h⟩
  ·
    have hread : ksrc m c (ix1 e) = BitVec.ofNat 32 (e.val - 1600000) := by
      unfold ksrc Cert.Edges.ends
      exact concatenate_pair_apply_right (t := Cert.Edges.SE) (s₁ := Cert.Edges.SE0) (s₂ := Cert.Edges.SN) (0 : Fin 1) _ _ _
        (ix1 e) rfl rfl (ix1 (⟨e.val - 1600000, by omega⟩ : Fin 100000)) (fun b => by
          match b with
          | ⟨0, _⟩ => exact fun hb => absurd (Fin.ext rfl) hb) (by show e.val - 1600000 + 1600000 = e.val; omega)
    rw [hread, StableHlo.Predicate.toInt_ofNat_small _ (by omega)]
    exact ⟨by omega, by omega⟩

end Cert.KernelIdeal.HostReads

end
-- ==== Proof.IdealRegions.Sched.lean ====
/- Grid arithmetic: a point's coordinates and its output block's index. -/
import proofs.«127098_j12489764897128_1_alg».proof.Proof.Gen.KernelIdeal.Launch

noncomputable section

namespace Cert.KernelIdeal.Sched

open Cert.KernelIdeal Cert.KernelIdeal.Gen
open Idealize.ShloMosaic Idealize.ShloMosaic.TcCoe
open Idealize.SL Idealize.SL.Sem

theorem stride0_0 : grid0.stride 0 = 1 := by decide

theorem point0_lt (t : Fin cfg0.N) : t.val < 49 := Nat.lt_of_lt_of_eq t.isLt N_0
theorem coords0_0 (t : Fin cfg0.N) : ((grid0.coords t) 0).val = t.val := by
  show t.val / grid0.stride 0 % 49 = t.val
  rw [stride0_0, Nat.div_one, Nat.mod_eq_of_lt (point0_lt t)]

theorem index0_2 (t : Fin cfg0.N) : (cfg0.win 2).index t = ![t.val, 0] := by
  have ht := point0_lt t
  show cc0_transform_2 (grid0.coords t) = ![t.val, 0]
  unfold cc0_transform_2
  simp only [coords0_0 t, BitVec.toNat_ofNat]
  rw [Nat.mod_eq_of_lt (by omega)]
theorem flush0_2 (t : Fin cfg0.N) : (cfg0.win 2).flush t = true := by
  have ht := point0_lt t
  rw [Pipeline.Window.flush_out _ rfl]
  by_cases hl : t.val + 1 = 49
  · exact Or.inl (hl.trans N_0.symm)
  ·
    right
    refine ⟨Nat.lt_of_lt_of_eq (show t.val + 1 < 49 by omega) N_0.symm, fun heq => ?_⟩
    rw [index0_2, index0_2] at heq
    have h0 : t.val + 1 = t.val := congrFun heq 0
    omega

theorem stride3_0 : grid3.stride 0 = 1 := by decide

theorem point3_lt (t : Fin cfg3.N) : t.val < 49 := Nat.lt_of_lt_of_eq t.isLt N_3
theorem coords3_0 (t : Fin cfg3.N) : ((grid3.coords t) 0).val = t.val := by
  show t.val / grid3.stride 0 % 49 = t.val
  rw [stride3_0, Nat.div_one, Nat.mod_eq_of_lt (point3_lt t)]

theorem index3_2 (t : Fin cfg3.N) : (cfg3.win 2).index t = ![t.val, 0] := by
  have ht := point3_lt t
  show cc3_transform_2 (grid3.coords t) = ![t.val, 0]
  unfold cc3_transform_2
  simp only [coords3_0 t, BitVec.toNat_ofNat]
  rw [Nat.mod_eq_of_lt (by omega)]
theorem flush3_2 (t : Fin cfg3.N) : (cfg3.win 2).flush t = true := by
  have ht := point3_lt t
  rw [Pipeline.Window.flush_out _ rfl]
  by_cases hl : t.val + 1 = 49
  · exact Or.inl (hl.trans N_3.symm)
  ·
    right
    refine ⟨Nat.lt_of_lt_of_eq (show t.val + 1 < 49 by omega) N_3.symm, fun heq => ?_⟩
    rw [index3_2, index3_2] at heq
    have h0 : t.val + 1 = t.val := congrFun heq 0
    omega

theorem stride1_0 : grid1.stride 0 = 49 := by decide
theorem stride1_1 : grid1.stride 1 = 1 := by decide

theorem point1_lt (t : Fin cfg1.N) : t.val < 40719 := Nat.lt_of_lt_of_eq t.isLt N_1
theorem coords1_0 (t : Fin cfg1.N) : ((grid1.coords t) 0).val = t.val / 49 := by
  have ht := point1_lt t
  show t.val / grid1.stride 0 % 831 = t.val / 49
  rw [stride1_0]
  omega
theorem coords1_1 (t : Fin cfg1.N) : ((grid1.coords t) 1).val = t.val % 49 := by
  show t.val / grid1.stride 1 % 49 = t.val % 49
  rw [stride1_1, Nat.div_one]

theorem index1_3 (t : Fin cfg1.N) : (cfg1.win 3).index t = ![t.val / 49, 0] := by
  have ht := point1_lt t
  show cc1_transform_3 (grid1.coords t) = ![t.val / 49, 0]
  unfold cc1_transform_3
  simp only [coords1_0 t, BitVec.toNat_ofNat]
  rw [Nat.mod_eq_of_lt (by omega)]
theorem flush1_3 (t : Fin cfg1.N) : (cfg1.win 3).flush t = true ↔ t.val % 49 = 48 := by
  have ht := point1_lt t
  rw [Pipeline.Window.flush_out _ rfl]
  constructor
  · rintro (e | ⟨h, hne⟩)
    ·
      have e' : t.val + 1 = 40719 := e.trans N_1
      omega
    ·
      by_contra hm
      apply hne
      rw [index1_3, index1_3]
      show ![(t.val + 1) / 49, 0] = ![t.val / 49, 0]
      rw [show (t.val + 1) / 49 = t.val / 49 from by omega]
  · intro hm
    by_cases hl : t.val + 1 = 40719
    · exact Or.inl (hl.trans N_1.symm)
    · right
      refine ⟨Nat.lt_of_lt_of_eq (show t.val + 1 < 40719 by omega) N_1.symm, fun heq => ?_⟩
      rw [index1_3, index1_3] at heq
      have h0 : (t.val + 1) / 49 = t.val / 49 := congrFun heq 0
      omega

theorem stride4_0 : grid4.stride 0 = 49 := by decide
theorem stride4_1 : grid4.stride 1 = 1 := by decide

theorem point4_lt (t : Fin cfg4.N) : t.val < 40719 := Nat.lt_of_lt_of_eq t.isLt N_4
theorem coords4_0 (t : Fin cfg4.N) : ((grid4.coords t) 0).val = t.val / 49 := by
  have ht := point4_lt t
  show t.val / grid4.stride 0 % 831 = t.val / 49
  rw [stride4_0]
  omega
theorem coords4_1 (t : Fin cfg4.N) : ((grid4.coords t) 1).val = t.val % 49 := by
  show t.val / grid4.stride 1 % 49 = t.val % 49
  rw [stride4_1, Nat.div_one]

theorem index4_3 (t : Fin cfg4.N) : (cfg4.win 3).index t = ![t.val / 49, 0] := by
  have ht := point4_lt t
  show cc4_transform_3 (grid4.coords t) = ![t.val / 49, 0]
  unfold cc4_transform_3
  simp only [coords4_0 t, BitVec.toNat_ofNat]
  rw [Nat.mod_eq_of_lt (by omega)]
theorem flush4_3 (t : Fin cfg4.N) : (cfg4.win 3).flush t = true ↔ t.val % 49 = 48 := by
  have ht := point4_lt t
  rw [Pipeline.Window.flush_out _ rfl]
  constructor
  · rintro (e | ⟨h, hne⟩)
    ·
      have e' : t.val + 1 = 40719 := e.trans N_4
      omega
    ·
      by_contra hm
      apply hne
      rw [index4_3, index4_3]
      show ![(t.val + 1) / 49, 0] = ![t.val / 49, 0]
      rw [show (t.val + 1) / 49 = t.val / 49 from by omega]
  · intro hm
    by_cases hl : t.val + 1 = 40719
    · exact Or.inl (hl.trans N_4.symm)
    · right
      refine ⟨Nat.lt_of_lt_of_eq (show t.val + 1 < 40719 by omega) N_4.symm, fun heq => ?_⟩
      rw [index4_3, index4_3] at heq
      have h0 : (t.val + 1) / 49 = t.val / 49 := congrFun heq 0
      omega

theorem stride2_0 : grid2.stride 0 = 831 := by decide
theorem stride2_1 : grid2.stride 1 = 1 := by decide

theorem point2_lt (t : Fin cfg2.N) : t.val < 40719 := Nat.lt_of_lt_of_eq t.isLt N_2
theorem coords2_0 (t : Fin cfg2.N) : ((grid2.coords t) 0).val = t.val / 831 := by
  have ht := point2_lt t
  show t.val / grid2.stride 0 % 49 = t.val / 831
  rw [stride2_0]
  omega
theorem coords2_1 (t : Fin cfg2.N) : ((grid2.coords t) 1).val = t.val % 831 := by
  show t.val / grid2.stride 1 % 831 = t.val % 831
  rw [stride2_1, Nat.div_one]

theorem index2_3 (t : Fin cfg2.N) : (cfg2.win 3).index t = ![t.val / 831, 0] := by
  have ht := point2_lt t
  show cc2_transform_3 (grid2.coords t) = ![t.val / 831, 0]
  unfold cc2_transform_3
  simp only [coords2_0 t, BitVec.toNat_ofNat]
  rw [Nat.mod_eq_of_lt (by omega)]
theorem flush2_3 (t : Fin cfg2.N) : (cfg2.win 3).flush t = true ↔ t.val % 831 = 830 := by
  have ht := point2_lt t
  rw [Pipeline.Window.flush_out _ rfl]
  constructor
  · rintro (e | ⟨h, hne⟩)
    ·
      have e' : t.val + 1 = 40719 := e.trans N_2
      omega
    ·
      by_contra hm
      apply hne
      rw [index2_3, index2_3]
      show ![(t.val + 1) / 831, 0] = ![t.val / 831, 0]
      rw [show (t.val + 1) / 831 = t.val / 831 from by omega]
  · intro hm
    by_cases hl : t.val + 1 = 40719
    · exact Or.inl (hl.trans N_2.symm)
    · right
      refine ⟨Nat.lt_of_lt_of_eq (show t.val + 1 < 40719 by omega) N_2.symm, fun heq => ?_⟩
      rw [index2_3, index2_3] at heq
      have h0 : (t.val + 1) / 831 = t.val / 831 := congrFun heq 0
      omega

theorem stride5_0 : grid5.stride 0 = 831 := by decide
theorem stride5_1 : grid5.stride 1 = 1 := by decide

theorem point5_lt (t : Fin cfg5.N) : t.val < 40719 := Nat.lt_of_lt_of_eq t.isLt N_5
theorem coords5_0 (t : Fin cfg5.N) : ((grid5.coords t) 0).val = t.val / 831 := by
  have ht := point5_lt t
  show t.val / grid5.stride 0 % 49 = t.val / 831
  rw [stride5_0]
  omega
theorem coords5_1 (t : Fin cfg5.N) : ((grid5.coords t) 1).val = t.val % 831 := by
  show t.val / grid5.stride 1 % 831 = t.val % 831
  rw [stride5_1, Nat.div_one]

theorem index5_3 (t : Fin cfg5.N) : (cfg5.win 3).index t = ![t.val / 831, 0] := by
  have ht := point5_lt t
  show cc5_transform_3 (grid5.coords t) = ![t.val / 831, 0]
  unfold cc5_transform_3
  simp only [coords5_0 t, BitVec.toNat_ofNat]
  rw [Nat.mod_eq_of_lt (by omega)]
theorem flush5_3 (t : Fin cfg5.N) : (cfg5.win 3).flush t = true ↔ t.val % 831 = 830 := by
  have ht := point5_lt t
  rw [Pipeline.Window.flush_out _ rfl]
  constructor
  · rintro (e | ⟨h, hne⟩)
    ·
      have e' : t.val + 1 = 40719 := e.trans N_5
      omega
    ·
      by_contra hm
      apply hne
      rw [index5_3, index5_3]
      show ![(t.val + 1) / 831, 0] = ![t.val / 831, 0]
      rw [show (t.val + 1) / 831 = t.val / 831 from by omega]
  · intro hm
    by_cases hl : t.val + 1 = 40719
    · exact Or.inl (hl.trans N_5.symm)
    · right
      refine ⟨Nat.lt_of_lt_of_eq (show t.val + 1 < 40719 by omega) N_5.symm, fun heq => ?_⟩
      rw [index5_3, index5_3] at heq
      have h0 : (t.val + 1) / 831 = t.val / 831 := congrFun heq 0
      omega

end Cert.KernelIdeal.Sched

end
-- ==== Proof.IdealRegions.Proj0Value.lean ====
/- The projection's output is the matrix product: the blocks tile the rows. -/
import proofs.«127098_j12489764897128_1_alg».proof.Proof.IdealRegions.Proj0
import proofs.«127098_j12489764897128_1_alg».proof.Proof.IdealRegions.Sched
import Idealize.ShloMosaic.Lib.Pipeline.Value
import Idealize.ShloMosaic.Lib.ValueIdx
import Idealize.ShloMosaic.PureOps.Ideal.Laws

set_option maxRecDepth 16384

noncomputable section

namespace Cert.KernelIdeal.Proj0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

abbrev xarr (c : Dev nD) : FVec Ideal S100352x128 .f32 := V c main_v36
abbrev warr (c : Dev nD) : FVec Ideal S128x128 .f32 := V c main_arg2
abbrev yarr (c : Dev nD) : FVec Ideal S100352x128 .f32 := (dat (F := Ideal) V c).arrAt 2 cfg0.N

theorem zero_offsets : (![0, 0] : Fin 2 → Nat) = fun _ => 0 := funext fun a => by fin_cases a <;> rfl

theorem lhs_row (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl

theorem lhs_col (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q

theorem rhs_row (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q

theorem rhs_col (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

theorem pay_apply (x : Vec Ideal S2048x128 .f32) (w : Vec Ideal S128x128 .f32) (p : Fin 2048) (q : Fin 128) :
    k0_pay1 x w (ix2 p q) = ∑ k : Fin 128, x (ix2 p k) * w (ix2 k q) := by
  unfold k0_pay1
  simp only [shapeCast_self, matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p q) ((ValueIdx.contrEquiv1 dot_S2048x128_S128x128_S2048x128_1_0_0_1_n_n 128 rfl rfl).symm k) = ix2 p k := funext fun a => Fin.ext (by
    match a with
    | ⟨0, _⟩ => exact lhs_row _ _
    | ⟨1, _⟩ => exact (lhs_col _ _).trans hk)
  have er : dot_S2048x128_S128x128_S2048x128_1_0_0_1_n_n.rhsIdx (ix2 p q) ((ValueIdx.contrEquiv1 dot_S2048x128_S128x128_S2048x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

theorem out_apply (x : Vec Ideal S2048x128 .f32) (w : Vec Ideal S128x128 .f32) (p : Fin 2048) (q : Fin 128) :
    out x w (ix2 p q) = ∑ k : Fin 128, x (ix2 p k) * w (ix2 k q) := by
  unfold out
  rw [View.canon_unit_zero zero_offsets]
  simp only [View.ld_unit_zero (S := S2048x128) zero_offsets, View.ld_unit_zero (S := S128x128) zero_offsets]
  exact pay_apply x w p q

def rowsTimes (X : FVec Ideal S100352x128 .f32) (W : FVec Ideal S128x128 .f32) : FVec Ideal S100352x128 .f32 :=
  fun j => ∑ k : Fin 128, X (ix2 ⟨(j 0).val, idx2_lt0 j⟩ k) * W (ix2 k ⟨(j 1).val, idx2_lt1 j⟩)

theorem rowsTimes_apply (X : FVec Ideal S100352x128 .f32) (W : FVec Ideal S128x128 .f32) (r : Fin 100352) (d : Fin 128) :
    rowsTimes X W (ix2 r d) = ∑ k : Fin 128, X (ix2 r k) * W (ix2 k d) := rfl

theorem index_x (t : Fin cfg0.N) : (cfg0.win 0).index t = ![t.val, 0] := by
  have ht := Sched.point0_lt t
  show cc0_transform_0 (grid0.coords t) = ![t.val, 0]
  unfold cc0_transform_0
  simp only [Sched.coords0_0 t, BitVec.toNat_ofNat]
  rw [Nat.mod_eq_of_lt (by omega)]

theorem index_w (t : Fin cfg0.N) : (cfg0.win 1).index t = ![0, 0] := by
  show cc0_transform_1 (grid0.coords t) = ![0, 0]
  unfold cc0_transform_1
  rfl

theorem row_lt (t : Fin cfg0.N) (p : Fin 2048) : t.val * 2048 + p.val < 100352 := by
  have ht := Sched.point0_lt t
  have hp := p.isLt
  omega

theorem emb_x (t : Fin cfg0.N) (p : Fin 2048) (k : Fin 128) :
    ((cfg0.win 0).blk t).view.emb (ix2 p k) = (ix2 ⟨t.val * 2048 + p.val, row_lt t p⟩ k : S100352x128.Idx) := by
  have e0 : win0_0.index t (0 : Fin 2) = t.val := congrFun (index_x t) 0
  have e1 : win0_0.index t (1 : Fin 2) = 0 := congrFun (index_x t) 1
  funext a; apply Fin.ext
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

theorem emb_w (t : Fin cfg0.N) (k : Fin 128) (q : Fin 128) :
    ((cfg0.win 1).blk t).view.emb (ix2 k q) = (ix2 k q : S128x128.Idx) := by
  have e0 : win0_1.index t (0 : Fin 2) = 0 := congrFun (index_w t) 0
  have e1 : win0_1.index t (1 : Fin 2) = 0 := congrFun (index_w t) 1
  funext a; apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

theorem emb_y (t : Fin cfg0.N) (p : Fin 2048) (q : Fin 128) :
    ((cfg0.win 2).blk t).view.emb (ix2 p q) = (ix2 ⟨t.val * 2048 + p.val, row_lt t p⟩ q : S100352x128.Idx) := by
  have e0 : win0_2.index t (0 : Fin 2) = t.val := congrFun (Sched.index0_2 t) 0
  have e1 : win0_2.index t (1 : Fin 2) = 0 := congrFun (Sched.index0_2 t) 1
  funext a; apply Fin.ext
  match a with
  | ⟨0, _⟩ => show win0_2.index t (0 : Fin 2) * 2048 + 1 * p.val = t.val * 2048 + p.val; rw [e0]; omega
  | ⟨1, _⟩ => show win0_2.index t (1 : Fin 2) * 128 + 1 * q.val = q.val; rw [e1]; omega

theorem point_apply (c : Dev nD) (t : Fin cfg0.N) (p : Fin 2048) (q : Fin 128) :
    out (iblk V c 0 t) (iblk V c 1 t) (ix2 p q)
      = rowsTimes (xarr V c) (warr V c) (ix2 ⟨t.val * 2048 + p.val, row_lt t p⟩ q) := by
  refine (out_apply (iblk V c 0 t) (iblk V c 1 t) p q).trans ?_
  rw [rowsTimes_apply]
  refine Finset.sum_congr rfl fun k _ => ?_
  have hx : iblk V c 0 t (ix2 p k) = xarr V c (ix2 ⟨t.val * 2048 + p.val, row_lt t p⟩ k) := by
    show V c main_v36 (((cfg0.win 0).blk t).view.emb (ix2 p k)) = V c main_v36 _
    rw [emb_x]
  have hw : iblk V c 1 t (ix2 k q) = warr V c (ix2 k q) := by
    show V c main_arg2 (((cfg0.win 1).blk t).view.emb (ix2 k q)) = V c main_arg2 _
    rw [emb_w]
  rw [hx, hw]

theorem flushed_eq (c : Dev nD) (t : Fin cfg0.N) :
    (dat (F := Ideal) V c).flushed 2 t = ((cfg0.win 2).blk t).view.read (Elt Ideal) (rowsTimes (xarr V c) (warr V c)) := by
  show (cfg0.win 2).cut (grid0.coords t) ((dat (F := Ideal) V c).after 2 t) = _
  rw [after_2]
  funext j
  obtain ⟨p, q, rfl⟩ : ∃ (p : Fin 2048) (q : Fin 128), j = ix2 p q := ⟨j 0, j 1, @eq_ix2 2048 128 j⟩
  show out (iblk V c 0 t) (iblk V c 1 t) ((cfg0.win 2).xinj (grid0.coords t) (ix2 p q))
    = rowsTimes (xarr V c) (warr V c) (((cfg0.win 2).blk t).view.emb (ix2 p q))
  rw [emb_y, ← point_apply]
  exact congrArg _ (funext fun a => Fin.ext (by match a with | ⟨0, _⟩ => rfl | ⟨1, _⟩ => rfl))

theorem mem_blk_y (t : Fin cfg0.N) (i : S100352x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v37).slice (win0_2.rect t)).set ↔ _
  rw [View.set_slice_whole, Rect.mem_set_unit]
  exact Iff.rfl

theorem rows_covered (i : S100352x128.Idx) :
    ∃ t : Fin cfg0.N, (cfg0.win 2).flush t = true ∧ i ∈ ((cfg0.win 2).blk t).view.set := by
  have hi0 : (i 0).val < 100352 := (i 0).isLt
  have hi1 : (i 1).val < 128 := (i 1).isLt
  let t : Fin cfg0.N := ⟨(i 0).val / 2048, Nat.lt_of_lt_of_eq (show (i 0).val / 2048 < 49 by omega) N_0.symm⟩
  refine ⟨t, Sched.flush0_2 t, ?_⟩
  have e0 : win0_2.index t (0 : Fin 2) = (i 0).val / 2048 := congrFun (Sched.index0_2 t) 0
  have e1 : win0_2.index t (1 : Fin 2) = 0 := congrFun (Sched.index0_2 t) 1
  rw [mem_blk_y]
  intro a
  match a with
  | ⟨0, _⟩ => show win0_2.index t (0 : Fin 2) * 2048 ≤ (i 0).val ∧ (i 0).val < win0_2.index t (0 : Fin 2) * 2048 + 2048; rw [e0]; omega
  | ⟨1, _⟩ => show win0_2.index t (1 : Fin 2) * 128 ≤ (i 1).val ∧ (i 1).val < win0_2.index t (1 : Fin 2) * 128 + 128; rw [e1]; omega

theorem final (c : Dev nD) : yarr V c = rowsTimes (xarr V c) (warr V c) :=
  (dat (F := Ideal) V c).arrAt_eq_of_cover 2 (rowsTimes (xarr V c) (warr V c)) (fun t _ => flushed_eq V c t) rows_covered

theorem final_apply (c : Dev nD) (r : Fin 100352) (d : Fin 128) :
    yarr V c (ix2 r d) = ∑ k : Fin 128, xarr V c (ix2 r k) * warr V c (ix2 k d) := by
  rw [final V c, rowsTimes_apply]

end Cert.KernelIdeal.Proj0

end
-- ==== Proof.IdealRegions.Proj3Value.lean ====
/- The projection's output is the matrix product: the blocks tile the rows. -/
import proofs.«127098_j12489764897128_1_alg».proof.Proof.IdealRegions.Proj3
import proofs.«127098_j12489764897128_1_alg».proof.Proof.IdealRegions.Sched
import Idealize.ShloMosaic.Lib.Pipeline.Value
import Idealize.ShloMosaic.Lib.ValueIdx
import Idealize.ShloMosaic.PureOps.Ideal.Laws

set_option maxRecDepth 16384

noncomputable section

namespace Cert.KernelIdeal.Proj3

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

abbrev xarr (c : Dev nD) : FVec Ideal S100352x128 .f32 := V c main_v40
abbrev warr (c : Dev nD) : FVec Ideal S128x64 .f32 := V c main_arg4
abbrev yarr (c : Dev nD) : FVec Ideal S100352x64 .f32 := (dat (F := Ideal) V c).arrAt 2 cfg3.N

theorem zero_offsets : (![0, 0] : Fin 2 → Nat) = fun _ => 0 := funext fun a => by fin_cases a <;> rfl

theorem lhs_row (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl

theorem lhs_col (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q

theorem rhs_row (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q

theorem rhs_col (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

theorem pay_apply (x : Vec Ideal S2048x128 .f32) (w : Vec Ideal S128x64 .f32) (p : Fin 2048) (q : Fin 64) :
    k3_pay1 x w (ix2 p q) = ∑ k : Fin 128, x (ix2 p k) * w (ix2 k q) := by
  unfold k3_pay1
  simp only [shapeCast_self, matmul]
  rw [Ideal.matmul_constant_zero_apply, ← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 p q) ((ValueIdx.contrEquiv1 dot_S2048x128_S128x64_S2048x64_1_0_0_1_n_n 128 rfl rfl).symm k) = ix2 p k := funext fun a => Fin.ext (by
    match a with
    | ⟨0, _⟩ => exact lhs_row _ _
    | ⟨1, _⟩ => exact (lhs_col _ _).trans hk)
  have er : dot_S2048x128_S128x64_S2048x64_1_0_0_1_n_n.rhsIdx (ix2 p q) ((ValueIdx.contrEquiv1 dot_S2048x128_S128x64_S2048x64_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

theorem out_apply (x : Vec Ideal S2048x128 .f32) (w : Vec Ideal S128x64 .f32) (p : Fin 2048) (q : Fin 64) :
    out x w (ix2 p q) = ∑ k : Fin 128, x (ix2 p k) * w (ix2 k q) := by
  unfold out
  rw [View.canon_unit_zero zero_offsets]
  simp only [View.ld_unit_zero (S := S2048x128) zero_offsets, View.ld_unit_zero (S := S128x64) zero_offsets]
  exact pay_apply x w p q

def rowsTimes (X : FVec Ideal S100352x128 .f32) (W : FVec Ideal S128x64 .f32) : FVec Ideal S100352x64 .f32 :=
  fun j => ∑ k : Fin 128, X (ix2 ⟨(j 0).val, idx2_lt0 j⟩ k) * W (ix2 k ⟨(j 1).val, idx2_lt1 j⟩)

theorem rowsTimes_apply (X : FVec Ideal S100352x128 .f32) (W : FVec Ideal S128x64 .f32) (r : Fin 100352) (d : Fin 64) :
    rowsTimes X W (ix2 r d) = ∑ k : Fin 128, X (ix2 r k) * W (ix2 k d) := rfl

theorem index_x (t : Fin cfg3.N) : (cfg3.win 0).index t = ![t.val, 0] := by
  have ht := Sched.point3_lt t
  show cc3_transform_0 (grid3.coords t) = ![t.val, 0]
  unfold cc3_transform_0
  simp only [Sched.coords3_0 t, BitVec.toNat_ofNat]
  rw [Nat.mod_eq_of_lt (by omega)]

theorem index_w (t : Fin cfg3.N) : (cfg3.win 1).index t = ![0, 0] := by
  show cc3_transform_1 (grid3.coords t) = ![0, 0]
  unfold cc3_transform_1
  rfl

theorem row_lt (t : Fin cfg3.N) (p : Fin 2048) : t.val * 2048 + p.val < 100352 := by
  have ht := Sched.point3_lt t
  have hp := p.isLt
  omega

theorem emb_x (t : Fin cfg3.N) (p : Fin 2048) (k : Fin 128) :
    ((cfg3.win 0).blk t).view.emb (ix2 p k) = (ix2 ⟨t.val * 2048 + p.val, row_lt t p⟩ k : S100352x128.Idx) := by
  have e0 : win3_0.index t (0 : Fin 2) = t.val := congrFun (index_x t) 0
  have e1 : win3_0.index t (1 : Fin 2) = 0 := congrFun (index_x t) 1
  funext a; apply Fin.ext
  match a with
  | ⟨0, _⟩ => show win3_0.index t (0 : Fin 2) * 2048 + 1 * p.val = t.val * 2048 + p.val; rw [e0]; omega
  | ⟨1, _⟩ => show win3_0.index t (1 : Fin 2) * 128 + 1 * k.val = k.val; rw [e1]; omega

theorem emb_w (t : Fin cfg3.N) (k : Fin 128) (q : Fin 64) :
    ((cfg3.win 1).blk t).view.emb (ix2 k q) = (ix2 k q : S128x64.Idx) := by
  have e0 : win3_1.index t (0 : Fin 2) = 0 := congrFun (index_w t) 0
  have e1 : win3_1.index t (1 : Fin 2) = 0 := congrFun (index_w t) 1
  funext a; apply Fin.ext
  match a with
  | ⟨0, _⟩ => show win3_1.index t (0 : Fin 2) * 128 + 1 * k.val = k.val; rw [e0]; omega
  | ⟨1, _⟩ => show win3_1.index t (1 : Fin 2) * 64 + 1 * q.val = q.val; rw [e1]; omega

theorem emb_y (t : Fin cfg3.N) (p : Fin 2048) (q : Fin 64) :
    ((cfg3.win 2).blk t).view.emb (ix2 p q) = (ix2 ⟨t.val * 2048 + p.val, row_lt t p⟩ q : S100352x64.Idx) := by
  have e0 : win3_2.index t (0 : Fin 2) = t.val := congrFun (Sched.index3_2 t) 0
  have e1 : win3_2.index t (1 : Fin 2) = 0 := congrFun (Sched.index3_2 t) 1
  funext a; apply Fin.ext
  match a with
  | ⟨0, _⟩ => show win3_2.index t (0 : Fin 2) * 2048 + 1 * p.val = t.val * 2048 + p.val; rw [e0]; omega
  | ⟨1, _⟩ => show win3_2.index t (1 : Fin 2) * 64 + 1 * q.val = q.val; rw [e1]; omega

theorem point_apply (c : Dev nD) (t : Fin cfg3.N) (p : Fin 2048) (q : Fin 64) :
    out (iblk V c 0 t) (iblk V c 1 t) (ix2 p q)
      = rowsTimes (xarr V c) (warr V c) (ix2 ⟨t.val * 2048 + p.val, row_lt t p⟩ q) := by
  refine (out_apply (iblk V c 0 t) (iblk V c 1 t) p q).trans ?_
  rw [rowsTimes_apply]
  refine Finset.sum_congr rfl fun k _ => ?_
  have hx : iblk V c 0 t (ix2 p k) = xarr V c (ix2 ⟨t.val * 2048 + p.val, row_lt t p⟩ k) := by
    show V c main_v40 (((cfg3.win 0).blk t).view.emb (ix2 p k)) = V c main_v40 _
    rw [emb_x]
  have hw : iblk V c 1 t (ix2 k q) = warr V c (ix2 k q) := by
    show V c main_arg4 (((cfg3.win 1).blk t).view.emb (ix2 k q)) = V c main_arg4 _
    rw [emb_w]
  rw [hx, hw]

theorem flushed_eq (c : Dev nD) (t : Fin cfg3.N) :
    (dat (F := Ideal) V c).flushed 2 t = ((cfg3.win 2).blk t).view.read (Elt Ideal) (rowsTimes (xarr V c) (warr V c)) := by
  show (cfg3.win 2).cut (grid3.coords t) ((dat (F := Ideal) V c).after 2 t) = _
  rw [after_2]
  funext j
  obtain ⟨p, q, rfl⟩ : ∃ (p : Fin 2048) (q : Fin 64), j = ix2 p q := ⟨j 0, j 1, @eq_ix2 2048 64 j⟩
  show out (iblk V c 0 t) (iblk V c 1 t) ((cfg3.win 2).xinj (grid3.coords t) (ix2 p q))
    = rowsTimes (xarr V c) (warr V c) (((cfg3.win 2).blk t).view.emb (ix2 p q))
  rw [emb_y, ← point_apply]
  exact congrArg _ (funext fun a => Fin.ext (by match a with | ⟨0, _⟩ => rfl | ⟨1, _⟩ => rfl))

theorem mem_blk_y (t : Fin cfg3.N) (i : S100352x64.Idx) :
    i ∈ ((cfg3.win 2).blk t).view.set ↔ ∀ a : Fin 2, win3_2.index t a * S2048x64.size a ≤ (i a).val ∧ (i a).val < win3_2.index t a * S2048x64.size a + S2048x64.size a := by
  show i ∈ ((View.whole main_v41).slice (win3_2.rect t)).set ↔ _
  rw [View.set_slice_whole, Rect.mem_set_unit]
  exact Iff.rfl

theorem rows_covered (i : S100352x64.Idx) :
    ∃ t : Fin cfg3.N, (cfg3.win 2).flush t = true ∧ i ∈ ((cfg3.win 2).blk t).view.set := by
  have hi0 : (i 0).val < 100352 := (i 0).isLt
  have hi1 : (i 1).val < 64 := (i 1).isLt
  let t : Fin cfg3.N := ⟨(i 0).val / 2048, Nat.lt_of_lt_of_eq (show (i 0).val / 2048 < 49 by omega) N_3.symm⟩
  refine ⟨t, Sched.flush3_2 t, ?_⟩
  have e0 : win3_2.index t (0 : Fin 2) = (i 0).val / 2048 := congrFun (Sched.index3_2 t) 0
  have e1 : win3_2.index t (1 : Fin 2) = 0 := congrFun (Sched.index3_2 t) 1
  rw [mem_blk_y]
  intro a
  match a with
  | ⟨0, _⟩ => show win3_2.index t (0 : Fin 2) * 2048 ≤ (i 0).val ∧ (i 0).val < win3_2.index t (0 : Fin 2) * 2048 + 2048; rw [e0]; omega
  | ⟨1, _⟩ => show win3_2.index t (1 : Fin 2) * 64 ≤ (i 1).val ∧ (i 1).val < win3_2.index t (1 : Fin 2) * 64 + 64; rw [e1]; omega

theorem final (c : Dev nD) : yarr V c = rowsTimes (xarr V c) (warr V c) :=
  (dat (F := Ideal) V c).arrAt_eq_of_cover 2 (rowsTimes (xarr V c) (warr V c)) (fun t _ => flushed_eq V c t) rows_covered

theorem final_apply (c : Dev nD) (r : Fin 100352) (d : Fin 64) :
    yarr V c (ix2 r d) = ∑ k : Fin 128, xarr V c (ix2 r k) * warr V c (ix2 k d) := by
  rw [final V c, rowsTimes_apply]

end Cert.KernelIdeal.Proj3

end
-- ==== Proof.LibGatherScatter.lean ====
/- Gathers at clamped indices and scatter-additions, read at an index. -/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

def clampIdx (N : Nat) (hN : 0 < N) (v : BitVec 32) : Fin N := ⟨min v.toInt.toNat (N - 1), by omega⟩

theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by

  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>

    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>

    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1

  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

def wrapW (n : BitVec 32) (v : BitVec 32) : BitVec 32 := if v.toInt < 0 then v + n else v

theorem wrapW_of_nonneg {n v : BitVec 32} (h : 0 ≤ v.toInt) : wrapW n v = v := by
  unfold wrapW
  rw [if_neg (not_lt.mpr h)]

theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.Spec.lean ====
/- The two-layer graph convolution as a function of the inputs. -/
import proofs.«127098_j12489764897128_1_alg».proof.Proof.LibGatherScatter

noncomputable section

namespace Cert.Spec

open Idealize.ShloMosaic
open Cert.LibGatherScatter (clampIdx wrapW)
open scoped BigOperators

def proj {R K D : Nat} (x : Fin R → Fin K → EReal) (W : Fin K → Fin D → EReal) (r : Fin R) (d : Fin D) : EReal :=
  ∑ k : Fin K, x r k * W k d

def msg {N E K D : Nat} (hN : 0 < N) (nW : BitVec 32) (src : Fin E → BitVec 32) (norm : Fin E → EReal)
    (x : Fin N → Fin K → EReal) (W : Fin K → Fin D → EReal) (e : Fin E) (d : Fin D) : EReal :=
  proj x W (clampIdx N hN (wrapW nW (src e))) d * norm e

def layer {N E K D : Nat} (hN : 0 < N) (nW : BitVec 32) (src dst : Fin E → BitVec 32) (norm : Fin E → EReal)
    (x : Fin N → Fin K → EReal) (W : Fin K → Fin D → EReal) (b : Fin D → EReal) (n : Fin N) (d : Fin D) : EReal :=
  max (((0 : EReal) + ∑ e ∈ Finset.univ.filter (fun e : Fin E => (dst e).toInt = (n.val : ℤ)),
      msg hN nW src norm x W e d) + b d) 0

def net {N E K D₁ D₂ : Nat} (hN : 0 < N) (nW : BitVec 32) (src dst : Fin E → BitVec 32) (norm : Fin E → EReal)
    (x : Fin N → Fin K → EReal) (W₁ : Fin K → Fin D₁ → EReal) (b₁ : Fin D₁ → EReal)
    (W₂ : Fin D₁ → Fin D₂ → EReal) (b₂ : Fin D₂ → EReal) : Fin N → Fin D₂ → EReal :=
  layer hN nW src dst norm (layer hN nW src dst norm x W₁ b₁) W₂ b₂

end Cert.Spec

end
-- ==== Proof.Bridge.lean ====
/- A one-hot sum over all node numbers picks one row; zero-weight padding adds nothing; so the padded layer is the specification's on the true nodes. -/
import proofs.«127098_j12489764897128_1_alg».proof.Proof.Spec
import Mathlib.Data.Fin.Embedding

noncomputable section

namespace Cert.Bridge

open Idealize.ShloMosaic
open Cert.LibGatherScatter (clampIdx wrapW)
open scoped BigOperators

def gath {NP EP D : Nat} (src : Fin EP → BitVec 32) (norm : Fin EP → EReal) (y : Fin NP → Fin D → EReal)
    (e : Fin EP) (d : Fin D) : EReal :=
  ∑ n : Fin NP, (if BitVec.ofNat 32 n.val = src e then norm e else 0) * y n d

def scat {NP EP D : Nat} (dst : Fin EP → BitVec 32) (m : Fin EP → Fin D → EReal) (b : Fin D → EReal)
    (n : Fin NP) (d : Fin D) : EReal :=
  max ((∑ e : Fin EP, (if BitVec.ofNat 32 n.val = dst e then (1 : EReal) else 0) * m e d) + b d) 0

def klayer {NP EP K D : Nat} (src dst : Fin EP → BitVec 32) (norm : Fin EP → EReal)
    (x : Fin NP → Fin K → EReal) (W : Fin K → Fin D → EReal) (b : Fin D → EReal) : Fin NP → Fin D → EReal :=
  scat dst (gath src norm (Cert.Spec.proj x W)) b

theorem ofNat_eq_iff_toInt_eq {m : Nat} (hm : m < 2 ^ 31) (v : BitVec 32) :
    BitVec.ofNat 32 m = v ↔ v.toInt = (m : ℤ) := by
  constructor
  · rintro rfl
    rw [BitVec.toInt_eq_toNat_cond, BitVec.toNat_ofNat, Nat.mod_eq_of_lt (by omega)]
    split <;> omega
  · intro h
    apply BitVec.eq_of_toNat_eq
    rw [BitVec.toNat_ofNat, Nat.mod_eq_of_lt (by omega)]
    rw [BitVec.toInt_eq_toNat_cond] at h
    have hv := v.isLt
    split at h <;> omega

theorem ofNat_inj_of_lt {a b : Nat} (ha : a < 2 ^ 31) (hb : b < 2 ^ 31) (h : BitVec.ofNat 32 a = BitVec.ofNat 32 b) :
    a = b := by
  have h' := congrArg BitVec.toNat h
  rw [BitVec.toNat_ofNat, BitVec.toNat_ofNat, Nat.mod_eq_of_lt (by omega), Nat.mod_eq_of_lt (by omega)] at h'
  exact h'

theorem gath_of_word {NP EP D : Nat} (hNP31 : NP < 2 ^ 31) (src : Fin EP → BitVec 32) (norm : Fin EP → EReal)
    (y : Fin NP → Fin D → EReal) (e : Fin EP) (d : Fin D) (s : Fin NP) (hs : src e = BitVec.ofNat 32 s.val) :
    gath src norm y e d = norm e * y s d := by
  unfold gath
  rw [Finset.sum_eq_single s]
  · rw [if_pos hs.symm]
  · intro n _ hne
    have hw : ¬ BitVec.ofNat 32 n.val = src e := fun h =>
      hne (Fin.ext (ofNat_inj_of_lt (by have := n.isLt; omega) (by have := s.isLt; omega) (h.trans hs)))
    rw [if_neg hw, zero_mul]
  · intro h
    exact absurd (Finset.mem_univ s) h

theorem gath_of_norm_zero {NP EP D : Nat} (src : Fin EP → BitVec 32) (norm : Fin EP → EReal)
    (y : Fin NP → Fin D → EReal) (e : Fin EP) (d : Fin D) (h : norm e = 0) : gath src norm y e d = 0 := by
  unfold gath
  refine Finset.sum_eq_zero fun n _ => ?_
  rw [h, ite_self, zero_mul]

theorem proj_pad {N NP K D : Nat} (x : Fin N → Fin K → EReal) (xp : Fin NP → Fin K → EReal)
    (hx : ∀ (r : Fin NP) (h : r.val < N) (k : Fin K), xp r k = x ⟨r.val, h⟩ k)
    (W : Fin K → Fin D → EReal) (c : Fin N) (hc : c.val < NP) (d : Fin D) :
    Cert.Spec.proj xp W ⟨c.val, hc⟩ d = Cert.Spec.proj x W c d := by
  unfold Cert.Spec.proj
  exact Finset.sum_congr rfl fun k _ => by rw [hx ⟨c.val, hc⟩ c.isLt k]

theorem word_of_clamp {N : Nat} (hN : 0 < N) (hN31 : N < 2 ^ 31) (nW v : BitVec 32) (h0 : 0 ≤ v.toInt) (h1 : v.toInt < N) :
    v = BitVec.ofNat 32 (clampIdx N hN (wrapW nW v)).val := by
  rw [Cert.LibGatherScatter.wrapW_of_nonneg h0, Cert.LibGatherScatter.clampIdx_of_inRange hN h0 h1]
  exact ((ofNat_eq_iff_toInt_eq (by omega) v).mpr (by omega)).symm

theorem sum_pad {E EP : Nat} (hE : E ≤ EP) (f : Fin EP → EReal) (h0 : ∀ e : Fin EP, E ≤ e.val → f e = 0) :
    ∑ e : Fin EP, f e = ∑ e : Fin E, f (Fin.castLE hE e) := by
  have hm : ∑ e : Fin E, f (Fin.castLE hE e) = ∑ e ∈ (Finset.univ : Finset (Fin E)).map (Fin.castLEEmb hE), f e :=
    (Finset.sum_map Finset.univ (Fin.castLEEmb hE) f).symm
  rw [hm]
  symm
  refine Finset.sum_subset (Finset.subset_univ _) fun e _ hnot => h0 e ?_
  by_contra hlt
  exact hnot (Finset.mem_map.mpr ⟨⟨e.val, Nat.lt_of_not_le hlt⟩, Finset.mem_univ _, Fin.ext rfl⟩)

theorem klayer_eq_layer {N NP E EP K D : Nat} (hN : 0 < N) (hNP : N ≤ NP) (hE : E ≤ EP) (hNP31 : NP < 2 ^ 31)
    (src dst : Fin E → BitVec 32) (norm : Fin E → EReal)
    (srcp dstp : Fin EP → BitVec 32) (normp : Fin EP → EReal)
    (hsrc : ∀ (e : Fin EP) (h : e.val < E), srcp e = src ⟨e.val, h⟩)
    (hdst : ∀ (e : Fin EP) (h : e.val < E), dstp e = dst ⟨e.val, h⟩)
    (hnorm : ∀ (e : Fin EP) (h : e.val < E), normp e = norm ⟨e.val, h⟩)
    (hsrc0 : ∀ e : Fin EP, E ≤ e.val → srcp e = 0#32) (hdst0 : ∀ e : Fin EP, E ≤ e.val → dstp e = 0#32)
    (hnorm0 : ∀ e : Fin EP, E ≤ e.val → normp e = 0)
    (hrange : ∀ e : Fin E, 0 ≤ (src e).toInt ∧ (src e).toInt < N)
    (x : Fin N → Fin K → EReal) (xp : Fin NP → Fin K → EReal)
    (hx : ∀ (r : Fin NP) (h : r.val < N) (k : Fin K), xp r k = x ⟨r.val, h⟩ k)
    (W : Fin K → Fin D → EReal) (b : Fin D → EReal) (n : Fin N) (d : Fin D) :
    klayer srcp dstp normp xp W b ⟨n.val, Nat.lt_of_lt_of_le n.isLt hNP⟩ d
      = Cert.Spec.layer hN (BitVec.ofNat 32 N) src dst norm x W b n d := by
  have hN31 : N < 2 ^ 31 := Nat.lt_of_le_of_lt hNP hNP31
  have hn31 : n.val < 2 ^ 31 := Nat.lt_trans n.isLt hN31
  unfold klayer scat Cert.Spec.layer
  rw [zero_add]
  refine congrArg (fun t => max (t + b d) 0) ?_

  have hpad : ∀ e : Fin EP, E ≤ e.val →
      (if BitVec.ofNat 32 n.val = dstp e then (1 : EReal) else 0)
        * gath srcp normp (Cert.Spec.proj xp W) e d = 0 := fun e he => by
    rw [gath_of_norm_zero srcp normp _ e d (hnorm0 e he), mul_zero]

  have hreal : ∀ e : Fin E,
      (if BitVec.ofNat 32 n.val = dstp (Fin.castLE hE e) then (1 : EReal) else 0)
        * gath srcp normp (Cert.Spec.proj xp W) (Fin.castLE hE e) d
      = if (dst e).toInt = (n.val : ℤ) then Cert.Spec.msg hN (BitVec.ofNat 32 N) src norm x W e d else 0 := fun e => by
    have hs : srcp (Fin.castLE hE e) = src e := hsrc _ e.isLt
    have hd : dstp (Fin.castLE hE e) = dst e := hdst _ e.isLt
    have hw : normp (Fin.castLE hE e) = norm e := hnorm _ e.isLt
    obtain ⟨h0, h1⟩ := hrange e
    have hc : (clampIdx N hN (wrapW (BitVec.ofNat 32 N) (src e))).val < NP :=
      Nat.lt_of_lt_of_le (clampIdx N hN (wrapW (BitVec.ofNat 32 N) (src e))).isLt hNP
    have hg : gath srcp normp (Cert.Spec.proj xp W) (Fin.castLE hE e) d
        = Cert.Spec.msg hN (BitVec.ofNat 32 N) src norm x W e d := by
      rw [gath_of_word hNP31 srcp normp _ _ d ⟨_, hc⟩ (hs.trans (word_of_clamp hN hN31 _ (src e) h0 h1)),
        proj_pad x xp hx W _ hc d, hw, mul_comm]
      rfl
    rw [hg, hd]
    by_cases hq : (dst e).toInt = (n.val : ℤ)
    · rw [if_pos ((ofNat_eq_iff_toInt_eq hn31 (dst e)).mpr hq), if_pos hq, one_mul]
    · rw [if_neg (fun h => hq ((ofNat_eq_iff_toInt_eq hn31 (dst e)).mp h)), if_neg hq, zero_mul]
  rw [sum_pad hE _ hpad, Finset.sum_filter]
  exact Finset.sum_congr rfl fun e _ => hreal e

/-- Summing block `k` onto the sum over the blocks before it gives the sum over the blocks up to `k`. -/
theorem sum_block_step (f : Fin 100352 → EReal) (k : Nat) (hk : k < 49) :
    (∑ m : Fin 100352, if m.val < k * 2048 then f m else 0)
        + ∑ r : Fin 2048, f ⟨k * 2048 + r.val, by have := r.isLt; omega⟩
      = ∑ m : Fin 100352, if m.val < (k + 1) * 2048 then f m else 0 := by
  have hblk : ∑ r : Fin 2048, f ⟨k * 2048 + r.val, by have := r.isLt; omega⟩
      = ∑ m : Fin 100352, if k * 2048 ≤ m.val ∧ m.val < (k + 1) * 2048 then f m else 0 := by
    rw [← Finset.sum_filter]
    refine Finset.sum_nbij' (fun r => ⟨k * 2048 + r.val, by have := r.isLt; omega⟩)
      (fun m => ⟨(m.val - k * 2048) % 2048, Nat.mod_lt _ (by decide)⟩) ?_ ?_ ?_ ?_ ?_
    · intro r _
      have := r.isLt
      exact Finset.mem_filter.mpr ⟨Finset.mem_univ _, by dsimp only; omega⟩
    · intro m _
      exact Finset.mem_univ _
    · intro r _
      have := r.isLt
      apply Fin.ext
      dsimp only
      omega
    · intro m hm
      have h := (Finset.mem_filter.mp hm).2
      apply Fin.ext
      dsimp only
      omega
    · intro r _
      rfl
  rw [hblk, ← Finset.sum_add_distrib]
  refine Finset.sum_congr rfl fun m _ => ?_
  by_cases h1 : m.val < k * 2048
  · have h2 : ¬(k * 2048 ≤ m.val ∧ m.val < (k + 1) * 2048) := by omega
    have h3 : m.val < (k + 1) * 2048 := by omega
    rw [if_pos h1, if_neg h2, if_pos h3, add_zero]
  · by_cases h3 : m.val < (k + 1) * 2048
    · have h2 : k * 2048 ≤ m.val ∧ m.val < (k + 1) * 2048 := ⟨by omega, h3⟩
      rw [if_neg h1, if_pos h2, if_pos h3, zero_add]
    · have h2 : ¬(k * 2048 ≤ m.val ∧ m.val < (k + 1) * 2048) := by omega
      rw [if_neg h1, if_neg h2, if_neg h3, add_zero]

theorem node_lt (k : Nat) (hk : k < 49) (r : Fin 2048) : k * 2048 + r.val < 100352 := by
  have := r.isLt
  omega

end Cert.Bridge

end
-- ==== Proof.IdealRegions.Gather1Pieces.lean ====
/- What a run of the gather body stores is the body's arithmetic applied to its blocks. -/
import proofs.«127098_j12489764897128_1_alg».proof.Proof.IdealRegions.Gather1
import Idealize.ShloMosaic.Lib.Pipeline.Value
import Idealize.ShloMosaic.Lib.Tactic

set_option maxRecDepth 16384

noncomputable section

namespace Cert.KernelIdeal.Gather1

open Cert.KernelIdeal Cert.KernelIdeal.Gen
open Idealize.ShloMosaic Idealize.ShloMosaic.TcCoe Idealize.ShloMosaic.Tactic
open Idealize.SL Idealize.SL.Sem

variable {F : FTy → Type} [FloatOps F]

theorem zero_offsets : (![0, 0] : Fin 2 → Nat) = fun _ => 0 := funext fun a => by fin_cases a <;> rfl

theorem readCov_cons_unit_zero {Val : EltTy → Type} {S : Shape} {e : EltTy} [∀ e, Nonempty (Val e)] {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

variable (c : Dev nD) (i : grid1.Coords) (arg2 : Memref sig .tc .vmem S2048x128 .f32) (harg2 : arg2.IsWhole)
  (arg3 : Memref sig .tc .vmem S1x2048 .i32) (harg3 : arg3.IsWhole) (arg4 : Memref sig .tc .vmem S1x2048 .f32) (harg4 : arg4.IsWhole)
  (arg5 : Memref sig .tc .vmem S2048x128 .f32) (harg5 : arg5.IsWhole) (arg6 : Memref sig .tc .vmem S2048x128 .f32) (harg6 : arg6.IsWhole)
  (x0 : Vec F S2048x128 .f32) (x1 : Vec F S1x2048 .i32) (x2 : Vec F S1x2048 .f32)

theorem accFirst_eq (hc : isFirst i) :
    VS.read (Elt F) (VS.writes (Elt F) VS.junk (runFirst c i arg2 harg2 arg3 harg3 arg4 harg4 arg5 harg5 arg6 harg6 x0 x1 x2 hc).2.1) = k1_pay2 i x1 x2 x0 (k1_pay1 (F := F)) := by
  rw [View.read_writes_eq_canon _ _ _ (fun y => (coverFirst c i arg2 harg2 arg3 harg3 arg4 harg4 arg5 harg5 arg6 harg6 x0 x1 x2 hc y).2)]
  unfold runFirst
  dsimp only
  sl_unfold_words
  rw [View.canon_cons_unit_zero (S := S2048x128) zero_offsets, View.readCov_unit_zero (S := S2048x128) _ zero_offsets]
  simp only [View.readAt_eq_ld, harg2.read_unread, harg3.read_unread, harg4.read_unread,
    View.ld_unit_zero (S := S2048x128) zero_offsets, View.ld_unit_zero (S := S1x2048) zero_offsets]

theorem outFirst_eq (hc : isFirst i) :
    VO.read (Elt F) (VO.writes (Elt F) VO.junk (runFirst c i arg2 harg2 arg3 harg3 arg4 harg4 arg5 harg5 arg6 harg6 x0 x1 x2 hc).1) = k1_pay2 i x1 x2 x0 (k1_pay1 (F := F)) := by
  rw [View.read_writes_eq_canon _ _ _ (fun y => (coverFirst c i arg2 harg2 arg3 harg3 arg4 harg4 arg5 harg5 arg6 harg6 x0 x1 x2 hc y).1)]
  unfold runFirst
  dsimp only
  sl_unfold_words
  rw [View.canon_unit_zero (S := S2048x128) zero_offsets, readCov_cons_unit_zero (S := S2048x128) _ zero_offsets,
    View.readCov_unit_zero (S := S2048x128) _ zero_offsets]
  simp only [View.readAt_eq_ld, harg2.read_unread, harg3.read_unread, harg4.read_unread,
    View.ld_unit_zero (S := S2048x128) zero_offsets, View.ld_unit_zero (S := S1x2048) zero_offsets]

theorem accNext_eq (hc : ¬isFirst i) (xs : Vec F S2048x128 .f32) :
    VS.read (Elt F) (VS.writes (Elt F) VS.junk (runNext c i arg2 harg2 arg3 harg3 arg4 harg4 arg5 harg5 arg6 harg6 x0 x1 x2 hc xs).2.1) = k1_pay2 i x1 x2 x0 xs := by
  rw [View.read_writes_eq_canon _ _ _ (fun y => (coverNext c i arg2 harg2 arg3 harg3 arg4 harg4 arg5 harg5 arg6 harg6 x0 x1 x2 hc xs y).2)]
  unfold runNext
  dsimp only
  sl_unfold_words
  rw [View.canon_unit_zero (S := S2048x128) zero_offsets]
  simp only [View.readAt_eq_ld, harg2.read_unread, harg3.read_unread, harg4.read_unread, harg6.read_unread,
    View.ld_unit_zero (S := S2048x128) zero_offsets, View.ld_unit_zero (S := S1x2048) zero_offsets]

theorem outNext_eq (hc : ¬isFirst i) (xs : Vec F S2048x128 .f32) :
    VO.read (Elt F) (VO.writes (Elt F) VO.junk (runNext c i arg2 harg2 arg3 harg3 arg4 harg4 arg5 harg5 arg6 harg6 x0 x1 x2 hc xs).1) = k1_pay2 i x1 x2 x0 xs := by
  rw [View.read_writes_eq_canon _ _ _ (fun y => (coverNext c i arg2 harg2 arg3 harg3 arg4 harg4 arg5 harg5 arg6 harg6 x0 x1 x2 hc xs y).1)]
  unfold runNext
  dsimp only
  sl_unfold_words
  rw [View.canon_unit_zero (S := S2048x128) zero_offsets, View.readCov_unit_zero (S := S2048x128) _ zero_offsets]
  simp only [View.readAt_eq_ld, harg2.read_unread, harg3.read_unread, harg4.read_unread, harg6.read_unread,
    View.ld_unit_zero (S := S2048x128) zero_offsets, View.ld_unit_zero (S := S1x2048) zero_offsets]

end Cert.KernelIdeal.Gather1

end
-- ==== Proof.IdealRegions.OneHot.lean ====
/- The one-hot matrix of a gather block, entry by entry: the edge weight where node and source word agree, else zero. -/
import proofs.«127098_j12489764897128_1_alg».proof.Proof.Gen.KernelIdeal.Skeleton
import Idealize.ShloMosaic.Lib.Pipeline.Value
import Idealize.ShloMosaic.Lib.ValueIdx
import Idealize.ShloMosaic.PureOps.Ideal.Laws
import Idealize.ShloMosaic.Lib.IdealHost
import Idealize.ShloMosaic.Lib.Affine

set_option maxRecDepth 16384

noncomputable section

namespace Cert.KernelIdeal.OneHot

open Cert.KernelIdeal Cert.KernelIdeal.Gen
open Idealize.ShloMosaic Idealize.ShloMosaic.TcCoe Idealize.ShloMosaic.ValueIdx

theorem nodeWord (b r : Nat) :
    IntOp.addi (Scalar.muli (BitVec.ofNat 32 b) 2048#32) (BitVec.ofNat 32 r) = BitVec.ofNat 32 (b * 2048 + r) := by
  show BitVec.ofNat 32 b * BitVec.ofNat 32 2048 + BitVec.ofNat 32 r = _
  rw [← BitVec.ofNat_mul, ← BitVec.ofNat_add]

theorem onehot_entry (b : Nat) (src : IVec S1x2048 32) (nrm : FVec Ideal S1x2048 .f32)
    (hi : S2048x1.Iotas .tc 32 [0]) (hb1 : S2048x1.Broadcasts S2048x2048) (hb2 : S1x2048.Broadcasts S2048x2048)
    (ht : FTy.bf16.bits < FTy.f32.bits) (r j : Fin 2048) :
    select (cmpi .eq
        (broadcastTo S2048x2048 (addi (broadcast S2048x1 (Scalar.muli (BitVec.ofNat 32 b) 2048#32)) (iota .tc S2048x1 32 [0] hi)) hb1)
        (broadcastTo S2048x2048 src hb2))
      (broadcastTo S2048x2048 (truncf (F := Ideal) .bf16 nrm ht) hb2)
      (broadcast S2048x2048 (Scalar.ofBits (F := Ideal) .bf16 0x0000#16)) (ix2 r j)
      = if BitVec.ofNat 32 (b * 2048 + r.val) = src (ix2 0 j) then nrm (ix2 0 j) else 0 := by
  have e1 : broadcastTo S2048x2048 (addi (broadcast S2048x1 (Scalar.muli (BitVec.ofNat 32 b) 2048#32)) (iota .tc S2048x1 32 [0] hi)) hb1 (ix2 r j)
      = BitVec.ofNat 32 (b * 2048 + r.val) := by
    refine (broadcastTo_apply _ hb1 (ix2 r j) (ix2 r 0) (fun a => by
      match a with
      | ⟨0, _⟩ => show r.val = if (2048 : Nat) = 1 then 0 else r.val; rw [if_neg (by decide)]
      | ⟨1, _⟩ => show 0 = if (1 : Nat) = 1 then 0 else j.val; rw [if_pos rfl])).trans ?_
    show IntOp.addi (Scalar.muli (BitVec.ofNat 32 b) 2048#32) (iota .tc S2048x1 32 [0] hi (ix2 r 0)) = _
    rw [iota_single_apply]
    exact nodeWord b r.val
  have e2 : broadcastTo S2048x2048 src hb2 (ix2 r j) = src (ix2 0 j) :=
    broadcastTo_apply _ hb2 (ix2 r j) (ix2 0 j) (fun a => by
      match a with
      | ⟨0, _⟩ => show 0 = if (1 : Nat) = 1 then 0 else r.val; rw [if_pos rfl]
      | ⟨1, _⟩ => show j.val = if (2048 : Nat) = 1 then 0 else j.val; rw [if_neg (by decide)])
  have e3 : broadcastTo S2048x2048 (truncf (F := Ideal) .bf16 nrm ht) hb2 (ix2 r j) = nrm (ix2 0 j) :=
    broadcastTo_apply _ hb2 (ix2 r j) (ix2 0 j) (fun a => by
      match a with
      | ⟨0, _⟩ => show 0 = if (1 : Nat) = 1 then 0 else r.val; rw [if_pos rfl]
      | ⟨1, _⟩ => show j.val = if (2048 : Nat) = 1 then 0 else j.val; rw [if_neg (by decide)])
  show Scalar.select (IntOp.cmpi .eq (broadcastTo S2048x2048 _ hb1 (ix2 r j)) (broadcastTo S2048x2048 src hb2 (ix2 r j)))
      (broadcastTo S2048x2048 (truncf (F := Ideal) .bf16 nrm ht) hb2 (ix2 r j)) (Ideal.ofBits .bf16 0x0000#16) = _
  rw [e1, e2, e3, Ideal.ofBits_zero_bf16]
  by_cases h : BitVec.ofNat 32 (b * 2048 + r.val) = src (ix2 0 j)
  · rw [IntOp.cmpi_eq.mpr h, select_one, if_pos h]
  · rw [eq_zero_of_ne_one (fun e => h (IntOp.cmpi_eq.mp e)), select_zero, if_neg h]

/-- A compare-and-select of one against zero is an indicator. -/
theorem one_hot (a b : BitVec 32) :
    Scalar.select (IntOp.cmpi .eq a b) (Ideal.ofBits .bf16 0x3F80#16) (Ideal.ofBits .bf16 0x0000#16)
      = if a = b then (1 : EReal) else 0 := by
  rw [Ideal.ofBits_one_bf16, Ideal.ofBits_zero_bf16]
  by_cases h : a = b
  · rw [IntOp.cmpi_eq.mpr h, select_one, if_pos h]
  · rw [eq_zero_of_ne_one (fun e => h (IntOp.cmpi_eq.mp e)), select_zero, if_neg h]

end Cert.KernelIdeal.OneHot

end
-- ==== Proof.IdealRegions.Gather1Pay.lean ====
/- The gather body's arithmetic at an entry: a sum over the block's nodes of an indicator times a feature. -/
import proofs.«127098_j12489764897128_1_alg».proof.Proof.IdealRegions.OneHot
import Idealize.ShloMosaic.Lib.Pipeline.Value
import Idealize.ShloMosaic.Lib.ValueIdx
import Idealize.ShloMosaic.PureOps.Ideal.Laws

set_option maxRecDepth 16384

noncomputable section

namespace Cert.KernelIdeal.Gather1

open Cert.KernelIdeal Cert.KernelIdeal.Gen
open Idealize.ShloMosaic Idealize.ShloMosaic.TcCoe Idealize.ShloMosaic.ValueIdx
open Idealize.SL Idealize.SL.Sem
open scoped BigOperators
open Cert.KernelIdeal.OneHot

theorem lhs_row (i : S2048x128.Idx) (q : dot_S2048x2048_S2048x128_S2048x128_0_0_1_1_n_n.contr.Idx) :
    (dot_S2048x2048_S2048x128_S2048x128_0_0_1_1_n_n.lhsIdx i q 0).val = (q ⟨0, by decide⟩).val :=
  dot_S2048x2048_S2048x128_S2048x128_0_0_1_1_n_n.lhsIdx_val_of_single rfl i q

theorem lhs_col (i : S2048x128.Idx) (q : dot_S2048x2048_S2048x128_S2048x128_0_0_1_1_n_n.contr.Idx) :
    (dot_S2048x2048_S2048x128_S2048x128_0_0_1_1_n_n.lhsIdx i q 1).val = (i 0).val := by
  unfold DotDims.lhsIdx
  rw [dif_neg (show ¬(1 : Fin S2048x2048.rank) ∈ dot_S2048x2048_S2048x128_S2048x128_0_0_1_1_n_n.lhsBatch by decide), dif_pos (show (1 : Fin S2048x2048.rank) ∈ dot_S2048x2048_S2048x128_S2048x128_0_0_1_1_n_n.lhsNonContracting by decide)]
  rfl

theorem rhs_row (i : S2048x128.Idx) (q : dot_S2048x2048_S2048x128_S2048x128_0_0_1_1_n_n.contr.Idx) :
    (dot_S2048x2048_S2048x128_S2048x128_0_0_1_1_n_n.rhsIdx i q 0).val = (q ⟨0, by decide⟩).val :=
  dot_S2048x2048_S2048x128_S2048x128_0_0_1_1_n_n.rhsIdx_val_of_single rfl i q

theorem rhs_col (i : S2048x128.Idx) (q : dot_S2048x2048_S2048x128_S2048x128_0_0_1_1_n_n.contr.Idx) :
    (dot_S2048x2048_S2048x128_S2048x128_0_0_1_1_n_n.rhsIdx i q 1).val = (i 1).val := by
  unfold DotDims.rhsIdx
  rw [dif_neg (show ¬(1 : Fin S2048x128.rank) ∈ dot_S2048x2048_S2048x128_S2048x128_0_0_1_1_n_n.rhsBatch by decide), dif_pos (show (1 : Fin S2048x128.rank) ∈ dot_S2048x2048_S2048x128_S2048x128_0_0_1_1_n_n.rhsNonContracting by decide)]
  rfl

theorem pay1_apply (j : Fin 2048) (d : Fin 128) : k1_pay1 (F := Ideal) (ix2 j d) = 0 := by
  unfold k1_pay1
  simp only [shapeCast_self]
  exact Ideal.ofBits_zero_f32

theorem pay2_apply (src : Vec Ideal S1x2048 .i32) (nrm : Vec Ideal S1x2048 .f32) (feat acc : Vec Ideal S2048x128 .f32)
    (i : grid1.Coords) (j : Fin 2048) (d : Fin 128) :
    k1_pay2 i src nrm feat acc (ix2 j d)
      = acc (ix2 j d) + ∑ r : Fin 2048,
          (if BitVec.ofNat 32 ((i 1).val * 2048 + r.val) = src (ix2 0 j) then nrm (ix2 0 j) else 0) * feat (ix2 r d) := by
  unfold k1_pay2
  simp only [shapeCast_self, matmul]
  refine (ValueIdx.addf_apply _ _ _).trans ?_
  rw [Ideal.matmul_constant_zero_apply, ← Equiv.sum_comp (ValueIdx.contrEquiv1 dot_S2048x2048_S2048x128_S2048x128_0_0_1_1_n_n 2048 rfl rfl).symm]
  refine congrArg (acc (ix2 j d) + ·) (Finset.sum_congr rfl fun r _ => ?_)
  have hk := ValueIdx.contrEquiv1_symm_val dot_S2048x2048_S2048x128_S2048x128_0_0_1_1_n_n 2048 rfl rfl r
  have el : dot_S2048x2048_S2048x128_S2048x128_0_0_1_1_n_n.lhsIdx (ix2 j d) ((ValueIdx.contrEquiv1 dot_S2048x2048_S2048x128_S2048x128_0_0_1_1_n_n 2048 rfl rfl).symm r) = ix2 r j := funext fun a => Fin.ext (by
    match a with
    | ⟨0, _⟩ => exact (lhs_row _ _).trans hk
    | ⟨1, _⟩ => exact lhs_col _ _)
  have er : dot_S2048x2048_S2048x128_S2048x128_0_0_1_1_n_n.rhsIdx (ix2 j d) ((ValueIdx.contrEquiv1 dot_S2048x2048_S2048x128_S2048x128_0_0_1_1_n_n 2048 rfl rfl).symm r) = ix2 r d := funext fun a => Fin.ext (by
    match a with
    | ⟨0, _⟩ => exact (rhs_row _ _).trans hk
    | ⟨1, _⟩ => exact rhs_col _ _)
  rw [el, er]
  exact congrArg (· * feat (ix2 r d)) (onehot_entry (i 1).val src nrm _ _ _ _ r j)

end Cert.KernelIdeal.Gather1

end
-- ==== Proof.IdealRegions.Gather1Value.lean ====
/- The gather's output: partial sums over node blocks reach the whole one-hot sum, and the edge blocks tile the edges. -/
import proofs.«127098_j12489764897128_1_alg».proof.Proof.IdealRegions.Gather1
import proofs.«127098_j12489764897128_1_alg».proof.Proof.IdealRegions.Gather1Pieces
import proofs.«127098_j12489764897128_1_alg».proof.Proof.IdealRegions.Gather1Pay
import proofs.«127098_j12489764897128_1_alg».proof.Proof.IdealRegions.Sched
import proofs.«127098_j12489764897128_1_alg».proof.Proof.Bridge
import Idealize.ShloMosaic.Lib.Pipeline.Value
import Idealize.ShloMosaic.Lib.ValueIdx
import Idealize.ShloMosaic.PureOps.Ideal.Laws

set_option maxRecDepth 16384

noncomputable section

namespace Cert.KernelIdeal.Gather1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators
open Cert.Bridge (sum_block_step node_lt)

variable (V : (c : Dev nD) → (b : Ref sig .tc) → Buf (Elt Ideal) ((c : Thread nD τ).loc b))

abbrev yarr (c : Dev nD) : FVec Ideal S100352x128 .f32 := V c main_v37
abbrev srcarr (c : Dev nD) : IVec S1x1701888 32 := V c main_v33
abbrev normarr (c : Dev nD) : FVec Ideal S1x1701888 .f32 := V c main_v35
abbrev marr (c : Dev nD) : FVec Ideal S1701888x128 .f32 := (dat (F := Ideal) V c).arrAt 3 cfg1.N

theorem acc_step (srcb : Vec Ideal S1x2048 .i32) (nrmb : Vec Ideal S1x2048 .f32) (yb accb : Vec Ideal S2048x128 .f32)
    (i : grid1.Coords) (S : BitVec 32) (w : EReal) (y : Fin 100352 → EReal) (k : Nat) (hk : k < 49)
    (hik : (i 1).val = k) (j : Fin 2048) (d : Fin 128)
    (hS : srcb (ix2 0 j) = S) (hw : nrmb (ix2 0 j) = w)
    (hy : ∀ r : Fin 2048, yb (ix2 r d) = y ⟨k * 2048 + r.val, node_lt k hk r⟩)
    (hacc : accb (ix2 j d)
      = ∑ m : Fin 100352, if m.val < k * 2048 then (if BitVec.ofNat 32 m.val = S then w else 0) * y m else 0) :
    k1_pay2 i srcb nrmb yb accb (ix2 j d)
      = ∑ m : Fin 100352, if m.val < (k + 1) * 2048 then (if BitVec.ofNat 32 m.val = S then w else 0) * y m else 0 := by
  rw [pay2_apply, hacc, hik, hS, hw]
  simp only [hy]
  exact sum_block_step (fun m => (if BitVec.ofNat 32 m.val = S then w else 0) * y m) k hk

abbrev yblk (c : Dev nD) (t : Fin cfg1.N) : Vec Ideal S2048x128 .f32 := iblk V c 0 t
abbrev sblk (c : Dev nD) (t : Fin cfg1.N) : Vec Ideal S1x2048 .i32 := iblk V c 1 t
abbrev nblk (c : Dev nD) (t : Fin cfg1.N) : Vec Ideal S1x2048 .f32 := iblk V c 2 t

theorem index_y (t : Fin cfg1.N) : (cfg1.win 0).index t = ![t.val % 49, 0] := by
  have ht := Sched.point1_lt t
  show cc1_transform_0 (grid1.coords t) = ![t.val % 49, 0]
  unfold cc1_transform_0
  simp only [Sched.coords1_1 t, BitVec.toNat_ofNat]
  rw [Nat.mod_eq_of_lt (show t.val % 49 < 2 ^ 32 by omega)]

theorem index_s (t : Fin cfg1.N) : (cfg1.win 1).index t = ![0, t.val / 49] := by
  have ht := Sched.point1_lt t
  show cc1_transform_1 (grid1.coords t) = ![0, t.val / 49]
  unfold cc1_transform_1
  simp only [Sched.coords1_0 t, BitVec.toNat_ofNat]
  rw [Nat.mod_eq_of_lt (show t.val / 49 < 2 ^ 32 by omega)]

theorem index_n (t : Fin cfg1.N) : (cfg1.win 2).index t = ![0, t.val / 49] := by
  have ht := Sched.point1_lt t
  show cc1_transform_2 (grid1.coords t) = ![0, t.val / 49]
  unfold cc1_transform_2
  simp only [Sched.coords1_0 t, BitVec.toNat_ofNat]
  rw [Nat.mod_eq_of_lt (show t.val / 49 < 2 ^ 32 by omega)]

theorem nrow_lt (t : Fin cfg1.N) (r : Fin 2048) : t.val % 49 * 2048 + r.val < 100352 := by
  have hr := r.isLt
  omega

theorem edge_lt (n : Nat) (hn : n < cfg1.N) (j : Fin 2048) : n / 49 * 2048 + j.val < 1701888 := by
  have h : n < 40719 := Nat.lt_of_lt_of_eq hn N_1
  have hj := j.isLt
  omega

theorem emb_y (t : Fin cfg1.N) (r : Fin 2048) (d : Fin 128) :
    ((cfg1.win 0).blk t).view.emb (ix2 r d) = (ix2 ⟨t.val % 49 * 2048 + r.val, nrow_lt t r⟩ d : S100352x128.Idx) := by
  have e0 : win1_0.index t (0 : Fin 2) = t.val % 49 := congrFun (index_y t) 0
  have e1 : win1_0.index t (1 : Fin 2) = 0 := congrFun (index_y t) 1
  funext a; apply Fin.ext
  match a with
  | ⟨0, _⟩ => show win1_0.index t (0 : Fin 2) * 2048 + 1 * r.val = t.val % 49 * 2048 + r.val; rw [e0]; omega
  | ⟨1, _⟩ => show win1_0.index t (1 : Fin 2) * (128 : Nat) + 1 * d.val = d.val; rw [e1]; omega

theorem emb_s (t : Fin cfg1.N) (j : Fin 2048) :
    ((cfg1.win 1).blk t).view.emb (ix2 (0 : Fin 1) j)
      = (ix2 (0 : Fin 1) ⟨t.val / 49 * 2048 + j.val, edge_lt t.val t.isLt j⟩ : S1x1701888.Idx) := by
  have e0 : win1_1.index t (0 : Fin 2) = 0 := congrFun (index_s t) 0
  have e1 : win1_1.index t (1 : Fin 2) = t.val / 49 := congrFun (index_s t) 1
  funext a; apply Fin.ext
  match a with
  | ⟨0, _⟩ => show win1_1.index t (0 : Fin 2) * 1 + 1 * 0 = 0; rw [e0]
  | ⟨1, _⟩ => show win1_1.index t (1 : Fin 2) * 2048 + 1 * j.val = t.val / 49 * 2048 + j.val; rw [e1]; omega

theorem emb_n (t : Fin cfg1.N) (j : Fin 2048) :
    ((cfg1.win 2).blk t).view.emb (ix2 (0 : Fin 1) j)
      = (ix2 (0 : Fin 1) ⟨t.val / 49 * 2048 + j.val, edge_lt t.val t.isLt j⟩ : S1x1701888.Idx) := by
  have e0 : win1_2.index t (0 : Fin 2) = 0 := congrFun (index_n t) 0
  have e1 : win1_2.index t (1 : Fin 2) = t.val / 49 := congrFun (index_n t) 1
  funext a; apply Fin.ext
  match a with
  | ⟨0, _⟩ => show win1_2.index t (0 : Fin 2) * 1 + 1 * 0 = 0; rw [e0]
  | ⟨1, _⟩ => show win1_2.index t (1 : Fin 2) * 2048 + 1 * j.val = t.val / 49 * 2048 + j.val; rw [e1]; omega

theorem emb_m (t : Fin cfg1.N) (p : Fin 2048) (q : Fin 128) :
    ((cfg1.win 3).blk t).view.emb (ix2 p q)
      = (ix2 ⟨t.val / 49 * 2048 + p.val, edge_lt t.val t.isLt p⟩ q : S1701888x128.Idx) := by
  have e0 : win1_3.index t (0 : Fin 2) = t.val / 49 := congrFun (Sched.index1_3 t) 0
  have e1 : win1_3.index t (1 : Fin 2) = 0 := congrFun (Sched.index1_3 t) 1
  funext a; apply Fin.ext
  match a with
  | ⟨0, _⟩ => show win1_3.index t (0 : Fin 2) * 2048 + 1 * p.val = t.val / 49 * 2048 + p.val; rw [e0]; omega
  | ⟨1, _⟩ => show win1_3.index t (1 : Fin 2) * (128 : Nat) + 1 * q.val = q.val; rw [e1]; omega

theorem yblk_apply (c : Dev nD) (t : Fin cfg1.N) (r : Fin 2048) (d : Fin 128) :
    yblk V c t (ix2 r d) = yarr V c (ix2 ⟨t.val % 49 * 2048 + r.val, nrow_lt t r⟩ d) := by
  show V c main_v37 (((cfg1.win 0).blk t).view.emb (ix2 r d)) = V c main_v37 _
  rw [emb_y]

theorem sblk_apply (c : Dev nD) (t : Fin cfg1.N) (j : Fin 2048) :
    sblk V c t (ix2 (0 : Fin 1) j) = srcarr V c (ix2 (0 : Fin 1) ⟨t.val / 49 * 2048 + j.val, edge_lt t.val t.isLt j⟩) := by
  show V c main_v33 (((cfg1.win 1).blk t).view.emb (ix2 (0 : Fin 1) j)) = V c main_v33 _
  rw [emb_s]

theorem nblk_apply (c : Dev nD) (t : Fin cfg1.N) (j : Fin 2048) :
    nblk V c t (ix2 (0 : Fin 1) j) = normarr V c (ix2 (0 : Fin 1) ⟨t.val / 49 * 2048 + j.val, edge_lt t.val t.isLt j⟩) := by
  show V c main_v35 (((cfg1.win 2).blk t).view.emb (ix2 (0 : Fin 1) j)) = V c main_v35 _
  rw [emb_n]

def part (c : Dev nD) (e : Fin 1701888) (d : Fin 128) (K : Nat) : EReal :=
  ∑ m : Fin 100352, if m.val < K * 2048 then
    (if BitVec.ofNat 32 m.val = srcarr V c (ix2 (0 : Fin 1) e) then normarr V c (ix2 (0 : Fin 1) e) else 0)
      * yarr V c (ix2 m d) else 0

theorem part_full (c : Dev nD) (e : Fin 1701888) (d : Fin 128) :
    part V c e d 49 = Cert.Bridge.gath (NP := 100352) (fun e' : Fin 1701888 => srcarr V c (ix2 (0 : Fin 1) e'))
      (fun e' => normarr V c (ix2 (0 : Fin 1) e')) (fun n d' => yarr V c (ix2 n d')) e d := by
  unfold part Cert.Bridge.gath
  exact Finset.sum_congr rfl fun m _ => if_pos (by have := m.isLt; omega)

theorem coord_of_isFirst (i : grid1.Coords) (h : isFirst i) : (i 1).val = 0 := by
  have key : ∀ x : Fin 49,
      (Scalar.cmpi .ne (Scalar.extui (Scalar.cmpi .eq (BitVec.ofNat 32 x.val) 0#32)) 0#32) = 1#1 → x.val = 0 := by
    decide
  exact key (i 1) h

theorem point_first (c : Dev nD) (t : Fin cfg1.N) (hc : isFirst (grid1.coords t)) (j : Fin 2048) (d : Fin 128) :
    (outsAt V c t.val t.isLt).1 (ix2 j d)
        = part V c ⟨t.val / 49 * 2048 + j.val, edge_lt t.val t.isLt j⟩ d (t.val % 49 + 1)
      ∧ (outsAt V c t.val t.isLt).2 (ix2 j d)
        = part V c ⟨t.val / 49 * 2048 + j.val, edge_lt t.val t.isLt j⟩ d (t.val % 49 + 1) := by
  have hk : ((grid1.coords t) 1).val = t.val % 49 := Sched.coords1_1 t
  have h0 : t.val % 49 = 0 := hk.symm.trans (coord_of_isFirst _ hc)
  have key : k1_pay2 (grid1.coords t) (sblk V c t) (nblk V c t) (yblk V c t) (k1_pay1 (F := Ideal)) (ix2 j d)
      = part V c ⟨t.val / 49 * 2048 + j.val, edge_lt t.val t.isLt j⟩ d (t.val % 49 + 1) :=
    acc_step (sblk V c t) (nblk V c t) (yblk V c t) (k1_pay1 (F := Ideal)) (grid1.coords t)
      (srcarr V c (ix2 (0 : Fin 1) ⟨t.val / 49 * 2048 + j.val, edge_lt t.val t.isLt j⟩))
      (normarr V c (ix2 (0 : Fin 1) ⟨t.val / 49 * 2048 + j.val, edge_lt t.val t.isLt j⟩))
      (fun m => yarr V c (ix2 m d)) (t.val % 49) (Nat.mod_lt _ (by decide)) hk j d
      (sblk_apply V c t j) (nblk_apply V c t j) (fun r => yblk_apply V c t r d)
      ((pay1_apply j d).trans (Finset.sum_eq_zero fun m _ => if_neg (by omega)).symm)
  rw [outsAt_first V c t hc]
  unfold firstAt leaves
  dsimp only
  exact ⟨(congrFun (outFirst_eq (F := Ideal) c (grid1.coords t) (ms0 t) (hs0 t) (ms1 t) (hs1 t) (ms2 t) (hs2 t) (ms3 t) (hs3 t) scM (Memref.isWhole_whole _) (iblk V c 0 t) (iblk V c 1 t) (iblk V c 2 t) hc) (ix2 j d)).trans key,
    (congrFun (accFirst_eq (F := Ideal) c (grid1.coords t) (ms0 t) (hs0 t) (ms1 t) (hs1 t) (ms2 t) (hs2 t) (ms3 t) (hs3 t) scM (Memref.isWhole_whole _) (iblk V c 0 t) (iblk V c 1 t) (iblk V c 2 t) hc) (ix2 j d)).trans key⟩

theorem point_next (c : Dev nD) (n : Nat) (hn : n + 1 < cfg1.N) (hc : ¬isFirst (grid1.coords ⟨n + 1, hn⟩))
    (j : Fin 2048) (d : Fin 128)
    (hprev : (outsAt V c n (Nat.lt_of_succ_lt hn)).2 (ix2 j d)
      = part V c ⟨n / 49 * 2048 + j.val, edge_lt n (Nat.lt_of_succ_lt hn) j⟩ d (n % 49 + 1)) :
    (outsAt V c (n + 1) hn).1 (ix2 j d)
        = part V c ⟨(n + 1) / 49 * 2048 + j.val, edge_lt (n + 1) hn j⟩ d ((n + 1) % 49 + 1)
      ∧ (outsAt V c (n + 1) hn).2 (ix2 j d)
        = part V c ⟨(n + 1) / 49 * 2048 + j.val, edge_lt (n + 1) hn j⟩ d ((n + 1) % 49 + 1) := by
  have hk : ((grid1.coords ⟨n + 1, hn⟩) 1).val = (n + 1) % 49 := Sched.coords1_1 ⟨n + 1, hn⟩
  have hne : (n + 1) % 49 ≠ 0 := fun h => hc (isFirst_of_coord _ (hk.trans h))
  have he : (⟨n / 49 * 2048 + j.val, edge_lt n (Nat.lt_of_succ_lt hn) j⟩ : Fin 1701888)
      = ⟨(n + 1) / 49 * 2048 + j.val, edge_lt (n + 1) hn j⟩ := Fin.ext (by dsimp only; omega)
  have hK : n % 49 + 1 = (n + 1) % 49 := by omega
  rw [he, hK] at hprev
  have key : k1_pay2 (grid1.coords ⟨n + 1, hn⟩) (sblk V c ⟨n + 1, hn⟩) (nblk V c ⟨n + 1, hn⟩) (yblk V c ⟨n + 1, hn⟩)
        (outsAt V c n (Nat.lt_of_succ_lt hn)).2 (ix2 j d)
      = part V c ⟨(n + 1) / 49 * 2048 + j.val, edge_lt (n + 1) hn j⟩ d ((n + 1) % 49 + 1) :=
    acc_step (sblk V c ⟨n + 1, hn⟩) (nblk V c ⟨n + 1, hn⟩) (yblk V c ⟨n + 1, hn⟩) (outsAt V c n (Nat.lt_of_succ_lt hn)).2
      (grid1.coords ⟨n + 1, hn⟩)
      (srcarr V c (ix2 (0 : Fin 1) ⟨(n + 1) / 49 * 2048 + j.val, edge_lt (n + 1) hn j⟩))
      (normarr V c (ix2 (0 : Fin 1) ⟨(n + 1) / 49 * 2048 + j.val, edge_lt (n + 1) hn j⟩))
      (fun m => yarr V c (ix2 m d)) ((n + 1) % 49) (Nat.mod_lt _ (by decide)) hk j d
      (sblk_apply V c ⟨n + 1, hn⟩ j) (nblk_apply V c ⟨n + 1, hn⟩ j) (fun r => yblk_apply V c ⟨n + 1, hn⟩ r d) hprev
  rw [show outsAt V c (n + 1) hn = nextAt V c ⟨n + 1, hn⟩ hc (outsAt V c n (Nat.lt_of_succ_lt hn)).2 from dif_neg hc]
  unfold nextAt leaves
  dsimp only
  exact ⟨(congrFun (outNext_eq (F := Ideal) c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (iblk V c 2 ⟨n + 1, hn⟩) hc (outsAt V c n (Nat.lt_of_succ_lt hn)).2) (ix2 j d)).trans key,
    (congrFun (accNext_eq (F := Ideal) c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (iblk V c 2 ⟨n + 1, hn⟩) hc (outsAt V c n (Nat.lt_of_succ_lt hn)).2) (ix2 j d)).trans key⟩

theorem outsAt_apply (c : Dev nD) : ∀ (n : Nat) (hn : n < cfg1.N) (j : Fin 2048) (d : Fin 128),
    (outsAt V c n hn).1 (ix2 j d) = part V c ⟨n / 49 * 2048 + j.val, edge_lt n hn j⟩ d (n % 49 + 1)
      ∧ (outsAt V c n hn).2 (ix2 j d) = part V c ⟨n / 49 * 2048 + j.val, edge_lt n hn j⟩ d (n % 49 + 1) := by
  intro n
  induction n with
  | zero =>
    intro hn j d
    exact point_first V c ⟨0, hn⟩ (isFirst_of_zero ⟨0, hn⟩ rfl) j d
  | succ n ih =>
    intro hn j d
    by_cases hc : isFirst (grid1.coords ⟨n + 1, hn⟩)
    · exact point_first V c ⟨n + 1, hn⟩ hc j d
    · exact point_next V c n hn hc j d (ih (Nat.lt_of_succ_lt hn) j d).2

def gathArr (c : Dev nD) : FVec Ideal S1701888x128 .f32 := fun i =>
  Cert.Bridge.gath (NP := 100352) (fun e' : Fin 1701888 => srcarr V c (ix2 (0 : Fin 1) e'))
    (fun e' => normarr V c (ix2 (0 : Fin 1) e')) (fun n d' => yarr V c (ix2 n d'))
    ⟨(i 0).val, idx2_lt0 i⟩ ⟨(i 1).val, idx2_lt1 i⟩

theorem gathArr_apply (c : Dev nD) (e : Fin 1701888) (d : Fin 128) :
    gathArr V c (ix2 e d) = Cert.Bridge.gath (NP := 100352) (fun e' : Fin 1701888 => srcarr V c (ix2 (0 : Fin 1) e'))
      (fun e' => normarr V c (ix2 (0 : Fin 1) e')) (fun n d' => yarr V c (ix2 n d')) e d := rfl

theorem flushed_eq (c : Dev nD) (t : Fin cfg1.N) (hf : (cfg1.win 3).flush t = true) :
    (dat (F := Ideal) V c).flushed 3 t = ((cfg1.win 3).blk t).view.read (Elt Ideal) (gathArr V c) := by
  have h48 : t.val % 49 = 48 := (Sched.flush1_3 t).mp hf
  show (cfg1.win 3).cut (grid1.coords t) ((dat (F := Ideal) V c).after 3 t) = _
  rw [after_3]
  funext jj
  obtain ⟨p, q, rfl⟩ : ∃ (p : Fin 2048) (q : Fin 128), jj = ix2 p q := ⟨jj 0, jj 1, @eq_ix2 2048 (128 : Nat) jj⟩
  show (outsAt V c t.val t.isLt).1 ((cfg1.win 3).xinj (grid1.coords t) (ix2 p q)) = _
  have h1 := (outsAt_apply V c t.val t.isLt p q).1
  rw [h48] at h1

  generalize hG : gathArr V c = G
  show _ = G (((cfg1.win 3).blk t).view.emb (ix2 p q))
  rw [emb_m, ← hG, gathArr_apply, ← part_full V c ⟨t.val / 49 * 2048 + p.val, edge_lt t.val t.isLt p⟩ q]
  refine Eq.trans ?_ h1
  exact congrArg _ (funext fun a => Fin.ext (by match a with | ⟨0, _⟩ => rfl | ⟨1, _⟩ => rfl))

theorem mem_blk_m (t : Fin cfg1.N) (i : S1701888x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v38).slice (win1_3.rect t)).set ↔ _
  rw [View.set_slice_whole, Rect.mem_set_unit]
  exact Iff.rfl

theorem edges_covered (i : S1701888x128.Idx) :
    ∃ t : Fin cfg1.N, (cfg1.win 3).flush t = true ∧ i ∈ ((cfg1.win 3).blk t).view.set := by
  have hi0 : (i 0).val < 1701888 := (i 0).isLt
  have hi1 : (i 1).val < (128 : Nat) := (i 1).isLt
  let t : Fin cfg1.N := ⟨(i 0).val / 2048 * 49 + 48, Nat.lt_of_lt_of_eq (show (i 0).val / 2048 * 49 + 48 < 40719 by omega) N_1.symm⟩
  have ht : t.val = (i 0).val / 2048 * 49 + 48 := rfl
  refine ⟨t, (Sched.flush1_3 t).mpr (by rw [ht]; omega), ?_⟩
  have e0 : win1_3.index t (0 : Fin 2) = (i 0).val / 2048 :=
    (congrFun (Sched.index1_3 t) 0).trans (by show t.val / 49 = (i 0).val / 2048; rw [ht]; omega)
  have e1 : win1_3.index t (1 : Fin 2) = 0 := congrFun (Sched.index1_3 t) 1
  rw [mem_blk_m]
  intro a
  match a with
  | ⟨0, _⟩ => show win1_3.index t (0 : Fin 2) * 2048 ≤ (i 0).val ∧ (i 0).val < win1_3.index t (0 : Fin 2) * 2048 + 2048; rw [e0]; omega
  | ⟨1, _⟩ => show win1_3.index t (1 : Fin 2) * (128 : Nat) ≤ (i 1).val ∧ (i 1).val < win1_3.index t (1 : Fin 2) * (128 : Nat) + (128 : Nat); rw [e1]; omega

theorem final (c : Dev nD) : marr V c = gathArr V c :=
  (dat (F := Ideal) V c).arrAt_eq_of_cover 3 (gathArr V c) (fun t hf => flushed_eq V c t hf) edges_covered

theorem final_apply (c : Dev nD) (e : Fin 1701888) (d : Fin 128) :
    marr V c (ix2 e d)
      = Cert.Bridge.gath (NP := 100352) (fun e' : Fin 1701888 => srcarr V c (ix2 (0 : Fin 1) e'))
          (fun e' => normarr V c (ix2 (0 : Fin 1) e')) (fun n d' => yarr V c (ix2 n d')) e d := by
  rw [final V c, gathArr_apply]

end Cert.KernelIdeal.Gather1

end
-- ==== Proof.IdealRegions.Scatter2Value.lean ====
/- The scatter's output: partial sums over edge blocks reach the whole sum by destination, and the node blocks tile the nodes. -/
import proofs.«127098_j12489764897128_1_alg».proof.Proof.IdealRegions.Scatter2
import proofs.«127098_j12489764897128_1_alg».proof.Proof.IdealRegions.Sched
import proofs.«127098_j12489764897128_1_alg».proof.Proof.Bridge
import proofs.«127098_j12489764897128_1_alg».proof.Proof.IdealRegions.OneHot
import Idealize.ShloMosaic.Lib.Pipeline.Value
import Idealize.ShloMosaic.Lib.ValueIdx
import Idealize.ShloMosaic.Lib.ValueLayout
import Idealize.ShloMosaic.Lib.IdealHost
import Idealize.ShloMosaic.Lib.Affine
import Idealize.ShloMosaic.Lib.Tactic
import Idealize.ShloMosaic.PureOps.Ideal.Laws
import Mathlib.Algebra.BigOperators.Fin
import Mathlib.Algebra.BigOperators.Group.Finset.Basic

set_option maxRecDepth 16384

noncomputable section

namespace Cert.KernelIdeal.Scatter2

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat)
open scoped BigOperators
open Cert.KernelIdeal.OneHot

section Pieces

variable {F : FTy → Type} [FloatOps F]

theorem zero_offsets : (![0, 0] : Fin 2 → Nat) = fun _ => 0 := funext fun a => by fin_cases a <;> rfl

variable (c : Dev nD) (i : grid2.Coords) (arg2 : Memref sig .tc .vmem S2048x128 .f32) (harg2 : arg2.IsWhole)
  (arg3 : Memref sig .tc .vmem S1x2048 .i32) (harg3 : arg3.IsWhole) (arg4 : Memref sig .tc .vmem S1x128 .f32) (harg4 : arg4.IsWhole)
  (arg5 : Memref sig .tc .vmem S2048x128 .f32) (harg5 : arg5.IsWhole) (arg6 : Memref sig .tc .vmem S2048x128 .f32) (harg6 : arg6.IsWhole)
  (x0 : Vec F S2048x128 .f32) (x1 : Vec F S1x2048 .i32) (x2 : Vec F S1x128 .f32)

theorem accFirst_eq (hc : isFirst i) :
    VS.read (Elt F) (VS.writes (Elt F) VS.junk (runFirst c i arg2 harg2 arg3 harg3 arg4 harg4 arg5 harg5 arg6 harg6 x0 x1 x2 hc).2.1) = k2_pay2 i x1 x0 (k2_pay1 (F := F)) := by
  rw [View.read_writes_eq_canon _ _ _ (fun y => (coverFirst c i arg2 harg2 arg3 harg3 arg4 harg4 arg5 harg5 arg6 harg6 x0 x1 x2 hc y).2)]
  unfold runFirst
  dsimp only
  sl_unfold_words
  rw [View.canon_cons_unit_zero (S := S2048x128) zero_offsets]
  simp only [View.readAt_eq_ld, harg2.read_unread, harg3.read_unread, harg4.read_unread, harg6.read_unread, View.readCov_cons_toLoadRect, View.ld_unit_zero (S := S2048x128) zero_offsets, View.ld_unit_zero (S := S1x2048) zero_offsets, View.ld_unit_zero (S := S1x128) zero_offsets]

theorem outFirst_eq (hc : isFirst i) :
    VO.read (Elt F) (VO.writes (Elt F) VO.junk (runFirst c i arg2 harg2 arg3 harg3 arg4 harg4 arg5 harg5 arg6 harg6 x0 x1 x2 hc).1) = k2_pay3 (k2_pay2 i x1 x0 (k2_pay1 (F := F))) x2 := by
  rw [View.read_writes_eq_canon _ _ _ (fun y => (coverFirst c i arg2 harg2 arg3 harg3 arg4 harg4 arg5 harg5 arg6 harg6 x0 x1 x2 hc y).1)]
  unfold runFirst
  dsimp only
  sl_unfold_words
  rw [View.canon_unit_zero (S := S2048x128) zero_offsets]
  simp only [View.readAt_eq_ld, harg2.read_unread, harg3.read_unread, harg4.read_unread, harg6.read_unread, View.readCov_cons_toLoadRect, View.ld_unit_zero (S := S2048x128) zero_offsets, View.ld_unit_zero (S := S1x2048) zero_offsets, View.ld_unit_zero (S := S1x128) zero_offsets]

theorem accNext_eq (hc : ¬isFirst i) (xs : Vec F S2048x128 .f32) :
    VS.read (Elt F) (VS.writes (Elt F) VS.junk (runNext c i arg2 harg2 arg3 harg3 arg4 harg4 arg5 harg5 arg6 harg6 x0 x1 x2 hc xs).2.1) = k2_pay2 i x1 x0 xs := by
  rw [View.read_writes_eq_canon _ _ _ (fun y => (coverNext c i arg2 harg2 arg3 harg3 arg4 harg4 arg5 harg5 arg6 harg6 x0 x1 x2 hc xs y).2)]
  unfold runNext
  dsimp only
  sl_unfold_words
  rw [View.canon_unit_zero (S := S2048x128) zero_offsets]
  simp only [View.readAt_eq_ld, harg2.read_unread, harg3.read_unread, harg4.read_unread, harg6.read_unread, View.readCov_cons_toLoadRect, View.ld_unit_zero (S := S2048x128) zero_offsets, View.ld_unit_zero (S := S1x2048) zero_offsets, View.ld_unit_zero (S := S1x128) zero_offsets]

theorem outNext_eq (hc : ¬isFirst i) (xs : Vec F S2048x128 .f32) :
    VO.read (Elt F) (VO.writes (Elt F) VO.junk (runNext c i arg2 harg2 arg3 harg3 arg4 harg4 arg5 harg5 arg6 harg6 x0 x1 x2 hc xs).1) = k2_pay3 (k2_pay2 i x1 x0 xs) x2 := by
  rw [View.read_writes_eq_canon _ _ _ (fun y => (coverNext c i arg2 harg2 arg3 harg3 arg4 harg4 arg5 harg5 arg6 harg6 x0 x1 x2 hc xs y).1)]
  unfold runNext
  dsimp only
  sl_unfold_words
  rw [View.canon_unit_zero (S := S2048x128) zero_offsets]
  simp only [View.readAt_eq_ld, harg2.read_unread, harg3.read_unread, harg4.read_unread, harg6.read_unread, View.readCov_cons_toLoadRect, View.ld_unit_zero (S := S2048x128) zero_offsets, View.ld_unit_zero (S := S1x2048) zero_offsets, View.ld_unit_zero (S := S1x128) zero_offsets]

end Pieces

theorem lhs_row (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl

theorem lhs_col (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q

theorem rhs_row (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q

theorem rhs_col (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

theorem pay1_apply (p : Fin 2048) (d : Fin 128) : (k2_pay1 (F := Ideal)) (ix2 p d) = 0 := by
  unfold k2_pay1
  simp only [shapeCast_self]
  exact Ideal.ofBits_zero_f32

theorem pay2_apply (i : grid2.Coords) (dst : IVec S1x2048 32) (msg : FVec Ideal S2048x128 .f32) (acc : FVec Ideal S2048x128 .f32)
    (p : Fin 2048) (d : Fin 128) :
    k2_pay2 i dst msg acc (ix2 p d)
      = acc (ix2 p d) + ∑ j : Fin 2048, (if BitVec.ofNat 32 ((i 0).val * 2048 + p.val) = dst (ix2 (0 : Fin 1) j) then (1 : EReal) else 0) * msg (ix2 j d) := by
  unfold k2_pay2
  simp only [shapeCast_self, matmul]
  refine congrArg (fun z => acc (ix2 p d) + z) ?_
  rw [Ideal.matmul_constant_zero_apply, ← Equiv.sum_comp (ValueIdx.contrEquiv1 dot_S2048x2048_S2048x128_S2048x128_1_0_0_1_n_n 2048 rfl rfl).symm]
  refine Finset.sum_congr rfl fun j _ => ?_
  have hk := ValueIdx.contrEquiv1_symm_val dot_S2048x2048_S2048x128_S2048x128_1_0_0_1_n_n 2048 rfl rfl j
  have el : dot_S2048x2048_S2048x128_S2048x128_1_0_0_1_n_n.lhsIdx (ix2 p d) ((ValueIdx.contrEquiv1 dot_S2048x2048_S2048x128_S2048x128_1_0_0_1_n_n 2048 rfl rfl).symm j) = ix2 p j := funext fun a => Fin.ext (by
    match a with
    | ⟨0, _⟩ => exact lhs_row _ _
    | ⟨1, _⟩ => exact (lhs_col _ _).trans hk)
  have er : dot_S2048x2048_S2048x128_S2048x128_1_0_0_1_n_n.rhsIdx (ix2 p d) ((ValueIdx.contrEquiv1 dot_S2048x2048_S2048x128_S2048x128_1_0_0_1_n_n 2048 rfl rfl).symm j) = ix2 j d := funext fun a => Fin.ext (by
    match a with
    | ⟨0, _⟩ => exact (rhs_row _ _).trans hk
    | ⟨1, _⟩ => exact rhs_col _ _)
  rw [el, er]
  have hrow : broadcastTo S2048x2048 (addi (broadcast S2048x1 (Scalar.muli (BitVec.ofNat 32 (i 0).val) 2048#32)) (iota Kind.tc S2048x1 32 [0] iota_S2048x1_d0_w32)) broadcasts_S2048x1_S2048x2048 (ix2 p j)
      = BitVec.ofNat 32 ((i 0).val * 2048 + p.val) := by
    refine (broadcastTo_apply _ broadcasts_S2048x1_S2048x2048 (ix2 p j) (ix2 p (0 : Fin 1)) fun ax => ?_).trans ?_
    · match ax with
      | ⟨0, _⟩ => rfl
      | ⟨1, _⟩ => rfl
    · show IntOp.addi (Scalar.muli (BitVec.ofNat 32 (i 0).val) 2048#32) (iota Kind.tc S2048x1 32 [0] iota_S2048x1_d0_w32 (ix2 p (0 : Fin 1))) = _
      rw [iota_single_apply]
      exact nodeWord _ _
  have hcol : broadcastTo S2048x2048 dst broadcasts_S1x2048_S2048x2048 (ix2 p j) = dst (ix2 (0 : Fin 1) j) :=
    broadcastTo_1b_ab_apply dst broadcasts_S1x2048_S2048x2048 p j
  show Scalar.select (IntOp.cmpi .eq
        (broadcastTo S2048x2048 (addi (broadcast S2048x1 (Scalar.muli (BitVec.ofNat 32 (i 0).val) 2048#32)) (iota Kind.tc S2048x1 32 [0] iota_S2048x1_d0_w32)) broadcasts_S2048x1_S2048x2048 (ix2 p j))
        (broadcastTo S2048x2048 dst broadcasts_S1x2048_S2048x2048 (ix2 p j)))
      (Ideal.ofBits .bf16 0x3F80#16) (Ideal.ofBits .bf16 0x0000#16) * msg (ix2 j d) = _
  rw [hrow, hcol, one_hot]

theorem pay3_apply (a : FVec Ideal S2048x128 .f32) (b : FVec Ideal S1x128 .f32) (p : Fin 2048) (d : Fin 128) :
    k2_pay3 a b (ix2 p d) = max (a (ix2 p d) + b (ix2 (0 : Fin 1) d)) 0 := by
  unfold k2_pay3
  simp only [shapeCast_self]
  show max (a (ix2 p d) + broadcastTo S2048x128 b broadcasts_S1x128_S2048x128 (ix2 p d)) (Ideal.ofBits .f32 0x00000000#32) = _
  rw [broadcastTo_1b_ab_apply, Ideal.ofBits_zero_f32]

variable (V : (c : Dev nD) → (b : Ref sig .tc) → Buf (Elt Ideal) ((c : Thread nD τ).loc b))

abbrev marr (c : Dev nD) : FVec Ideal S1701888x128 .f32 := V c main_v38
abbrev dstarr (c : Dev nD) : IVec S1x1701888 32 := V c main_v34
abbrev barr (c : Dev nD) : FVec Ideal S1x128 .f32 := V c main_v39
abbrev harr (c : Dev nD) : FVec Ideal S100352x128 .f32 := (dat (F := Ideal) V c).arrAt 3 cfg2.N

abbrev mblk (c : Dev nD) (t : Fin cfg2.N) : FVec Ideal S2048x128 .f32 := iblk V c 0 t
abbrev dblk (c : Dev nD) (t : Fin cfg2.N) : IVec S1x2048 32 := iblk V c 1 t
abbrev bblk (c : Dev nD) (t : Fin cfg2.N) : FVec Ideal S1x128 .f32 := iblk V c 2 t

abbrev accv (c : Dev nD) (n : ℕ) (hn : n < cfg2.N) : FVec Ideal S2048x128 .f32 := (outsAt (F := Ideal) V c n hn).2
abbrev outv (c : Dev nD) (n : ℕ) (hn : n < cfg2.N) : FVec Ideal S2048x128 .f32 := (outsAt (F := Ideal) V c n hn).1

theorem index_m (t : Fin cfg2.N) : (cfg2.win 0).index t = ![t.val % 831, 0] := by
  have ht := Sched.point2_lt t
  show cc2_transform_0 (grid2.coords t) = ![t.val % 831, 0]
  unfold cc2_transform_0
  simp only [Sched.coords2_1 t, BitVec.toNat_ofNat]
  rw [Nat.mod_eq_of_lt (show t.val % 831 < 2 ^ 32 by omega)]

theorem index_d (t : Fin cfg2.N) : (cfg2.win 1).index t = ![0, t.val % 831] := by
  have ht := Sched.point2_lt t
  show cc2_transform_1 (grid2.coords t) = ![0, t.val % 831]
  unfold cc2_transform_1
  simp only [Sched.coords2_1 t, BitVec.toNat_ofNat]
  rw [Nat.mod_eq_of_lt (show t.val % 831 < 2 ^ 32 by omega)]

theorem index_b (t : Fin cfg2.N) : (cfg2.win 2).index t = ![0, 0] := by
  show cc2_transform_2 (grid2.coords t) = ![0, 0]
  unfold cc2_transform_2
  rfl

theorem edge_lt (t : Fin cfg2.N) (j : Fin 2048) : t.val % 831 * 2048 + j.val < 1701888 := by
  have hj := j.isLt
  have hm : t.val % 831 < 831 := Nat.mod_lt _ (by decide)
  omega

theorem node_lt (t : Fin cfg2.N) (p : Fin 2048) : t.val / 831 * 2048 + p.val < 100352 := by
  have ht := Sched.point2_lt t
  have hp := p.isLt
  omega

theorem emb_m (t : Fin cfg2.N) (j : Fin 2048) (d : Fin 128) :
    ((cfg2.win 0).blk t).view.emb (ix2 j d) = (ix2 ⟨t.val % 831 * 2048 + j.val, edge_lt t j⟩ d : S1701888x128.Idx) := by
  have e0 : win2_0.index t (0 : Fin 2) = t.val % 831 := congrFun (index_m t) 0
  have e1 : win2_0.index t (1 : Fin 2) = 0 := congrFun (index_m t) 1
  funext a; apply Fin.ext
  match a with
  | ⟨0, _⟩ => show win2_0.index t (0 : Fin 2) * 2048 + 1 * j.val = t.val % 831 * 2048 + j.val; rw [e0]; omega
  | ⟨1, _⟩ => show win2_0.index t (1 : Fin 2) * (128 : Nat) + 1 * d.val = d.val; rw [e1]; omega

theorem emb_d (t : Fin cfg2.N) (j : Fin 2048) :
    ((cfg2.win 1).blk t).view.emb (ix2 (0 : Fin 1) j) = (ix2 (0 : Fin 1) ⟨t.val % 831 * 2048 + j.val, edge_lt t j⟩ : S1x1701888.Idx) := by
  have e0 : win2_1.index t (0 : Fin 2) = 0 := congrFun (index_d t) 0
  have e1 : win2_1.index t (1 : Fin 2) = t.val % 831 := congrFun (index_d t) 1
  funext a; apply Fin.ext
  match a with
  | ⟨0, _⟩ => show win2_1.index t (0 : Fin 2) * 1 + 1 * 0 = 0; rw [e0]
  | ⟨1, _⟩ => show win2_1.index t (1 : Fin 2) * 2048 + 1 * j.val = t.val % 831 * 2048 + j.val; rw [e1]; omega

theorem emb_b (t : Fin cfg2.N) (d : Fin 128) :
    ((cfg2.win 2).blk t).view.emb (ix2 (0 : Fin 1) d) = (ix2 (0 : Fin 1) d : S1x128.Idx) := by
  have e0 : win2_2.index t (0 : Fin 2) = 0 := congrFun (index_b t) 0
  have e1 : win2_2.index t (1 : Fin 2) = 0 := congrFun (index_b t) 1
  funext a; apply Fin.ext
  match a with
  | ⟨0, _⟩ => show win2_2.index t (0 : Fin 2) * 1 + 1 * 0 = 0; rw [e0]
  | ⟨1, _⟩ => show win2_2.index t (1 : Fin 2) * (128 : Nat) + 1 * d.val = d.val; rw [e1]; omega

theorem emb_h (t : Fin cfg2.N) (p : Fin 2048) (d : Fin 128) :
    ((cfg2.win 3).blk t).view.emb (ix2 p d) = (ix2 ⟨t.val / 831 * 2048 + p.val, node_lt t p⟩ d : S100352x128.Idx) := by
  have e0 : win2_3.index t (0 : Fin 2) = t.val / 831 := congrFun (Sched.index2_3 t) 0
  have e1 : win2_3.index t (1 : Fin 2) = 0 := congrFun (Sched.index2_3 t) 1
  funext a; apply Fin.ext
  match a with
  | ⟨0, _⟩ => show win2_3.index t (0 : Fin 2) * 2048 + 1 * p.val = t.val / 831 * 2048 + p.val; rw [e0]; omega
  | ⟨1, _⟩ => show win2_3.index t (1 : Fin 2) * (128 : Nat) + 1 * d.val = d.val; rw [e1]; omega

theorem mblk_apply (c : Dev nD) (t : Fin cfg2.N) (j : Fin 2048) (d : Fin 128) :
    mblk V c t (ix2 j d) = marr V c (ix2 ⟨t.val % 831 * 2048 + j.val, edge_lt t j⟩ d) := by
  show V c main_v38 (((cfg2.win 0).blk t).view.emb (ix2 j d)) = V c main_v38 _
  rw [emb_m]

theorem dblk_apply (c : Dev nD) (t : Fin cfg2.N) (j : Fin 2048) :
    dblk V c t (ix2 (0 : Fin 1) j) = dstarr V c (ix2 (0 : Fin 1) ⟨t.val % 831 * 2048 + j.val, edge_lt t j⟩) := by
  show V c main_v34 (((cfg2.win 1).blk t).view.emb (ix2 (0 : Fin 1) j)) = V c main_v34 _
  rw [emb_d]

theorem bblk_apply (c : Dev nD) (t : Fin cfg2.N) (d : Fin 128) :
    bblk V c t (ix2 (0 : Fin 1) d) = barr V c (ix2 (0 : Fin 1) d) := by
  show V c main_v39 (((cfg2.win 2).blk t).view.emb (ix2 (0 : Fin 1) d)) = V c main_v39 _
  rw [emb_b]

theorem not_isFirst_of_coord (i : grid2.Coords) (h : (i 1).val ≠ 0) : ¬isFirst i := by
  have hlt : (i 1).val < 831 := (i 1).isLt
  have hne : ¬BitVec.ofNat 32 (i 1).val = 0#32 := fun e => h (by
    have h2 : (i 1).val % 2 ^ 32 = 0 := by rw [← BitVec.toNat_ofNat]; exact congrArg BitVec.toNat e
    omega)
  unfold isFirst
  rw [show Scalar.cmpi .eq (BitVec.ofNat 32 (i 1).val) 0#32 = 0#1 from eq_zero_of_ne_one (fun e => hne (IntOp.cmpi_eq.mp e))]
  decide

theorem accv_first (c : Dev nD) (t : Fin cfg2.N) (hc : isFirst (grid2.coords t)) :
    accv V c t.val t.isLt = k2_pay2 (grid2.coords t) (dblk V c t) (mblk V c t) (k2_pay1 (F := Ideal)) := by
  show (outsAt V c t.val t.isLt).2 = _
  rw [outsAt_first V c t hc]
  unfold firstAt leaves
  dsimp only
  exact accFirst_eq (F := Ideal) c (grid2.coords t) (ms0 t) (hs0 t) (ms1 t) (hs1 t) (ms2 t) (hs2 t) (ms3 t) (hs3 t) scM (Memref.isWhole_whole _) (iblk V c 0 t) (iblk V c 1 t) (iblk V c 2 t) hc

theorem accv_next (c : Dev nD) (m : ℕ) (hn : m + 1 < cfg2.N) (hc : ¬isFirst (grid2.coords (⟨m + 1, hn⟩ : Fin cfg2.N))) :
    accv V c (m + 1) hn
      = k2_pay2 (grid2.coords (⟨m + 1, hn⟩ : Fin cfg2.N)) (dblk V c ⟨m + 1, hn⟩) (mblk V c ⟨m + 1, hn⟩) (accv V c m (Nat.lt_of_succ_lt hn)) := by
  show (outsAt V c (m + 1) hn).2 = _
  rw [show outsAt V c (m + 1) hn = nextAt V c ⟨m + 1, hn⟩ hc (outsAt V c m (Nat.lt_of_succ_lt hn)).2 from dif_neg hc]
  unfold nextAt leaves
  dsimp only
  exact accNext_eq (F := Ideal) c (grid2.coords (⟨m + 1, hn⟩ : Fin cfg2.N)) (ms0 ⟨m + 1, hn⟩) (hs0 ⟨m + 1, hn⟩) (ms1 ⟨m + 1, hn⟩) (hs1 ⟨m + 1, hn⟩) (ms2 ⟨m + 1, hn⟩) (hs2 ⟨m + 1, hn⟩) (ms3 ⟨m + 1, hn⟩) (hs3 ⟨m + 1, hn⟩) scM (Memref.isWhole_whole _) (iblk V c 0 ⟨m + 1, hn⟩) (iblk V c 1 ⟨m + 1, hn⟩) (iblk V c 2 ⟨m + 1, hn⟩) hc (outsAt V c m (Nat.lt_of_succ_lt hn)).2

theorem outv_eq (c : Dev nD) (t : Fin cfg2.N) :
    outv V c t.val t.isLt = k2_pay3 (accv V c t.val t.isLt) (bblk V c t) := by
  show (outsAt V c t.val t.isLt).1 = k2_pay3 (outsAt V c t.val t.isLt).2 (iblk V c 2 t)
  by_cases hc : isFirst (grid2.coords t)
  · rw [outsAt_first V c t hc]
    unfold firstAt leaves
    dsimp only
    exact (outFirst_eq (F := Ideal) c (grid2.coords t) (ms0 t) (hs0 t) (ms1 t) (hs1 t) (ms2 t) (hs2 t) (ms3 t) (hs3 t) scM (Memref.isWhole_whole _) (iblk V c 0 t) (iblk V c 1 t) (iblk V c 2 t) hc).trans
      (congrArg (fun a => k2_pay3 a (iblk V c 2 t)) (accFirst_eq (F := Ideal) c (grid2.coords t) (ms0 t) (hs0 t) (ms1 t) (hs1 t) (ms2 t) (hs2 t) (ms3 t) (hs3 t) scM (Memref.isWhole_whole _) (iblk V c 0 t) (iblk V c 1 t) (iblk V c 2 t) hc).symm)
  · have hz : t.val ≠ 0 := fun h0 => hc (isFirst_of_zero t h0)
    rw [outsAt_next V c t hz hc]
    unfold nextAt leaves
    dsimp only
    exact (outNext_eq (F := Ideal) c (grid2.coords t) (ms0 t) (hs0 t) (ms1 t) (hs1 t) (ms2 t) (hs2 t) (ms3 t) (hs3 t) scM (Memref.isWhole_whole _) (iblk V c 0 t) (iblk V c 1 t) (iblk V c 2 t) hc (outsAt V c (t.val - 1) (Nat.lt_of_le_of_lt (Nat.sub_le _ _) t.isLt)).2).trans
      (congrArg (fun a => k2_pay3 a (iblk V c 2 t)) (accNext_eq (F := Ideal) c (grid2.coords t) (ms0 t) (hs0 t) (ms1 t) (hs1 t) (ms2 t) (hs2 t) (ms3 t) (hs3 t) scM (Memref.isWhole_whole _) (iblk V c 0 t) (iblk V c 1 t) (iblk V c 2 t) hc (outsAt V c (t.val - 1) (Nat.lt_of_le_of_lt (Nat.sub_le _ _) t.isLt)).2).symm)

def term (c : Dev nD) (nd : ℕ) (d : Fin 128) (e : ℕ) : EReal :=
  if h : e < 1701888 then
    (if BitVec.ofNat 32 nd = dstarr V c (ix2 (0 : Fin 1) ⟨e, h⟩) then (1 : EReal) else 0) * marr V c (ix2 ⟨e, h⟩ d)
  else 0

theorem block_sum (c : Dev nD) (t : Fin cfg2.N) (nd : ℕ) (d : Fin 128) :
    ∑ j : Fin 2048, (if BitVec.ofNat 32 nd = dblk V c t (ix2 (0 : Fin 1) j) then (1 : EReal) else 0) * mblk V c t (ix2 j d)
      = ∑ x ∈ Finset.range 2048, term V c nd d (t.val % 831 * 2048 + x) := by
  rw [Finset.sum_range]
  refine Finset.sum_congr rfl fun j _ => ?_
  unfold term
  rw [dif_pos (edge_lt t j), dblk_apply, mblk_apply]

theorem acc_apply (c : Dev nD) : ∀ (n : ℕ) (hn : n < cfg2.N) (p : Fin 2048) (d : Fin 128),
    accv V c n hn (ix2 p d) = ∑ e ∈ Finset.range (n % 831 * 2048 + 2048), term V c (n / 831 * 2048 + p.val) d e := by
  intro n
  induction n with
  | zero =>
    intro hn p d
    have hc : isFirst (grid2.coords (⟨0, hn⟩ : Fin cfg2.N)) := isFirst_of_zero ⟨0, hn⟩ rfl
    have hc0 : ((grid2.coords (⟨0, hn⟩ : Fin cfg2.N)) 0).val = 0 / 831 := Sched.coords2_0 ⟨0, hn⟩
    have e1 := pay2_apply (grid2.coords (⟨0, hn⟩ : Fin cfg2.N)) (dblk V c ⟨0, hn⟩) (mblk V c ⟨0, hn⟩) (k2_pay1 (F := Ideal)) p d
    rw [pay1_apply, zero_add, hc0, block_sum V c ⟨0, hn⟩ (0 / 831 * 2048 + p.val) d] at e1
    have e2 : accv V c 0 hn = k2_pay2 (grid2.coords (⟨0, hn⟩ : Fin cfg2.N)) (dblk V c ⟨0, hn⟩) (mblk V c ⟨0, hn⟩) (k2_pay1 (F := Ideal)) :=
      accv_first V c ⟨0, hn⟩ hc
    rw [e2, e1, Finset.sum_range_add]
    have hz : ∑ x ∈ Finset.range (0 % 831 * 2048), term V c (0 / 831 * 2048 + p.val) d x = 0 := Finset.sum_range_zero _
    rw [hz, zero_add]
  | succ m ih =>
    intro hn p d
    have hc0 : ((grid2.coords (⟨m + 1, hn⟩ : Fin cfg2.N)) 0).val = (m + 1) / 831 := Sched.coords2_0 ⟨m + 1, hn⟩
    have hc1 : ((grid2.coords (⟨m + 1, hn⟩ : Fin cfg2.N)) 1).val = (m + 1) % 831 := Sched.coords2_1 ⟨m + 1, hn⟩
    by_cases h0 : (m + 1) % 831 = 0
    · have hc : isFirst (grid2.coords (⟨m + 1, hn⟩ : Fin cfg2.N)) := isFirst_of_coord _ (hc1.trans h0)
      have e1 := pay2_apply (grid2.coords (⟨m + 1, hn⟩ : Fin cfg2.N)) (dblk V c ⟨m + 1, hn⟩) (mblk V c ⟨m + 1, hn⟩) (k2_pay1 (F := Ideal)) p d
      rw [pay1_apply, zero_add, hc0, block_sum V c ⟨m + 1, hn⟩ ((m + 1) / 831 * 2048 + p.val) d] at e1
      have e2 : accv V c (m + 1) hn = k2_pay2 (grid2.coords (⟨m + 1, hn⟩ : Fin cfg2.N)) (dblk V c ⟨m + 1, hn⟩) (mblk V c ⟨m + 1, hn⟩) (k2_pay1 (F := Ideal)) :=
        accv_first V c ⟨m + 1, hn⟩ hc
      rw [e2, e1, Finset.sum_range_add]
      have hz : ∑ x ∈ Finset.range ((m + 1) % 831 * 2048), term V c ((m + 1) / 831 * 2048 + p.val) d x = 0 := by
        rw [h0, Nat.zero_mul]; exact Finset.sum_range_zero _
      rw [hz, zero_add]
    · have hc : ¬isFirst (grid2.coords (⟨m + 1, hn⟩ : Fin cfg2.N)) := not_isFirst_of_coord _ (by rw [hc1]; exact h0)
      have e1 := pay2_apply (grid2.coords (⟨m + 1, hn⟩ : Fin cfg2.N)) (dblk V c ⟨m + 1, hn⟩) (mblk V c ⟨m + 1, hn⟩) (accv V c m (Nat.lt_of_succ_lt hn)) p d
      rw [ih (Nat.lt_of_succ_lt hn) p d, hc0, block_sum V c ⟨m + 1, hn⟩ ((m + 1) / 831 * 2048 + p.val) d] at e1
      have a1 : m % 831 * 2048 + 2048 = (m + 1) % 831 * 2048 := by omega
      have a2 : m / 831 = (m + 1) / 831 := by omega
      rw [accv_next V c m hn hc, e1, a1, a2, Finset.sum_range_add]

def scatArr (c : Dev nD) : FVec Ideal S100352x128 .f32 := fun j =>
  Cert.Bridge.scat (EP := 1701888) (fun e : Fin 1701888 => dstarr V c (ix2 (0 : Fin 1) e))
    (fun e d' => marr V c (ix2 e d')) (fun d' => barr V c (ix2 (0 : Fin 1) d'))
    (⟨(j 0).val, idx2_lt0 j⟩ : Fin 100352) (⟨(j 1).val, idx2_lt1 j⟩ : Fin 128)

theorem scatArr_apply (c : Dev nD) (n : Fin 100352) (d : Fin 128) :
    scatArr V c (ix2 n d)
      = Cert.Bridge.scat (EP := 1701888) (fun e : Fin 1701888 => dstarr V c (ix2 (0 : Fin 1) e))
          (fun e d' => marr V c (ix2 e d')) (fun d' => barr V c (ix2 (0 : Fin 1) d')) n d := rfl

attribute [irreducible] scatArr

theorem point_apply (c : Dev nD) (t : Fin cfg2.N) (h830 : t.val % 831 = 830) (p : Fin 2048) (d : Fin 128) :
    outv V c t.val t.isLt (ix2 p d) = scatArr V c (ix2 ⟨t.val / 831 * 2048 + p.val, node_lt t p⟩ d) := by
  rw [outv_eq V c t, scatArr_apply]
  refine (pay3_apply (accv V c t.val t.isLt) (bblk V c t) p d).trans ?_
  rw [acc_apply V c t.val t.isLt p d, bblk_apply, h830]
  unfold Cert.Bridge.scat
  refine congrArg (fun z => max (z + barr V c (ix2 (0 : Fin 1) d)) 0) ?_
  rw [show 830 * 2048 + 2048 = 1701888 from rfl, Finset.sum_range]
  refine Finset.sum_congr rfl fun e _ => ?_
  unfold term
  rw [dif_pos e.isLt]

theorem read_blk_apply (G : FVec Ideal S100352x128 .f32) (t : Fin cfg2.N) (p : Fin 2048) (q : Fin 128) :
    ((cfg2.win 3).blk t).view.read (Elt Ideal) G (ix2 p q) = G (ix2 ⟨t.val / 831 * 2048 + p.val, node_lt t p⟩ q) := by
  show G (((cfg2.win 3).blk t).view.emb (ix2 p q)) = _
  rw [emb_h]

theorem cut_apply (X : FVec Ideal S2048x128 .f32) (t : Fin cfg2.N) (p : Fin 2048) (q : Fin 128) :
    (cfg2.win 3).cut (grid2.coords t) X (ix2 p q) = X (ix2 p q) := by
  show X ((cfg2.win 3).xinj (grid2.coords t) (ix2 p q)) = X (ix2 p q)
  exact congrArg X (funext fun a => Fin.ext (by match a with | ⟨0, _⟩ => rfl | ⟨1, _⟩ => rfl))

theorem flushed_eq (c : Dev nD) (t : Fin cfg2.N) (hf : (cfg2.win 3).flush t = true) :
    (dat (F := Ideal) V c).flushed 3 t = ((cfg2.win 3).blk t).view.read (Elt Ideal) (scatArr V c) := by
  have h830 : t.val % 831 = 830 := (Sched.flush2_3 t).mp hf
  show (cfg2.win 3).cut (grid2.coords t) ((dat (F := Ideal) V c).after 3 t) = _
  rw [after_3]
  funext j
  obtain ⟨p, q, rfl⟩ : ∃ (p : Fin 2048) (q : Fin 128), j = ix2 p q := ⟨j 0, j 1, @eq_ix2 2048 (128 : Nat) j⟩
  exact (cut_apply (outv V c t.val t.isLt) t p q).trans
    ((point_apply V c t h830 p q).trans (read_blk_apply (scatArr V c) t p q).symm)

theorem mem_blk_h (t : Fin cfg2.N) (i : S100352x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v40).slice (win2_3.rect t)).set ↔ _
  rw [View.set_slice_whole, Rect.mem_set_unit]
  exact Iff.rfl

theorem nodes_covered (i : S100352x128.Idx) :
    ∃ t : Fin cfg2.N, (cfg2.win 3).flush t = true ∧ i ∈ ((cfg2.win 3).blk t).view.set := by
  have hi0 : (i 0).val < 100352 := (i 0).isLt
  have hi1 : (i 1).val < (128 : Nat) := (i 1).isLt
  let t : Fin cfg2.N := ⟨(i 0).val / 2048 * 831 + 830, Nat.lt_of_lt_of_eq (show (i 0).val / 2048 * 831 + 830 < 40719 by omega) N_2.symm⟩
  have hq : t.val / 831 = (i 0).val / 2048 := by show ((i 0).val / 2048 * 831 + 830) / 831 = (i 0).val / 2048; omega
  refine ⟨t, (Sched.flush2_3 t).mpr (by show ((i 0).val / 2048 * 831 + 830) % 831 = 830; omega), ?_⟩
  have e0 : win2_3.index t (0 : Fin 2) = (i 0).val / 2048 := (congrFun (Sched.index2_3 t) 0).trans hq
  have e1 : win2_3.index t (1 : Fin 2) = 0 := congrFun (Sched.index2_3 t) 1
  rw [mem_blk_h]
  intro a
  match a with
  | ⟨0, _⟩ => show win2_3.index t (0 : Fin 2) * 2048 ≤ (i 0).val ∧ (i 0).val < win2_3.index t (0 : Fin 2) * 2048 + 2048; rw [e0]; omega
  | ⟨1, _⟩ => show win2_3.index t (1 : Fin 2) * (128 : Nat) ≤ (i 1).val ∧ (i 1).val < win2_3.index t (1 : Fin 2) * (128 : Nat) + (128 : Nat); rw [e1]; omega

theorem final (c : Dev nD) : harr V c = scatArr V c :=
  (dat (F := Ideal) V c).arrAt_eq_of_cover 3 (scatArr V c) (fun t hf => flushed_eq V c t hf) nodes_covered

theorem final_apply (c : Dev nD) (n : Fin 100352) (d : Fin 128) :
    harr V c (ix2 n d)
      = Cert.Bridge.scat (EP := 1701888) (fun e : Fin 1701888 => dstarr V c (ix2 (0 : Fin 1) e))
          (fun e d' => marr V c (ix2 e d')) (fun d' => barr V c (ix2 (0 : Fin 1) d')) n d := by
  rw [final V c, scatArr_apply]

end Cert.KernelIdeal.Scatter2

end
-- ==== Proof.IdealRegions.Gather4Pieces.lean ====
/- What a run of the gather body stores is the body's arithmetic applied to its blocks. -/
import proofs.«127098_j12489764897128_1_alg».proof.Proof.IdealRegions.Gather4
import Idealize.ShloMosaic.Lib.Pipeline.Value
import Idealize.ShloMosaic.Lib.Tactic

set_option maxRecDepth 16384

noncomputable section

namespace Cert.KernelIdeal.Gather4

open Cert.KernelIdeal Cert.KernelIdeal.Gen
open Idealize.ShloMosaic Idealize.ShloMosaic.TcCoe Idealize.ShloMosaic.Tactic
open Idealize.SL Idealize.SL.Sem

variable {F : FTy → Type} [FloatOps F]

theorem zero_offsets : (![0, 0] : Fin 2 → Nat) = fun _ => 0 := funext fun a => by fin_cases a <;> rfl

theorem readCov_cons_unit_zero {Val : EltTy → Type} {S : Shape} {e : EltTy} [∀ e, Nonempty (Val e)] {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

variable (c : Dev nD) (i : grid4.Coords) (arg2 : Memref sig .tc .vmem S2048x64 .f32) (harg2 : arg2.IsWhole)
  (arg3 : Memref sig .tc .vmem S1x2048 .i32) (harg3 : arg3.IsWhole) (arg4 : Memref sig .tc .vmem S1x2048 .f32) (harg4 : arg4.IsWhole)
  (arg5 : Memref sig .tc .vmem S2048x64 .f32) (harg5 : arg5.IsWhole) (arg6 : Memref sig .tc .vmem S2048x64 .f32) (harg6 : arg6.IsWhole)
  (x0 : Vec F S2048x64 .f32) (x1 : Vec F S1x2048 .i32) (x2 : Vec F S1x2048 .f32)

theorem accFirst_eq (hc : isFirst i) :
    VS.read (Elt F) (VS.writes (Elt F) VS.junk (runFirst c i arg2 harg2 arg3 harg3 arg4 harg4 arg5 harg5 arg6 harg6 x0 x1 x2 hc).2.1) = k4_pay2 i x1 x2 x0 (k4_pay1 (F := F)) := by
  rw [View.read_writes_eq_canon _ _ _ (fun y => (coverFirst c i arg2 harg2 arg3 harg3 arg4 harg4 arg5 harg5 arg6 harg6 x0 x1 x2 hc y).2)]
  unfold runFirst
  dsimp only
  sl_unfold_words
  rw [View.canon_cons_unit_zero (S := S2048x64) zero_offsets, View.readCov_unit_zero (S := S2048x64) _ zero_offsets]
  simp only [View.readAt_eq_ld, harg2.read_unread, harg3.read_unread, harg4.read_unread,
    View.ld_unit_zero (S := S2048x64) zero_offsets, View.ld_unit_zero (S := S1x2048) zero_offsets]

theorem outFirst_eq (hc : isFirst i) :
    VO.read (Elt F) (VO.writes (Elt F) VO.junk (runFirst c i arg2 harg2 arg3 harg3 arg4 harg4 arg5 harg5 arg6 harg6 x0 x1 x2 hc).1) = k4_pay2 i x1 x2 x0 (k4_pay1 (F := F)) := by
  rw [View.read_writes_eq_canon _ _ _ (fun y => (coverFirst c i arg2 harg2 arg3 harg3 arg4 harg4 arg5 harg5 arg6 harg6 x0 x1 x2 hc y).1)]
  unfold runFirst
  dsimp only
  sl_unfold_words
  rw [View.canon_unit_zero (S := S2048x64) zero_offsets, readCov_cons_unit_zero (S := S2048x64) _ zero_offsets,
    View.readCov_unit_zero (S := S2048x64) _ zero_offsets]
  simp only [View.readAt_eq_ld, harg2.read_unread, harg3.read_unread, harg4.read_unread,
    View.ld_unit_zero (S := S2048x64) zero_offsets, View.ld_unit_zero (S := S1x2048) zero_offsets]

theorem accNext_eq (hc : ¬isFirst i) (xs : Vec F S2048x64 .f32) :
    VS.read (Elt F) (VS.writes (Elt F) VS.junk (runNext c i arg2 harg2 arg3 harg3 arg4 harg4 arg5 harg5 arg6 harg6 x0 x1 x2 hc xs).2.1) = k4_pay2 i x1 x2 x0 xs := by
  rw [View.read_writes_eq_canon _ _ _ (fun y => (coverNext c i arg2 harg2 arg3 harg3 arg4 harg4 arg5 harg5 arg6 harg6 x0 x1 x2 hc xs y).2)]
  unfold runNext
  dsimp only
  sl_unfold_words
  rw [View.canon_unit_zero (S := S2048x64) zero_offsets]
  simp only [View.readAt_eq_ld, harg2.read_unread, harg3.read_unread, harg4.read_unread, harg6.read_unread,
    View.ld_unit_zero (S := S2048x64) zero_offsets, View.ld_unit_zero (S := S1x2048) zero_offsets]

theorem outNext_eq (hc : ¬isFirst i) (xs : Vec F S2048x64 .f32) :
    VO.read (Elt F) (VO.writes (Elt F) VO.junk (runNext c i arg2 harg2 arg3 harg3 arg4 harg4 arg5 harg5 arg6 harg6 x0 x1 x2 hc xs).1) = k4_pay2 i x1 x2 x0 xs := by
  rw [View.read_writes_eq_canon _ _ _ (fun y => (coverNext c i arg2 harg2 arg3 harg3 arg4 harg4 arg5 harg5 arg6 harg6 x0 x1 x2 hc xs y).1)]
  unfold runNext
  dsimp only
  sl_unfold_words
  rw [View.canon_unit_zero (S := S2048x64) zero_offsets, View.readCov_unit_zero (S := S2048x64) _ zero_offsets]
  simp only [View.readAt_eq_ld, harg2.read_unread, harg3.read_unread, harg4.read_unread, harg6.read_unread,
    View.ld_unit_zero (S := S2048x64) zero_offsets, View.ld_unit_zero (S := S1x2048) zero_offsets]

end Cert.KernelIdeal.Gather4

end
-- ==== Proof.IdealRegions.Gather4Pay.lean ====
/- The gather body's arithmetic at an entry: a sum over the block's nodes of an indicator times a feature. -/
import proofs.«127098_j12489764897128_1_alg».proof.Proof.IdealRegions.OneHot
import Idealize.ShloMosaic.Lib.Pipeline.Value
import Idealize.ShloMosaic.Lib.ValueIdx
import Idealize.ShloMosaic.PureOps.Ideal.Laws

set_option maxRecDepth 16384

noncomputable section

namespace Cert.KernelIdeal.Gather4

open Cert.KernelIdeal Cert.KernelIdeal.Gen
open Idealize.ShloMosaic Idealize.ShloMosaic.TcCoe Idealize.ShloMosaic.ValueIdx
open Idealize.SL Idealize.SL.Sem
open scoped BigOperators
open Cert.KernelIdeal.OneHot

theorem lhs_row (i : S2048x64.Idx) (q : dot_S2048x2048_S2048x64_S2048x64_0_0_1_1_n_n.contr.Idx) :
    (dot_S2048x2048_S2048x64_S2048x64_0_0_1_1_n_n.lhsIdx i q 0).val = (q ⟨0, by decide⟩).val :=
  dot_S2048x2048_S2048x64_S2048x64_0_0_1_1_n_n.lhsIdx_val_of_single rfl i q

theorem lhs_col (i : S2048x64.Idx) (q : dot_S2048x2048_S2048x64_S2048x64_0_0_1_1_n_n.contr.Idx) :
    (dot_S2048x2048_S2048x64_S2048x64_0_0_1_1_n_n.lhsIdx i q 1).val = (i 0).val := by
  unfold DotDims.lhsIdx
  rw [dif_neg (show ¬(1 : Fin S2048x2048.rank) ∈ dot_S2048x2048_S2048x64_S2048x64_0_0_1_1_n_n.lhsBatch by decide), dif_pos (show (1 : Fin S2048x2048.rank) ∈ dot_S2048x2048_S2048x64_S2048x64_0_0_1_1_n_n.lhsNonContracting by decide)]
  rfl

theorem rhs_row (i : S2048x64.Idx) (q : dot_S2048x2048_S2048x64_S2048x64_0_0_1_1_n_n.contr.Idx) :
    (dot_S2048x2048_S2048x64_S2048x64_0_0_1_1_n_n.rhsIdx i q 0).val = (q ⟨0, by decide⟩).val :=
  dot_S2048x2048_S2048x64_S2048x64_0_0_1_1_n_n.rhsIdx_val_of_single rfl i q

theorem rhs_col (i : S2048x64.Idx) (q : dot_S2048x2048_S2048x64_S2048x64_0_0_1_1_n_n.contr.Idx) :
    (dot_S2048x2048_S2048x64_S2048x64_0_0_1_1_n_n.rhsIdx i q 1).val = (i 1).val := by
  unfold DotDims.rhsIdx
  rw [dif_neg (show ¬(1 : Fin S2048x64.rank) ∈ dot_S2048x2048_S2048x64_S2048x64_0_0_1_1_n_n.rhsBatch by decide), dif_pos (show (1 : Fin S2048x64.rank) ∈ dot_S2048x2048_S2048x64_S2048x64_0_0_1_1_n_n.rhsNonContracting by decide)]
  rfl

theorem pay1_apply (j : Fin 2048) (d : Fin 64) : k4_pay1 (F := Ideal) (ix2 j d) = 0 := by
  unfold k4_pay1
  simp only [shapeCast_self]
  exact Ideal.ofBits_zero_f32

theorem pay2_apply (src : Vec Ideal S1x2048 .i32) (nrm : Vec Ideal S1x2048 .f32) (feat acc : Vec Ideal S2048x64 .f32)
    (i : grid4.Coords) (j : Fin 2048) (d : Fin 64) :
    k4_pay2 i src nrm feat acc (ix2 j d)
      = acc (ix2 j d) + ∑ r : Fin 2048,
          (if BitVec.ofNat 32 ((i 1).val * 2048 + r.val) = src (ix2 0 j) then nrm (ix2 0 j) else 0) * feat (ix2 r d) := by
  unfold k4_pay2
  simp only [shapeCast_self, matmul]
  refine (ValueIdx.addf_apply _ _ _).trans ?_
  rw [Ideal.matmul_constant_zero_apply, ← Equiv.sum_comp (ValueIdx.contrEquiv1 dot_S2048x2048_S2048x64_S2048x64_0_0_1_1_n_n 2048 rfl rfl).symm]
  refine congrArg (acc (ix2 j d) + ·) (Finset.sum_congr rfl fun r _ => ?_)
  have hk := ValueIdx.contrEquiv1_symm_val dot_S2048x2048_S2048x64_S2048x64_0_0_1_1_n_n 2048 rfl rfl r
  have el : dot_S2048x2048_S2048x64_S2048x64_0_0_1_1_n_n.lhsIdx (ix2 j d) ((ValueIdx.contrEquiv1 dot_S2048x2048_S2048x64_S2048x64_0_0_1_1_n_n 2048 rfl rfl).symm r) = ix2 r j := funext fun a => Fin.ext (by
    match a with
    | ⟨0, _⟩ => exact (lhs_row _ _).trans hk
    | ⟨1, _⟩ => exact lhs_col _ _)
  have er : dot_S2048x2048_S2048x64_S2048x64_0_0_1_1_n_n.rhsIdx (ix2 j d) ((ValueIdx.contrEquiv1 dot_S2048x2048_S2048x64_S2048x64_0_0_1_1_n_n 2048 rfl rfl).symm r) = ix2 r d := funext fun a => Fin.ext (by
    match a with
    | ⟨0, _⟩ => exact (rhs_row _ _).trans hk
    | ⟨1, _⟩ => exact rhs_col _ _)
  rw [el, er]
  exact congrArg (· * feat (ix2 r d)) (onehot_entry (i 1).val src nrm _ _ _ _ r j)

end Cert.KernelIdeal.Gather4

end
-- ==== Proof.IdealRegions.Gather4Value.lean ====
/- The gather's output: partial sums over node blocks reach the whole one-hot sum, and the edge blocks tile the edges. -/
import proofs.«127098_j12489764897128_1_alg».proof.Proof.IdealRegions.Gather4
import proofs.«127098_j12489764897128_1_alg».proof.Proof.IdealRegions.Gather4Pieces
import proofs.«127098_j12489764897128_1_alg».proof.Proof.IdealRegions.Gather4Pay
import proofs.«127098_j12489764897128_1_alg».proof.Proof.IdealRegions.Sched
import proofs.«127098_j12489764897128_1_alg».proof.Proof.Bridge
import Idealize.ShloMosaic.Lib.Pipeline.Value
import Idealize.ShloMosaic.Lib.ValueIdx
import Idealize.ShloMosaic.PureOps.Ideal.Laws

set_option maxRecDepth 16384

noncomputable section

namespace Cert.KernelIdeal.Gather4

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators
open Cert.Bridge (sum_block_step node_lt)

variable (V : (c : Dev nD) → (b : Ref sig .tc) → Buf (Elt Ideal) ((c : Thread nD τ).loc b))

abbrev yarr (c : Dev nD) : FVec Ideal S100352x64 .f32 := V c main_v41
abbrev srcarr (c : Dev nD) : IVec S1x1701888 32 := V c main_v33
abbrev normarr (c : Dev nD) : FVec Ideal S1x1701888 .f32 := V c main_v35
abbrev marr (c : Dev nD) : FVec Ideal S1701888x64 .f32 := (dat (F := Ideal) V c).arrAt 3 cfg4.N

theorem acc_step (srcb : Vec Ideal S1x2048 .i32) (nrmb : Vec Ideal S1x2048 .f32) (yb accb : Vec Ideal S2048x64 .f32)
    (i : grid4.Coords) (S : BitVec 32) (w : EReal) (y : Fin 100352 → EReal) (k : Nat) (hk : k < 49)
    (hik : (i 1).val = k) (j : Fin 2048) (d : Fin 64)
    (hS : srcb (ix2 0 j) = S) (hw : nrmb (ix2 0 j) = w)
    (hy : ∀ r : Fin 2048, yb (ix2 r d) = y ⟨k * 2048 + r.val, node_lt k hk r⟩)
    (hacc : accb (ix2 j d)
      = ∑ m : Fin 100352, if m.val < k * 2048 then (if BitVec.ofNat 32 m.val = S then w else 0) * y m else 0) :
    k4_pay2 i srcb nrmb yb accb (ix2 j d)
      = ∑ m : Fin 100352, if m.val < (k + 1) * 2048 then (if BitVec.ofNat 32 m.val = S then w else 0) * y m else 0 := by
  rw [pay2_apply, hacc, hik, hS, hw]
  simp only [hy]
  exact sum_block_step (fun m => (if BitVec.ofNat 32 m.val = S then w else 0) * y m) k hk

abbrev yblk (c : Dev nD) (t : Fin cfg4.N) : Vec Ideal S2048x64 .f32 := iblk V c 0 t
abbrev sblk (c : Dev nD) (t : Fin cfg4.N) : Vec Ideal S1x2048 .i32 := iblk V c 1 t
abbrev nblk (c : Dev nD) (t : Fin cfg4.N) : Vec Ideal S1x2048 .f32 := iblk V c 2 t

theorem index_y (t : Fin cfg4.N) : (cfg4.win 0).index t = ![t.val % 49, 0] := by
  have ht := Sched.point4_lt t
  show cc4_transform_0 (grid4.coords t) = ![t.val % 49, 0]
  unfold cc4_transform_0
  simp only [Sched.coords4_1 t, BitVec.toNat_ofNat]
  rw [Nat.mod_eq_of_lt (show t.val % 49 < 2 ^ 32 by omega)]

theorem index_s (t : Fin cfg4.N) : (cfg4.win 1).index t = ![0, t.val / 49] := by
  have ht := Sched.point4_lt t
  show cc4_transform_1 (grid4.coords t) = ![0, t.val / 49]
  unfold cc4_transform_1
  simp only [Sched.coords4_0 t, BitVec.toNat_ofNat]
  rw [Nat.mod_eq_of_lt (show t.val / 49 < 2 ^ 32 by omega)]

theorem index_n (t : Fin cfg4.N) : (cfg4.win 2).index t = ![0, t.val / 49] := by
  have ht := Sched.point4_lt t
  show cc4_transform_2 (grid4.coords t) = ![0, t.val / 49]
  unfold cc4_transform_2
  simp only [Sched.coords4_0 t, BitVec.toNat_ofNat]
  rw [Nat.mod_eq_of_lt (show t.val / 49 < 2 ^ 32 by omega)]

theorem nrow_lt (t : Fin cfg4.N) (r : Fin 2048) : t.val % 49 * 2048 + r.val < 100352 := by
  have hr := r.isLt
  omega

theorem edge_lt (n : Nat) (hn : n < cfg4.N) (j : Fin 2048) : n / 49 * 2048 + j.val < 1701888 := by
  have h : n < 40719 := Nat.lt_of_lt_of_eq hn N_4
  have hj := j.isLt
  omega

theorem emb_y (t : Fin cfg4.N) (r : Fin 2048) (d : Fin 64) :
    ((cfg4.win 0).blk t).view.emb (ix2 r d) = (ix2 ⟨t.val % 49 * 2048 + r.val, nrow_lt t r⟩ d : S100352x64.Idx) := by
  have e0 : win4_0.index t (0 : Fin 2) = t.val % 49 := congrFun (index_y t) 0
  have e1 : win4_0.index t (1 : Fin 2) = 0 := congrFun (index_y t) 1
  funext a; apply Fin.ext
  match a with
  | ⟨0, _⟩ => show win4_0.index t (0 : Fin 2) * 2048 + 1 * r.val = t.val % 49 * 2048 + r.val; rw [e0]; omega
  | ⟨1, _⟩ => show win4_0.index t (1 : Fin 2) * (64 : Nat) + 1 * d.val = d.val; rw [e1]; omega

theorem emb_s (t : Fin cfg4.N) (j : Fin 2048) :
    ((cfg4.win 1).blk t).view.emb (ix2 (0 : Fin 1) j)
      = (ix2 (0 : Fin 1) ⟨t.val / 49 * 2048 + j.val, edge_lt t.val t.isLt j⟩ : S1x1701888.Idx) := by
  have e0 : win4_1.index t (0 : Fin 2) = 0 := congrFun (index_s t) 0
  have e1 : win4_1.index t (1 : Fin 2) = t.val / 49 := congrFun (index_s t) 1
  funext a; apply Fin.ext
  match a with
  | ⟨0, _⟩ => show win4_1.index t (0 : Fin 2) * 1 + 1 * 0 = 0; rw [e0]
  | ⟨1, _⟩ => show win4_1.index t (1 : Fin 2) * 2048 + 1 * j.val = t.val / 49 * 2048 + j.val; rw [e1]; omega

theorem emb_n (t : Fin cfg4.N) (j : Fin 2048) :
    ((cfg4.win 2).blk t).view.emb (ix2 (0 : Fin 1) j)
      = (ix2 (0 : Fin 1) ⟨t.val / 49 * 2048 + j.val, edge_lt t.val t.isLt j⟩ : S1x1701888.Idx) := by
  have e0 : win4_2.index t (0 : Fin 2) = 0 := congrFun (index_n t) 0
  have e1 : win4_2.index t (1 : Fin 2) = t.val / 49 := congrFun (index_n t) 1
  funext a; apply Fin.ext
  match a with
  | ⟨0, _⟩ => show win4_2.index t (0 : Fin 2) * 1 + 1 * 0 = 0; rw [e0]
  | ⟨1, _⟩ => show win4_2.index t (1 : Fin 2) * 2048 + 1 * j.val = t.val / 49 * 2048 + j.val; rw [e1]; omega

theorem emb_m (t : Fin cfg4.N) (p : Fin 2048) (q : Fin 64) :
    ((cfg4.win 3).blk t).view.emb (ix2 p q)
      = (ix2 ⟨t.val / 49 * 2048 + p.val, edge_lt t.val t.isLt p⟩ q : S1701888x64.Idx) := by
  have e0 : win4_3.index t (0 : Fin 2) = t.val / 49 := congrFun (Sched.index4_3 t) 0
  have e1 : win4_3.index t (1 : Fin 2) = 0 := congrFun (Sched.index4_3 t) 1
  funext a; apply Fin.ext
  match a with
  | ⟨0, _⟩ => show win4_3.index t (0 : Fin 2) * 2048 + 1 * p.val = t.val / 49 * 2048 + p.val; rw [e0]; omega
  | ⟨1, _⟩ => show win4_3.index t (1 : Fin 2) * (64 : Nat) + 1 * q.val = q.val; rw [e1]; omega

theorem yblk_apply (c : Dev nD) (t : Fin cfg4.N) (r : Fin 2048) (d : Fin 64) :
    yblk V c t (ix2 r d) = yarr V c (ix2 ⟨t.val % 49 * 2048 + r.val, nrow_lt t r⟩ d) := by
  show V c main_v41 (((cfg4.win 0).blk t).view.emb (ix2 r d)) = V c main_v41 _
  rw [emb_y]

theorem sblk_apply (c : Dev nD) (t : Fin cfg4.N) (j : Fin 2048) :
    sblk V c t (ix2 (0 : Fin 1) j) = srcarr V c (ix2 (0 : Fin 1) ⟨t.val / 49 * 2048 + j.val, edge_lt t.val t.isLt j⟩) := by
  show V c main_v33 (((cfg4.win 1).blk t).view.emb (ix2 (0 : Fin 1) j)) = V c main_v33 _
  rw [emb_s]

theorem nblk_apply (c : Dev nD) (t : Fin cfg4.N) (j : Fin 2048) :
    nblk V c t (ix2 (0 : Fin 1) j) = normarr V c (ix2 (0 : Fin 1) ⟨t.val / 49 * 2048 + j.val, edge_lt t.val t.isLt j⟩) := by
  show V c main_v35 (((cfg4.win 2).blk t).view.emb (ix2 (0 : Fin 1) j)) = V c main_v35 _
  rw [emb_n]

def part (c : Dev nD) (e : Fin 1701888) (d : Fin 64) (K : Nat) : EReal :=
  ∑ m : Fin 100352, if m.val < K * 2048 then
    (if BitVec.ofNat 32 m.val = srcarr V c (ix2 (0 : Fin 1) e) then normarr V c (ix2 (0 : Fin 1) e) else 0)
      * yarr V c (ix2 m d) else 0

theorem part_full (c : Dev nD) (e : Fin 1701888) (d : Fin 64) :
    part V c e d 49 = Cert.Bridge.gath (NP := 100352) (fun e' : Fin 1701888 => srcarr V c (ix2 (0 : Fin 1) e'))
      (fun e' => normarr V c (ix2 (0 : Fin 1) e')) (fun n d' => yarr V c (ix2 n d')) e d := by
  unfold part Cert.Bridge.gath
  exact Finset.sum_congr rfl fun m _ => if_pos (by have := m.isLt; omega)

theorem coord_of_isFirst (i : grid4.Coords) (h : isFirst i) : (i 1).val = 0 := by
  have key : ∀ x : Fin 49,
      (Scalar.cmpi .ne (Scalar.extui (Scalar.cmpi .eq (BitVec.ofNat 32 x.val) 0#32)) 0#32) = 1#1 → x.val = 0 := by
    decide
  exact key (i 1) h

theorem point_first (c : Dev nD) (t : Fin cfg4.N) (hc : isFirst (grid4.coords t)) (j : Fin 2048) (d : Fin 64) :
    (outsAt V c t.val t.isLt).1 (ix2 j d)
        = part V c ⟨t.val / 49 * 2048 + j.val, edge_lt t.val t.isLt j⟩ d (t.val % 49 + 1)
      ∧ (outsAt V c t.val t.isLt).2 (ix2 j d)
        = part V c ⟨t.val / 49 * 2048 + j.val, edge_lt t.val t.isLt j⟩ d (t.val % 49 + 1) := by
  have hk : ((grid4.coords t) 1).val = t.val % 49 := Sched.coords4_1 t
  have h0 : t.val % 49 = 0 := hk.symm.trans (coord_of_isFirst _ hc)
  have key : k4_pay2 (grid4.coords t) (sblk V c t) (nblk V c t) (yblk V c t) (k4_pay1 (F := Ideal)) (ix2 j d)
      = part V c ⟨t.val / 49 * 2048 + j.val, edge_lt t.val t.isLt j⟩ d (t.val % 49 + 1) :=
    acc_step (sblk V c t) (nblk V c t) (yblk V c t) (k4_pay1 (F := Ideal)) (grid4.coords t)
      (srcarr V c (ix2 (0 : Fin 1) ⟨t.val / 49 * 2048 + j.val, edge_lt t.val t.isLt j⟩))
      (normarr V c (ix2 (0 : Fin 1) ⟨t.val / 49 * 2048 + j.val, edge_lt t.val t.isLt j⟩))
      (fun m => yarr V c (ix2 m d)) (t.val % 49) (Nat.mod_lt _ (by decide)) hk j d
      (sblk_apply V c t j) (nblk_apply V c t j) (fun r => yblk_apply V c t r d)
      ((pay1_apply j d).trans (Finset.sum_eq_zero fun m _ => if_neg (by omega)).symm)
  rw [outsAt_first V c t hc]
  unfold firstAt leaves
  dsimp only
  exact ⟨(congrFun (outFirst_eq (F := Ideal) c (grid4.coords t) (ms0 t) (hs0 t) (ms1 t) (hs1 t) (ms2 t) (hs2 t) (ms3 t) (hs3 t) scM (Memref.isWhole_whole _) (iblk V c 0 t) (iblk V c 1 t) (iblk V c 2 t) hc) (ix2 j d)).trans key,
    (congrFun (accFirst_eq (F := Ideal) c (grid4.coords t) (ms0 t) (hs0 t) (ms1 t) (hs1 t) (ms2 t) (hs2 t) (ms3 t) (hs3 t) scM (Memref.isWhole_whole _) (iblk V c 0 t) (iblk V c 1 t) (iblk V c 2 t) hc) (ix2 j d)).trans key⟩

theorem point_next (c : Dev nD) (n : Nat) (hn : n + 1 < cfg4.N) (hc : ¬isFirst (grid4.coords ⟨n + 1, hn⟩))
    (j : Fin 2048) (d : Fin 64)
    (hprev : (outsAt V c n (Nat.lt_of_succ_lt hn)).2 (ix2 j d)
      = part V c ⟨n / 49 * 2048 + j.val, edge_lt n (Nat.lt_of_succ_lt hn) j⟩ d (n % 49 + 1)) :
    (outsAt V c (n + 1) hn).1 (ix2 j d)
        = part V c ⟨(n + 1) / 49 * 2048 + j.val, edge_lt (n + 1) hn j⟩ d ((n + 1) % 49 + 1)
      ∧ (outsAt V c (n + 1) hn).2 (ix2 j d)
        = part V c ⟨(n + 1) / 49 * 2048 + j.val, edge_lt (n + 1) hn j⟩ d ((n + 1) % 49 + 1) := by
  have hk : ((grid4.coords ⟨n + 1, hn⟩) 1).val = (n + 1) % 49 := Sched.coords4_1 ⟨n + 1, hn⟩
  have hne : (n + 1) % 49 ≠ 0 := fun h => hc (isFirst_of_coord _ (hk.trans h))
  have he : (⟨n / 49 * 2048 + j.val, edge_lt n (Nat.lt_of_succ_lt hn) j⟩ : Fin 1701888)
      = ⟨(n + 1) / 49 * 2048 + j.val, edge_lt (n + 1) hn j⟩ := Fin.ext (by dsimp only; omega)
  have hK : n % 49 + 1 = (n + 1) % 49 := by omega
  rw [he, hK] at hprev
  have key : k4_pay2 (grid4.coords ⟨n + 1, hn⟩) (sblk V c ⟨n + 1, hn⟩) (nblk V c ⟨n + 1, hn⟩) (yblk V c ⟨n + 1, hn⟩)
        (outsAt V c n (Nat.lt_of_succ_lt hn)).2 (ix2 j d)
      = part V c ⟨(n + 1) / 49 * 2048 + j.val, edge_lt (n + 1) hn j⟩ d ((n + 1) % 49 + 1) :=
    acc_step (sblk V c ⟨n + 1, hn⟩) (nblk V c ⟨n + 1, hn⟩) (yblk V c ⟨n + 1, hn⟩) (outsAt V c n (Nat.lt_of_succ_lt hn)).2
      (grid4.coords ⟨n + 1, hn⟩)
      (srcarr V c (ix2 (0 : Fin 1) ⟨(n + 1) / 49 * 2048 + j.val, edge_lt (n + 1) hn j⟩))
      (normarr V c (ix2 (0 : Fin 1) ⟨(n + 1) / 49 * 2048 + j.val, edge_lt (n + 1) hn j⟩))
      (fun m => yarr V c (ix2 m d)) ((n + 1) % 49) (Nat.mod_lt _ (by decide)) hk j d
      (sblk_apply V c ⟨n + 1, hn⟩ j) (nblk_apply V c ⟨n + 1, hn⟩ j) (fun r => yblk_apply V c ⟨n + 1, hn⟩ r d) hprev
  rw [show outsAt V c (n + 1) hn = nextAt V c ⟨n + 1, hn⟩ hc (outsAt V c n (Nat.lt_of_succ_lt hn)).2 from dif_neg hc]
  unfold nextAt leaves
  dsimp only
  exact ⟨(congrFun (outNext_eq (F := Ideal) c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (iblk V c 2 ⟨n + 1, hn⟩) hc (outsAt V c n (Nat.lt_of_succ_lt hn)).2) (ix2 j d)).trans key,
    (congrFun (accNext_eq (F := Ideal) c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (iblk V c 2 ⟨n + 1, hn⟩) hc (outsAt V c n (Nat.lt_of_succ_lt hn)).2) (ix2 j d)).trans key⟩

theorem outsAt_apply (c : Dev nD) : ∀ (n : Nat) (hn : n < cfg4.N) (j : Fin 2048) (d : Fin 64),
    (outsAt V c n hn).1 (ix2 j d) = part V c ⟨n / 49 * 2048 + j.val, edge_lt n hn j⟩ d (n % 49 + 1)
      ∧ (outsAt V c n hn).2 (ix2 j d) = part V c ⟨n / 49 * 2048 + j.val, edge_lt n hn j⟩ d (n % 49 + 1) := by
  intro n
  induction n with
  | zero =>
    intro hn j d
    exact point_first V c ⟨0, hn⟩ (isFirst_of_zero ⟨0, hn⟩ rfl) j d
  | succ n ih =>
    intro hn j d
    by_cases hc : isFirst (grid4.coords ⟨n + 1, hn⟩)
    · exact point_first V c ⟨n + 1, hn⟩ hc j d
    · exact point_next V c n hn hc j d (ih (Nat.lt_of_succ_lt hn) j d).2

def gathArr (c : Dev nD) : FVec Ideal S1701888x64 .f32 := fun i =>
  Cert.Bridge.gath (NP := 100352) (fun e' : Fin 1701888 => srcarr V c (ix2 (0 : Fin 1) e'))
    (fun e' => normarr V c (ix2 (0 : Fin 1) e')) (fun n d' => yarr V c (ix2 n d'))
    ⟨(i 0).val, idx2_lt0 i⟩ ⟨(i 1).val, idx2_lt1 i⟩

theorem gathArr_apply (c : Dev nD) (e : Fin 1701888) (d : Fin 64) :
    gathArr V c (ix2 e d) = Cert.Bridge.gath (NP := 100352) (fun e' : Fin 1701888 => srcarr V c (ix2 (0 : Fin 1) e'))
      (fun e' => normarr V c (ix2 (0 : Fin 1) e')) (fun n d' => yarr V c (ix2 n d')) e d := rfl

theorem flushed_eq (c : Dev nD) (t : Fin cfg4.N) (hf : (cfg4.win 3).flush t = true) :
    (dat (F := Ideal) V c).flushed 3 t = ((cfg4.win 3).blk t).view.read (Elt Ideal) (gathArr V c) := by
  have h48 : t.val % 49 = 48 := (Sched.flush4_3 t).mp hf
  show (cfg4.win 3).cut (grid4.coords t) ((dat (F := Ideal) V c).after 3 t) = _
  rw [after_3]
  funext jj
  obtain ⟨p, q, rfl⟩ : ∃ (p : Fin 2048) (q : Fin 64), jj = ix2 p q := ⟨jj 0, jj 1, @eq_ix2 2048 (64 : Nat) jj⟩
  show (outsAt V c t.val t.isLt).1 ((cfg4.win 3).xinj (grid4.coords t) (ix2 p q)) = _
  have h1 := (outsAt_apply V c t.val t.isLt p q).1
  rw [h48] at h1

  generalize hG : gathArr V c = G
  show _ = G (((cfg4.win 3).blk t).view.emb (ix2 p q))
  rw [emb_m, ← hG, gathArr_apply, ← part_full V c ⟨t.val / 49 * 2048 + p.val, edge_lt t.val t.isLt p⟩ q]
  refine Eq.trans ?_ h1
  exact congrArg _ (funext fun a => Fin.ext (by match a with | ⟨0, _⟩ => rfl | ⟨1, _⟩ => rfl))

theorem mem_blk_m (t : Fin cfg4.N) (i : S1701888x64.Idx) :
    i ∈ ((cfg4.win 3).blk t).view.set ↔ ∀ a : Fin 2, win4_3.index t a * S2048x64.size a ≤ (i a).val ∧ (i a).val < win4_3.index t a * S2048x64.size a + S2048x64.size a := by
  show i ∈ ((View.whole main_v42).slice (win4_3.rect t)).set ↔ _
  rw [View.set_slice_whole, Rect.mem_set_unit]
  exact Iff.rfl

theorem edges_covered (i : S1701888x64.Idx) :
    ∃ t : Fin cfg4.N, (cfg4.win 3).flush t = true ∧ i ∈ ((cfg4.win 3).blk t).view.set := by
  have hi0 : (i 0).val < 1701888 := (i 0).isLt
  have hi1 : (i 1).val < (64 : Nat) := (i 1).isLt
  let t : Fin cfg4.N := ⟨(i 0).val / 2048 * 49 + 48, Nat.lt_of_lt_of_eq (show (i 0).val / 2048 * 49 + 48 < 40719 by omega) N_4.symm⟩
  have ht : t.val = (i 0).val / 2048 * 49 + 48 := rfl
  refine ⟨t, (Sched.flush4_3 t).mpr (by rw [ht]; omega), ?_⟩
  have e0 : win4_3.index t (0 : Fin 2) = (i 0).val / 2048 :=
    (congrFun (Sched.index4_3 t) 0).trans (by show t.val / 49 = (i 0).val / 2048; rw [ht]; omega)
  have e1 : win4_3.index t (1 : Fin 2) = 0 := congrFun (Sched.index4_3 t) 1
  rw [mem_blk_m]
  intro a
  match a with
  | ⟨0, _⟩ => show win4_3.index t (0 : Fin 2) * 2048 ≤ (i 0).val ∧ (i 0).val < win4_3.index t (0 : Fin 2) * 2048 + 2048; rw [e0]; omega
  | ⟨1, _⟩ => show win4_3.index t (1 : Fin 2) * (64 : Nat) ≤ (i 1).val ∧ (i 1).val < win4_3.index t (1 : Fin 2) * (64 : Nat) + (64 : Nat); rw [e1]; omega

theorem final (c : Dev nD) : marr V c = gathArr V c :=
  (dat (F := Ideal) V c).arrAt_eq_of_cover 3 (gathArr V c) (fun t hf => flushed_eq V c t hf) edges_covered

theorem final_apply (c : Dev nD) (e : Fin 1701888) (d : Fin 64) :
    marr V c (ix2 e d)
      = Cert.Bridge.gath (NP := 100352) (fun e' : Fin 1701888 => srcarr V c (ix2 (0 : Fin 1) e'))
          (fun e' => normarr V c (ix2 (0 : Fin 1) e')) (fun n d' => yarr V c (ix2 n d')) e d := by
  rw [final V c, gathArr_apply]

end Cert.KernelIdeal.Gather4

end
-- ==== Proof.IdealRegions.Scatter5Value.lean ====
/- The scatter's output: partial sums over edge blocks reach the whole sum by destination, and the node blocks tile the nodes. -/
import proofs.«127098_j12489764897128_1_alg».proof.Proof.IdealRegions.Scatter5
import proofs.«127098_j12489764897128_1_alg».proof.Proof.IdealRegions.Sched
import proofs.«127098_j12489764897128_1_alg».proof.Proof.Bridge
import proofs.«127098_j12489764897128_1_alg».proof.Proof.IdealRegions.OneHot
import Idealize.ShloMosaic.Lib.Pipeline.Value
import Idealize.ShloMosaic.Lib.ValueIdx
import Idealize.ShloMosaic.Lib.ValueLayout
import Idealize.ShloMosaic.Lib.IdealHost
import Idealize.ShloMosaic.Lib.Affine
import Idealize.ShloMosaic.Lib.Tactic
import Idealize.ShloMosaic.PureOps.Ideal.Laws
import Mathlib.Algebra.BigOperators.Fin
import Mathlib.Algebra.BigOperators.Group.Finset.Basic

set_option maxRecDepth 16384

noncomputable section

namespace Cert.KernelIdeal.Scatter5

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat)
open scoped BigOperators
open Cert.KernelIdeal.OneHot

section Pieces

variable {F : FTy → Type} [FloatOps F]

theorem zero_offsets : (![0, 0] : Fin 2 → Nat) = fun _ => 0 := funext fun a => by fin_cases a <;> rfl

variable (c : Dev nD) (i : grid5.Coords) (arg2 : Memref sig .tc .vmem S2048x64 .f32) (harg2 : arg2.IsWhole)
  (arg3 : Memref sig .tc .vmem S1x2048 .i32) (harg3 : arg3.IsWhole) (arg4 : Memref sig .tc .vmem S1x64 .f32) (harg4 : arg4.IsWhole)
  (arg5 : Memref sig .tc .vmem S2048x64 .f32) (harg5 : arg5.IsWhole) (arg6 : Memref sig .tc .vmem S2048x64 .f32) (harg6 : arg6.IsWhole)
  (x0 : Vec F S2048x64 .f32) (x1 : Vec F S1x2048 .i32) (x2 : Vec F S1x64 .f32)

theorem accFirst_eq (hc : isFirst i) :
    VS.read (Elt F) (VS.writes (Elt F) VS.junk (runFirst c i arg2 harg2 arg3 harg3 arg4 harg4 arg5 harg5 arg6 harg6 x0 x1 x2 hc).2.1) = k5_pay2 i x1 x0 (k5_pay1 (F := F)) := by
  rw [View.read_writes_eq_canon _ _ _ (fun y => (coverFirst c i arg2 harg2 arg3 harg3 arg4 harg4 arg5 harg5 arg6 harg6 x0 x1 x2 hc y).2)]
  unfold runFirst
  dsimp only
  sl_unfold_words
  rw [View.canon_cons_unit_zero (S := S2048x64) zero_offsets]
  simp only [View.readAt_eq_ld, harg2.read_unread, harg3.read_unread, harg4.read_unread, harg6.read_unread, View.readCov_cons_toLoadRect, View.ld_unit_zero (S := S2048x64) zero_offsets, View.ld_unit_zero (S := S1x2048) zero_offsets, View.ld_unit_zero (S := S1x64) zero_offsets]

theorem outFirst_eq (hc : isFirst i) :
    VO.read (Elt F) (VO.writes (Elt F) VO.junk (runFirst c i arg2 harg2 arg3 harg3 arg4 harg4 arg5 harg5 arg6 harg6 x0 x1 x2 hc).1) = k5_pay3 (k5_pay2 i x1 x0 (k5_pay1 (F := F))) x2 := by
  rw [View.read_writes_eq_canon _ _ _ (fun y => (coverFirst c i arg2 harg2 arg3 harg3 arg4 harg4 arg5 harg5 arg6 harg6 x0 x1 x2 hc y).1)]
  unfold runFirst
  dsimp only
  sl_unfold_words
  rw [View.canon_unit_zero (S := S2048x64) zero_offsets]
  simp only [View.readAt_eq_ld, harg2.read_unread, harg3.read_unread, harg4.read_unread, harg6.read_unread, View.readCov_cons_toLoadRect, View.ld_unit_zero (S := S2048x64) zero_offsets, View.ld_unit_zero (S := S1x2048) zero_offsets, View.ld_unit_zero (S := S1x64) zero_offsets]

theorem accNext_eq (hc : ¬isFirst i) (xs : Vec F S2048x64 .f32) :
    VS.read (Elt F) (VS.writes (Elt F) VS.junk (runNext c i arg2 harg2 arg3 harg3 arg4 harg4 arg5 harg5 arg6 harg6 x0 x1 x2 hc xs).2.1) = k5_pay2 i x1 x0 xs := by
  rw [View.read_writes_eq_canon _ _ _ (fun y => (coverNext c i arg2 harg2 arg3 harg3 arg4 harg4 arg5 harg5 arg6 harg6 x0 x1 x2 hc xs y).2)]
  unfold runNext
  dsimp only
  sl_unfold_words
  rw [View.canon_unit_zero (S := S2048x64) zero_offsets]
  simp only [View.readAt_eq_ld, harg2.read_unread, harg3.read_unread, harg4.read_unread, harg6.read_unread, View.readCov_cons_toLoadRect, View.ld_unit_zero (S := S2048x64) zero_offsets, View.ld_unit_zero (S := S1x2048) zero_offsets, View.ld_unit_zero (S := S1x64) zero_offsets]

theorem outNext_eq (hc : ¬isFirst i) (xs : Vec F S2048x64 .f32) :
    VO.read (Elt F) (VO.writes (Elt F) VO.junk (runNext c i arg2 harg2 arg3 harg3 arg4 harg4 arg5 harg5 arg6 harg6 x0 x1 x2 hc xs).1) = k5_pay3 (k5_pay2 i x1 x0 xs) x2 := by
  rw [View.read_writes_eq_canon _ _ _ (fun y => (coverNext c i arg2 harg2 arg3 harg3 arg4 harg4 arg5 harg5 arg6 harg6 x0 x1 x2 hc xs y).1)]
  unfold runNext
  dsimp only
  sl_unfold_words
  rw [View.canon_unit_zero (S := S2048x64) zero_offsets]
  simp only [View.readAt_eq_ld, harg2.read_unread, harg3.read_unread, harg4.read_unread, harg6.read_unread, View.readCov_cons_toLoadRect, View.ld_unit_zero (S := S2048x64) zero_offsets, View.ld_unit_zero (S := S1x2048) zero_offsets, View.ld_unit_zero (S := S1x64) zero_offsets]

end Pieces

theorem lhs_row (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl

theorem lhs_col (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q

theorem rhs_row (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q

theorem rhs_col (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

theorem pay1_apply (p : Fin 2048) (d : Fin 64) : (k5_pay1 (F := Ideal)) (ix2 p d) = 0 := by
  unfold k5_pay1
  simp only [shapeCast_self]
  exact Ideal.ofBits_zero_f32

theorem pay2_apply (i : grid5.Coords) (dst : IVec S1x2048 32) (msg : FVec Ideal S2048x64 .f32) (acc : FVec Ideal S2048x64 .f32)
    (p : Fin 2048) (d : Fin 64) :
    k5_pay2 i dst msg acc (ix2 p d)
      = acc (ix2 p d) + ∑ j : Fin 2048, (if BitVec.ofNat 32 ((i 0).val * 2048 + p.val) = dst (ix2 (0 : Fin 1) j) then (1 : EReal) else 0) * msg (ix2 j d) := by
  unfold k5_pay2
  simp only [shapeCast_self, matmul]
  refine congrArg (fun z => acc (ix2 p d) + z) ?_
  rw [Ideal.matmul_constant_zero_apply, ← Equiv.sum_comp (ValueIdx.contrEquiv1 dot_S2048x2048_S2048x64_S2048x64_1_0_0_1_n_n 2048 rfl rfl).symm]
  refine Finset.sum_congr rfl fun j _ => ?_
  have hk := ValueIdx.contrEquiv1_symm_val dot_S2048x2048_S2048x64_S2048x64_1_0_0_1_n_n 2048 rfl rfl j
  have el : dot_S2048x2048_S2048x64_S2048x64_1_0_0_1_n_n.lhsIdx (ix2 p d) ((ValueIdx.contrEquiv1 dot_S2048x2048_S2048x64_S2048x64_1_0_0_1_n_n 2048 rfl rfl).symm j) = ix2 p j := funext fun a => Fin.ext (by
    match a with
    | ⟨0, _⟩ => exact lhs_row _ _
    | ⟨1, _⟩ => exact (lhs_col _ _).trans hk)
  have er : dot_S2048x2048_S2048x64_S2048x64_1_0_0_1_n_n.rhsIdx (ix2 p d) ((ValueIdx.contrEquiv1 dot_S2048x2048_S2048x64_S2048x64_1_0_0_1_n_n 2048 rfl rfl).symm j) = ix2 j d := funext fun a => Fin.ext (by
    match a with
    | ⟨0, _⟩ => exact (rhs_row _ _).trans hk
    | ⟨1, _⟩ => exact rhs_col _ _)
  rw [el, er]
  have hrow : broadcastTo S2048x2048 (addi (broadcast S2048x1 (Scalar.muli (BitVec.ofNat 32 (i 0).val) 2048#32)) (iota Kind.tc S2048x1 32 [0] iota_S2048x1_d0_w32)) broadcasts_S2048x1_S2048x2048 (ix2 p j)
      = BitVec.ofNat 32 ((i 0).val * 2048 + p.val) := by
    refine (broadcastTo_apply _ broadcasts_S2048x1_S2048x2048 (ix2 p j) (ix2 p (0 : Fin 1)) fun ax => ?_).trans ?_
    · match ax with
      | ⟨0, _⟩ => rfl
      | ⟨1, _⟩ => rfl
    · show IntOp.addi (Scalar.muli (BitVec.ofNat 32 (i 0).val) 2048#32) (iota Kind.tc S2048x1 32 [0] iota_S2048x1_d0_w32 (ix2 p (0 : Fin 1))) = _
      rw [iota_single_apply]
      exact nodeWord _ _
  have hcol : broadcastTo S2048x2048 dst broadcasts_S1x2048_S2048x2048 (ix2 p j) = dst (ix2 (0 : Fin 1) j) :=
    broadcastTo_1b_ab_apply dst broadcasts_S1x2048_S2048x2048 p j
  show Scalar.select (IntOp.cmpi .eq
        (broadcastTo S2048x2048 (addi (broadcast S2048x1 (Scalar.muli (BitVec.ofNat 32 (i 0).val) 2048#32)) (iota Kind.tc S2048x1 32 [0] iota_S2048x1_d0_w32)) broadcasts_S2048x1_S2048x2048 (ix2 p j))
        (broadcastTo S2048x2048 dst broadcasts_S1x2048_S2048x2048 (ix2 p j)))
      (Ideal.ofBits .bf16 0x3F80#16) (Ideal.ofBits .bf16 0x0000#16) * msg (ix2 j d) = _
  rw [hrow, hcol, one_hot]

theorem pay3_apply (a : FVec Ideal S2048x64 .f32) (b : FVec Ideal S1x64 .f32) (p : Fin 2048) (d : Fin 64) :
    k5_pay3 a b (ix2 p d) = max (a (ix2 p d) + b (ix2 (0 : Fin 1) d)) 0 := by
  unfold k5_pay3
  simp only [shapeCast_self]
  show max (a (ix2 p d) + broadcastTo S2048x64 b broadcasts_S1x64_S2048x64 (ix2 p d)) (Ideal.ofBits .f32 0x00000000#32) = _
  rw [broadcastTo_1b_ab_apply, Ideal.ofBits_zero_f32]

variable (V : (c : Dev nD) → (b : Ref sig .tc) → Buf (Elt Ideal) ((c : Thread nD τ).loc b))

abbrev marr (c : Dev nD) : FVec Ideal S1701888x64 .f32 := V c main_v42
abbrev dstarr (c : Dev nD) : IVec S1x1701888 32 := V c main_v34
abbrev barr (c : Dev nD) : FVec Ideal S1x64 .f32 := V c main_v43
abbrev harr (c : Dev nD) : FVec Ideal S100352x64 .f32 := (dat (F := Ideal) V c).arrAt 3 cfg5.N

abbrev mblk (c : Dev nD) (t : Fin cfg5.N) : FVec Ideal S2048x64 .f32 := iblk V c 0 t
abbrev dblk (c : Dev nD) (t : Fin cfg5.N) : IVec S1x2048 32 := iblk V c 1 t
abbrev bblk (c : Dev nD) (t : Fin cfg5.N) : FVec Ideal S1x64 .f32 := iblk V c 2 t

abbrev accv (c : Dev nD) (n : ℕ) (hn : n < cfg5.N) : FVec Ideal S2048x64 .f32 := (outsAt (F := Ideal) V c n hn).2
abbrev outv (c : Dev nD) (n : ℕ) (hn : n < cfg5.N) : FVec Ideal S2048x64 .f32 := (outsAt (F := Ideal) V c n hn).1

theorem index_m (t : Fin cfg5.N) : (cfg5.win 0).index t = ![t.val % 831, 0] := by
  have ht := Sched.point5_lt t
  show cc5_transform_0 (grid5.coords t) = ![t.val % 831, 0]
  unfold cc5_transform_0
  simp only [Sched.coords5_1 t, BitVec.toNat_ofNat]
  rw [Nat.mod_eq_of_lt (show t.val % 831 < 2 ^ 32 by omega)]

theorem index_d (t : Fin cfg5.N) : (cfg5.win 1).index t = ![0, t.val % 831] := by
  have ht := Sched.point5_lt t
  show cc5_transform_1 (grid5.coords t) = ![0, t.val % 831]
  unfold cc5_transform_1
  simp only [Sched.coords5_1 t, BitVec.toNat_ofNat]
  rw [Nat.mod_eq_of_lt (show t.val % 831 < 2 ^ 32 by omega)]

theorem index_b (t : Fin cfg5.N) : (cfg5.win 2).index t = ![0, 0] := by
  show cc5_transform_2 (grid5.coords t) = ![0, 0]
  unfold cc5_transform_2
  rfl

theorem edge_lt (t : Fin cfg5.N) (j : Fin 2048) : t.val % 831 * 2048 + j.val < 1701888 := by
  have hj := j.isLt
  have hm : t.val % 831 < 831 := Nat.mod_lt _ (by decide)
  omega

theorem node_lt (t : Fin cfg5.N) (p : Fin 2048) : t.val / 831 * 2048 + p.val < 100352 := by
  have ht := Sched.point5_lt t
  have hp := p.isLt
  omega

theorem emb_m (t : Fin cfg5.N) (j : Fin 2048) (d : Fin 64) :
    ((cfg5.win 0).blk t).view.emb (ix2 j d) = (ix2 ⟨t.val % 831 * 2048 + j.val, edge_lt t j⟩ d : S1701888x64.Idx) := by
  have e0 : win5_0.index t (0 : Fin 2) = t.val % 831 := congrFun (index_m t) 0
  have e1 : win5_0.index t (1 : Fin 2) = 0 := congrFun (index_m t) 1
  funext a; apply Fin.ext
  match a with
  | ⟨0, _⟩ => show win5_0.index t (0 : Fin 2) * 2048 + 1 * j.val = t.val % 831 * 2048 + j.val; rw [e0]; omega
  | ⟨1, _⟩ => show win5_0.index t (1 : Fin 2) * (64 : Nat) + 1 * d.val = d.val; rw [e1]; omega

theorem emb_d (t : Fin cfg5.N) (j : Fin 2048) :
    ((cfg5.win 1).blk t).view.emb (ix2 (0 : Fin 1) j) = (ix2 (0 : Fin 1) ⟨t.val % 831 * 2048 + j.val, edge_lt t j⟩ : S1x1701888.Idx) := by
  have e0 : win5_1.index t (0 : Fin 2) = 0 := congrFun (index_d t) 0
  have e1 : win5_1.index t (1 : Fin 2) = t.val % 831 := congrFun (index_d t) 1
  funext a; apply Fin.ext
  match a with
  | ⟨0, _⟩ => show win5_1.index t (0 : Fin 2) * 1 + 1 * 0 = 0; rw [e0]
  | ⟨1, _⟩ => show win5_1.index t (1 : Fin 2) * 2048 + 1 * j.val = t.val % 831 * 2048 + j.val; rw [e1]; omega

theorem emb_b (t : Fin cfg5.N) (d : Fin 64) :
    ((cfg5.win 2).blk t).view.emb (ix2 (0 : Fin 1) d) = (ix2 (0 : Fin 1) d : S1x64.Idx) := by
  have e0 : win5_2.index t (0 : Fin 2) = 0 := congrFun (index_b t) 0
  have e1 : win5_2.index t (1 : Fin 2) = 0 := congrFun (index_b t) 1
  funext a; apply Fin.ext
  match a with
  | ⟨0, _⟩ => show win5_2.index t (0 : Fin 2) * 1 + 1 * 0 = 0; rw [e0]
  | ⟨1, _⟩ => show win5_2.index t (1 : Fin 2) * (64 : Nat) + 1 * d.val = d.val; rw [e1]; omega

theorem emb_h (t : Fin cfg5.N) (p : Fin 2048) (d : Fin 64) :
    ((cfg5.win 3).blk t).view.emb (ix2 p d) = (ix2 ⟨t.val / 831 * 2048 + p.val, node_lt t p⟩ d : S100352x64.Idx) := by
  have e0 : win5_3.index t (0 : Fin 2) = t.val / 831 := congrFun (Sched.index5_3 t) 0
  have e1 : win5_3.index t (1 : Fin 2) = 0 := congrFun (Sched.index5_3 t) 1
  funext a; apply Fin.ext
  match a with
  | ⟨0, _⟩ => show win5_3.index t (0 : Fin 2) * 2048 + 1 * p.val = t.val / 831 * 2048 + p.val; rw [e0]; omega
  | ⟨1, _⟩ => show win5_3.index t (1 : Fin 2) * (64 : Nat) + 1 * d.val = d.val; rw [e1]; omega

theorem mblk_apply (c : Dev nD) (t : Fin cfg5.N) (j : Fin 2048) (d : Fin 64) :
    mblk V c t (ix2 j d) = marr V c (ix2 ⟨t.val % 831 * 2048 + j.val, edge_lt t j⟩ d) := by
  show V c main_v42 (((cfg5.win 0).blk t).view.emb (ix2 j d)) = V c main_v42 _
  rw [emb_m]

theorem dblk_apply (c : Dev nD) (t : Fin cfg5.N) (j : Fin 2048) :
    dblk V c t (ix2 (0 : Fin 1) j) = dstarr V c (ix2 (0 : Fin 1) ⟨t.val % 831 * 2048 + j.val, edge_lt t j⟩) := by
  show V c main_v34 (((cfg5.win 1).blk t).view.emb (ix2 (0 : Fin 1) j)) = V c main_v34 _
  rw [emb_d]

theorem bblk_apply (c : Dev nD) (t : Fin cfg5.N) (d : Fin 64) :
    bblk V c t (ix2 (0 : Fin 1) d) = barr V c (ix2 (0 : Fin 1) d) := by
  show V c main_v43 (((cfg5.win 2).blk t).view.emb (ix2 (0 : Fin 1) d)) = V c main_v43 _
  rw [emb_b]

theorem not_isFirst_of_coord (i : grid5.Coords) (h : (i 1).val ≠ 0) : ¬isFirst i := by
  have hlt : (i 1).val < 831 := (i 1).isLt
  have hne : ¬BitVec.ofNat 32 (i 1).val = 0#32 := fun e => h (by
    have h2 : (i 1).val % 2 ^ 32 = 0 := by rw [← BitVec.toNat_ofNat]; exact congrArg BitVec.toNat e
    omega)
  unfold isFirst
  rw [show Scalar.cmpi .eq (BitVec.ofNat 32 (i 1).val) 0#32 = 0#1 from eq_zero_of_ne_one (fun e => hne (IntOp.cmpi_eq.mp e))]
  decide

theorem accv_first (c : Dev nD) (t : Fin cfg5.N) (hc : isFirst (grid5.coords t)) :
    accv V c t.val t.isLt = k5_pay2 (grid5.coords t) (dblk V c t) (mblk V c t) (k5_pay1 (F := Ideal)) := by
  show (outsAt V c t.val t.isLt).2 = _
  rw [outsAt_first V c t hc]
  unfold firstAt leaves
  dsimp only
  exact accFirst_eq (F := Ideal) c (grid5.coords t) (ms0 t) (hs0 t) (ms1 t) (hs1 t) (ms2 t) (hs2 t) (ms3 t) (hs3 t) scM (Memref.isWhole_whole _) (iblk V c 0 t) (iblk V c 1 t) (iblk V c 2 t) hc

theorem accv_next (c : Dev nD) (m : ℕ) (hn : m + 1 < cfg5.N) (hc : ¬isFirst (grid5.coords (⟨m + 1, hn⟩ : Fin cfg5.N))) :
    accv V c (m + 1) hn
      = k5_pay2 (grid5.coords (⟨m + 1, hn⟩ : Fin cfg5.N)) (dblk V c ⟨m + 1, hn⟩) (mblk V c ⟨m + 1, hn⟩) (accv V c m (Nat.lt_of_succ_lt hn)) := by
  show (outsAt V c (m + 1) hn).2 = _
  rw [show outsAt V c (m + 1) hn = nextAt V c ⟨m + 1, hn⟩ hc (outsAt V c m (Nat.lt_of_succ_lt hn)).2 from dif_neg hc]
  unfold nextAt leaves
  dsimp only
  exact accNext_eq (F := Ideal) c (grid5.coords (⟨m + 1, hn⟩ : Fin cfg5.N)) (ms0 ⟨m + 1, hn⟩) (hs0 ⟨m + 1, hn⟩) (ms1 ⟨m + 1, hn⟩) (hs1 ⟨m + 1, hn⟩) (ms2 ⟨m + 1, hn⟩) (hs2 ⟨m + 1, hn⟩) (ms3 ⟨m + 1, hn⟩) (hs3 ⟨m + 1, hn⟩) scM (Memref.isWhole_whole _) (iblk V c 0 ⟨m + 1, hn⟩) (iblk V c 1 ⟨m + 1, hn⟩) (iblk V c 2 ⟨m + 1, hn⟩) hc (outsAt V c m (Nat.lt_of_succ_lt hn)).2

theorem outv_eq (c : Dev nD) (t : Fin cfg5.N) :
    outv V c t.val t.isLt = k5_pay3 (accv V c t.val t.isLt) (bblk V c t) := by
  show (outsAt V c t.val t.isLt).1 = k5_pay3 (outsAt V c t.val t.isLt).2 (iblk V c 2 t)
  by_cases hc : isFirst (grid5.coords t)
  · rw [outsAt_first V c t hc]
    unfold firstAt leaves
    dsimp only
    exact (outFirst_eq (F := Ideal) c (grid5.coords t) (ms0 t) (hs0 t) (ms1 t) (hs1 t) (ms2 t) (hs2 t) (ms3 t) (hs3 t) scM (Memref.isWhole_whole _) (iblk V c 0 t) (iblk V c 1 t) (iblk V c 2 t) hc).trans
      (congrArg (fun a => k5_pay3 a (iblk V c 2 t)) (accFirst_eq (F := Ideal) c (grid5.coords t) (ms0 t) (hs0 t) (ms1 t) (hs1 t) (ms2 t) (hs2 t) (ms3 t) (hs3 t) scM (Memref.isWhole_whole _) (iblk V c 0 t) (iblk V c 1 t) (iblk V c 2 t) hc).symm)
  · have hz : t.val ≠ 0 := fun h0 => hc (isFirst_of_zero t h0)
    rw [outsAt_next V c t hz hc]
    unfold nextAt leaves
    dsimp only
    exact (outNext_eq (F := Ideal) c (grid5.coords t) (ms0 t) (hs0 t) (ms1 t) (hs1 t) (ms2 t) (hs2 t) (ms3 t) (hs3 t) scM (Memref.isWhole_whole _) (iblk V c 0 t) (iblk V c 1 t) (iblk V c 2 t) hc (outsAt V c (t.val - 1) (Nat.lt_of_le_of_lt (Nat.sub_le _ _) t.isLt)).2).trans
      (congrArg (fun a => k5_pay3 a (iblk V c 2 t)) (accNext_eq (F := Ideal) c (grid5.coords t) (ms0 t) (hs0 t) (ms1 t) (hs1 t) (ms2 t) (hs2 t) (ms3 t) (hs3 t) scM (Memref.isWhole_whole _) (iblk V c 0 t) (iblk V c 1 t) (iblk V c 2 t) hc (outsAt V c (t.val - 1) (Nat.lt_of_le_of_lt (Nat.sub_le _ _) t.isLt)).2).symm)

def term (c : Dev nD) (nd : ℕ) (d : Fin 64) (e : ℕ) : EReal :=
  if h : e < 1701888 then
    (if BitVec.ofNat 32 nd = dstarr V c (ix2 (0 : Fin 1) ⟨e, h⟩) then (1 : EReal) else 0) * marr V c (ix2 ⟨e, h⟩ d)
  else 0

theorem block_sum (c : Dev nD) (t : Fin cfg5.N) (nd : ℕ) (d : Fin 64) :
    ∑ j : Fin 2048, (if BitVec.ofNat 32 nd = dblk V c t (ix2 (0 : Fin 1) j) then (1 : EReal) else 0) * mblk V c t (ix2 j d)
      = ∑ x ∈ Finset.range 2048, term V c nd d (t.val % 831 * 2048 + x) := by
  rw [Finset.sum_range]
  refine Finset.sum_congr rfl fun j _ => ?_
  unfold term
  rw [dif_pos (edge_lt t j), dblk_apply, mblk_apply]

theorem acc_apply (c : Dev nD) : ∀ (n : ℕ) (hn : n < cfg5.N) (p : Fin 2048) (d : Fin 64),
    accv V c n hn (ix2 p d) = ∑ e ∈ Finset.range (n % 831 * 2048 + 2048), term V c (n / 831 * 2048 + p.val) d e := by
  intro n
  induction n with
  | zero =>
    intro hn p d
    have hc : isFirst (grid5.coords (⟨0, hn⟩ : Fin cfg5.N)) := isFirst_of_zero ⟨0, hn⟩ rfl
    have hc0 : ((grid5.coords (⟨0, hn⟩ : Fin cfg5.N)) 0).val = 0 / 831 := Sched.coords5_0 ⟨0, hn⟩
    have e1 := pay2_apply (grid5.coords (⟨0, hn⟩ : Fin cfg5.N)) (dblk V c ⟨0, hn⟩) (mblk V c ⟨0, hn⟩) (k5_pay1 (F := Ideal)) p d
    rw [pay1_apply, zero_add, hc0, block_sum V c ⟨0, hn⟩ (0 / 831 * 2048 + p.val) d] at e1
    have e2 : accv V c 0 hn = k5_pay2 (grid5.coords (⟨0, hn⟩ : Fin cfg5.N)) (dblk V c ⟨0, hn⟩) (mblk V c ⟨0, hn⟩) (k5_pay1 (F := Ideal)) :=
      accv_first V c ⟨0, hn⟩ hc
    rw [e2, e1, Finset.sum_range_add]
    have hz : ∑ x ∈ Finset.range (0 % 831 * 2048), term V c (0 / 831 * 2048 + p.val) d x = 0 := Finset.sum_range_zero _
    rw [hz, zero_add]
  | succ m ih =>
    intro hn p d
    have hc0 : ((grid5.coords (⟨m + 1, hn⟩ : Fin cfg5.N)) 0).val = (m + 1) / 831 := Sched.coords5_0 ⟨m + 1, hn⟩
    have hc1 : ((grid5.coords (⟨m + 1, hn⟩ : Fin cfg5.N)) 1).val = (m + 1) % 831 := Sched.coords5_1 ⟨m + 1, hn⟩
    by_cases h0 : (m + 1) % 831 = 0
    · have hc : isFirst (grid5.coords (⟨m + 1, hn⟩ : Fin cfg5.N)) := isFirst_of_coord _ (hc1.trans h0)
      have e1 := pay2_apply (grid5.coords (⟨m + 1, hn⟩ : Fin cfg5.N)) (dblk V c ⟨m + 1, hn⟩) (mblk V c ⟨m + 1, hn⟩) (k5_pay1 (F := Ideal)) p d
      rw [pay1_apply, zero_add, hc0, block_sum V c ⟨m + 1, hn⟩ ((m + 1) / 831 * 2048 + p.val) d] at e1
      have e2 : accv V c (m + 1) hn = k5_pay2 (grid5.coords (⟨m + 1, hn⟩ : Fin cfg5.N)) (dblk V c ⟨m + 1, hn⟩) (mblk V c ⟨m + 1, hn⟩) (k5_pay1 (F := Ideal)) :=
        accv_first V c ⟨m + 1, hn⟩ hc
      rw [e2, e1, Finset.sum_range_add]
      have hz : ∑ x ∈ Finset.range ((m + 1) % 831 * 2048), term V c ((m + 1) / 831 * 2048 + p.val) d x = 0 := by
        rw [h0, Nat.zero_mul]; exact Finset.sum_range_zero _
      rw [hz, zero_add]
    · have hc : ¬isFirst (grid5.coords (⟨m + 1, hn⟩ : Fin cfg5.N)) := not_isFirst_of_coord _ (by rw [hc1]; exact h0)
      have e1 := pay2_apply (grid5.coords (⟨m + 1, hn⟩ : Fin cfg5.N)) (dblk V c ⟨m + 1, hn⟩) (mblk V c ⟨m + 1, hn⟩) (accv V c m (Nat.lt_of_succ_lt hn)) p d
      rw [ih (Nat.lt_of_succ_lt hn) p d, hc0, block_sum V c ⟨m + 1, hn⟩ ((m + 1) / 831 * 2048 + p.val) d] at e1
      have a1 : m % 831 * 2048 + 2048 = (m + 1) % 831 * 2048 := by omega
      have a2 : m / 831 = (m + 1) / 831 := by omega
      rw [accv_next V c m hn hc, e1, a1, a2, Finset.sum_range_add]

def scatArr (c : Dev nD) : FVec Ideal S100352x64 .f32 := fun j =>
  Cert.Bridge.scat (EP := 1701888) (fun e : Fin 1701888 => dstarr V c (ix2 (0 : Fin 1) e))
    (fun e d' => marr V c (ix2 e d')) (fun d' => barr V c (ix2 (0 : Fin 1) d'))
    (⟨(j 0).val, idx2_lt0 j⟩ : Fin 100352) (⟨(j 1).val, idx2_lt1 j⟩ : Fin 64)

theorem scatArr_apply (c : Dev nD) (n : Fin 100352) (d : Fin 64) :
    scatArr V c (ix2 n d)
      = Cert.Bridge.scat (EP := 1701888) (fun e : Fin 1701888 => dstarr V c (ix2 (0 : Fin 1) e))
          (fun e d' => marr V c (ix2 e d')) (fun d' => barr V c (ix2 (0 : Fin 1) d')) n d := rfl

attribute [irreducible] scatArr

theorem point_apply (c : Dev nD) (t : Fin cfg5.N) (h830 : t.val % 831 = 830) (p : Fin 2048) (d : Fin 64) :
    outv V c t.val t.isLt (ix2 p d) = scatArr V c (ix2 ⟨t.val / 831 * 2048 + p.val, node_lt t p⟩ d) := by
  rw [outv_eq V c t, scatArr_apply]
  refine (pay3_apply (accv V c t.val t.isLt) (bblk V c t) p d).trans ?_
  rw [acc_apply V c t.val t.isLt p d, bblk_apply, h830]
  unfold Cert.Bridge.scat
  refine congrArg (fun z => max (z + barr V c (ix2 (0 : Fin 1) d)) 0) ?_
  rw [show 830 * 2048 + 2048 = 1701888 from rfl, Finset.sum_range]
  refine Finset.sum_congr rfl fun e _ => ?_
  unfold term
  rw [dif_pos e.isLt]

theorem read_blk_apply (G : FVec Ideal S100352x64 .f32) (t : Fin cfg5.N) (p : Fin 2048) (q : Fin 64) :
    ((cfg5.win 3).blk t).view.read (Elt Ideal) G (ix2 p q) = G (ix2 ⟨t.val / 831 * 2048 + p.val, node_lt t p⟩ q) := by
  show G (((cfg5.win 3).blk t).view.emb (ix2 p q)) = _
  rw [emb_h]

theorem cut_apply (X : FVec Ideal S2048x64 .f32) (t : Fin cfg5.N) (p : Fin 2048) (q : Fin 64) :
    (cfg5.win 3).cut (grid5.coords t) X (ix2 p q) = X (ix2 p q) := by
  show X ((cfg5.win 3).xinj (grid5.coords t) (ix2 p q)) = X (ix2 p q)
  exact congrArg X (funext fun a => Fin.ext (by match a with | ⟨0, _⟩ => rfl | ⟨1, _⟩ => rfl))

theorem flushed_eq (c : Dev nD) (t : Fin cfg5.N) (hf : (cfg5.win 3).flush t = true) :
    (dat (F := Ideal) V c).flushed 3 t = ((cfg5.win 3).blk t).view.read (Elt Ideal) (scatArr V c) := by
  have h830 : t.val % 831 = 830 := (Sched.flush5_3 t).mp hf
  show (cfg5.win 3).cut (grid5.coords t) ((dat (F := Ideal) V c).after 3 t) = _
  rw [after_3]
  funext j
  obtain ⟨p, q, rfl⟩ : ∃ (p : Fin 2048) (q : Fin 64), j = ix2 p q := ⟨j 0, j 1, @eq_ix2 2048 (64 : Nat) j⟩
  exact (cut_apply (outv V c t.val t.isLt) t p q).trans
    ((point_apply V c t h830 p q).trans (read_blk_apply (scatArr V c) t p q).symm)

theorem mem_blk_h (t : Fin cfg5.N) (i : S100352x64.Idx) :
    i ∈ ((cfg5.win 3).blk t).view.set ↔ ∀ a : Fin 2, win5_3.index t a * S2048x64.size a ≤ (i a).val ∧ (i a).val < win5_3.index t a * S2048x64.size a + S2048x64.size a := by
  show i ∈ ((View.whole main_v44).slice (win5_3.rect t)).set ↔ _
  rw [View.set_slice_whole, Rect.mem_set_unit]
  exact Iff.rfl

theorem nodes_covered (i : S100352x64.Idx) :
    ∃ t : Fin cfg5.N, (cfg5.win 3).flush t = true ∧ i ∈ ((cfg5.win 3).blk t).view.set := by
  have hi0 : (i 0).val < 100352 := (i 0).isLt
  have hi1 : (i 1).val < (64 : Nat) := (i 1).isLt
  let t : Fin cfg5.N := ⟨(i 0).val / 2048 * 831 + 830, Nat.lt_of_lt_of_eq (show (i 0).val / 2048 * 831 + 830 < 40719 by omega) N_5.symm⟩
  have hq : t.val / 831 = (i 0).val / 2048 := by show ((i 0).val / 2048 * 831 + 830) / 831 = (i 0).val / 2048; omega
  refine ⟨t, (Sched.flush5_3 t).mpr (by show ((i 0).val / 2048 * 831 + 830) % 831 = 830; omega), ?_⟩
  have e0 : win5_3.index t (0 : Fin 2) = (i 0).val / 2048 := (congrFun (Sched.index5_3 t) 0).trans hq
  have e1 : win5_3.index t (1 : Fin 2) = 0 := congrFun (Sched.index5_3 t) 1
  rw [mem_blk_h]
  intro a
  match a with
  | ⟨0, _⟩ => show win5_3.index t (0 : Fin 2) * 2048 ≤ (i 0).val ∧ (i 0).val < win5_3.index t (0 : Fin 2) * 2048 + 2048; rw [e0]; omega
  | ⟨1, _⟩ => show win5_3.index t (1 : Fin 2) * (64 : Nat) ≤ (i 1).val ∧ (i 1).val < win5_3.index t (1 : Fin 2) * (64 : Nat) + (64 : Nat); rw [e1]; omega

theorem final (c : Dev nD) : harr V c = scatArr V c :=
  (dat (F := Ideal) V c).arrAt_eq_of_cover 3 (scatArr V c) (fun t hf => flushed_eq V c t hf) nodes_covered

theorem final_apply (c : Dev nD) (n : Fin 100352) (d : Fin 64) :
    harr V c (ix2 n d)
      = Cert.Bridge.scat (EP := 1701888) (fun e : Fin 1701888 => dstarr V c (ix2 (0 : Fin 1) e))
          (fun e d' => marr V c (ix2 e d')) (fun d' => barr V c (ix2 (0 : Fin 1) d')) n d := by
  rw [final V c, scatArr_apply]

end Cert.KernelIdeal.Scatter5

end
-- ==== Proof.IdealRegions.NetValue.lean ====
/- The result after the run is the specification's network: the six regions chained, padding contributing nothing. -/
import proofs.«127098_j12489764897128_1_alg».proof.Proof.IdealRegions.Run
import proofs.«127098_j12489764897128_1_alg».proof.Proof.IdealRegions.PaddedReads
import proofs.«127098_j12489764897128_1_alg».proof.Proof.IdealRegions.SrcRange
import proofs.«127098_j12489764897128_1_alg».proof.Proof.IdealRegions.Proj0Value
import proofs.«127098_j12489764897128_1_alg».proof.Proof.IdealRegions.Proj3Value
import proofs.«127098_j12489764897128_1_alg».proof.Proof.Bridge
import proofs.«127098_j12489764897128_1_alg».proof.Proof.IdealRegions.Gather1Value
import proofs.«127098_j12489764897128_1_alg».proof.Proof.IdealRegions.Scatter2Value
import proofs.«127098_j12489764897128_1_alg».proof.Proof.IdealRegions.Gather4Value
import proofs.«127098_j12489764897128_1_alg».proof.Proof.IdealRegions.Scatter5Value

set_option maxRecDepth 16384

noncomputable section

namespace Cert.KernelIdeal.NetValue

open Cert.KernelIdeal Cert.KernelIdeal.Gen
open Idealize.ShloMosaic Idealize.ShloMosaic.TcCoe Idealize.ShloMosaic.ValueIdx
open Idealize.SL Idealize.SL.Sem
open scoped BigOperators

section HostStretches

variable {F : FTy → Type} [FloatOps F]

theorem after2_v39 (W : Valuation τ sig (Elt F)) :
    (StableHlo.after hostOps2 W main_v39 : FVec F S1x128 .f32)
      = shapeCast S1x128 (W main_arg3 : FVec F S128 .f32) shapeCasts_S128_S1x128 := by
  after_results; rfl

theorem after5_v43 (W : Valuation τ sig (Elt F)) :
    (StableHlo.after hostOps5 W main_v43 : FVec F S1x64 .f32)
      = shapeCast S1x64 (W main_arg5 : FVec F S64 .f32) shapeCasts_S64_S1x64 := by
  after_results; rfl

theorem after6_v45 (W : Valuation τ sig (Elt F)) :
    (StableHlo.after hostOps6 W main_v45 : FVec F S100000x64 .f32)
      = extractStridedSlice S100000x64 ![0, 0] (W main_v44 : FVec F S100352x64 .f32) slices_S100352x64_S100000x64_0_0 := by
  after_results

end HostStretches

variable (m : (ℓ : Loc nD τ sig) → Buf (Elt Ideal) ℓ)

theorem V10_arg3 (c : Dev nD) : Gen.V10 m c main_arg3 = m ((c.tc : Thread nD τ).loc main_arg3) :=
  (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem V10_arg4 (c : Dev nD) : Gen.V10 m c main_arg4 = m ((c.tc : Thread nD τ).loc main_arg4) :=
  (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem V10_arg5 (c : Dev nD) : Gen.V10 m c main_arg5 = m ((c.tc : Thread nD τ).loc main_arg5) :=
  (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl

theorem U11_keep (c : Dev nD) (b : Ref sig .tc) (h : b ∉ ([main_v37] : List (Ref sig .tc))) :
    Run.U11 m c b = Gen.V10 m c b :=
  Run.U11_of_ne m c b (List.ne_of_not_mem_cons h)
theorem U12_keep (c : Dev nD) (b : Ref sig .tc) (h : b ∉ ([main_v38, main_v37] : List (Ref sig .tc))) :
    Run.U12 m c b = Gen.V10 m c b :=
  (Run.U12_of_ne m c b (List.ne_of_not_mem_cons h)).trans (U11_keep m c b (List.not_mem_of_not_mem_cons h))
theorem U13_step (c : Dev nD) (b : Ref sig .tc) (h : b ≠ main_v39) : Run.U13 m c b = Run.U12 m c b := by
  unfold Run.U13
  exact StableHlo.after_of_writes_sub hostOps2 _ hostOps2_writes fun hb => h (List.mem_singleton.mp hb)
theorem U13_keep (c : Dev nD) (b : Ref sig .tc) (h : b ∉ ([main_v39, main_v38, main_v37] : List (Ref sig .tc))) :
    Run.U13 m c b = Gen.V10 m c b :=
  (U13_step m c b (List.ne_of_not_mem_cons h)).trans (U12_keep m c b (List.not_mem_of_not_mem_cons h))
theorem U14_keep (c : Dev nD) (b : Ref sig .tc) (h : b ∉ ([main_v40, main_v39, main_v38, main_v37] : List (Ref sig .tc))) :
    Run.U14 m c b = Gen.V10 m c b :=
  (Run.U14_of_ne m c b (List.ne_of_not_mem_cons h)).trans (U13_keep m c b (List.not_mem_of_not_mem_cons h))
theorem U15_keep (c : Dev nD) (b : Ref sig .tc) (h : b ∉ ([main_v41, main_v40, main_v39, main_v38, main_v37] : List (Ref sig .tc))) :
    Run.U15 m c b = Gen.V10 m c b :=
  (Run.U15_of_ne m c b (List.ne_of_not_mem_cons h)).trans (U14_keep m c b (List.not_mem_of_not_mem_cons h))
theorem U16_keep (c : Dev nD) (b : Ref sig .tc) (h : b ∉ ([main_v42, main_v41, main_v40, main_v39, main_v38, main_v37] : List (Ref sig .tc))) :
    Run.U16 m c b = Gen.V10 m c b :=
  (Run.U16_of_ne m c b (List.ne_of_not_mem_cons h)).trans (U15_keep m c b (List.not_mem_of_not_mem_cons h))
theorem U17_step (c : Dev nD) (b : Ref sig .tc) (h : b ≠ main_v43) : Run.U17 m c b = Run.U16 m c b := by
  unfold Run.U17
  exact StableHlo.after_of_writes_sub hostOps5 _ hostOps5_writes fun hb => h (List.mem_singleton.mp hb)
theorem U17_keep (c : Dev nD) (b : Ref sig .tc) (h : b ∉ ([main_v43, main_v42, main_v41, main_v40, main_v39, main_v38, main_v37] : List (Ref sig .tc))) :
    Run.U17 m c b = Gen.V10 m c b :=
  (U17_step m c b (List.ne_of_not_mem_cons h)).trans (U16_keep m c b (List.not_mem_of_not_mem_cons h))

abbrev ax (c : Dev nD) : FVec Ideal S100000x128 .f32 := m ((c.tc : Thread nD τ).loc main_arg0)
abbrev aW1 (c : Dev nD) : FVec Ideal S128x128 .f32 := m ((c.tc : Thread nD τ).loc main_arg2)
abbrev ab1 (c : Dev nD) : FVec Ideal S128 .f32 := m ((c.tc : Thread nD τ).loc main_arg3)
abbrev aW2 (c : Dev nD) : FVec Ideal S128x64 .f32 := m ((c.tc : Thread nD τ).loc main_arg4)
abbrev ab2 (c : Dev nD) : FVec Ideal S64 .f32 := m ((c.tc : Thread nD τ).loc main_arg5)

abbrev res (c : Dev nD) : FVec Ideal S100000x64 .f32 := Cert.KernelIdeal.Run.U19 (F := Ideal) m c main_v45

abbrev srcp (c : Dev nD) : Fin 1701888 → BitVec 32 := fun e => (Gen.V10 m c main_v33 : IVec S1x1701888 32) (ix2 (0 : Fin 1) e)
abbrev dstp (c : Dev nD) : Fin 1701888 → BitVec 32 := fun e => (Gen.V10 m c main_v34 : IVec S1x1701888 32) (ix2 (0 : Fin 1) e)
abbrev normp (c : Dev nD) : Fin 1701888 → EReal := fun e => (Gen.V10 m c main_v35 : FVec Ideal S1x1701888 .f32) (ix2 (0 : Fin 1) e)
abbrev xp (c : Dev nD) : Fin 100352 → Fin 128 → EReal := fun r k => (Gen.V10 m c main_v36 : FVec Ideal S100352x128 .f32) (ix2 r k)

abbrev x1v (c : Dev nD) : FVec Ideal S100352x128 .f32 := Gen.V10 m c main_v36
abbrev w1v (c : Dev nD) : FVec Ideal S128x128 .f32 := Gen.V10 m c main_arg2
abbrev x2v (c : Dev nD) : FVec Ideal S100352x128 .f32 := Run.U14 m c main_v40
abbrev w2v (c : Dev nD) : FVec Ideal S128x64 .f32 := Run.U14 m c main_arg4

abbrev y1 (c : Dev nD) : FVec Ideal S100352x128 .f32 := Run.X0 m c
abbrev g1 (c : Dev nD) : FVec Ideal S1701888x128 .f32 := Run.X1 m c
abbrev h1 (c : Dev nD) : FVec Ideal S100352x128 .f32 := Run.X2 m c
abbrev y2 (c : Dev nD) : FVec Ideal S100352x64 .f32 := Run.X3 m c
abbrev g2 (c : Dev nD) : FVec Ideal S1701888x64 .f32 := Run.X4 m c
abbrev h2 (c : Dev nD) : FVec Ideal S100352x64 .f32 := Run.X5 m c

theorem U13_v38 (c : Dev nD) : Run.U13 m c main_v38 = Run.X1 m c :=
  (U13_step m c main_v38 (by decide)).trans (Run.U12_out m c)

theorem U17_v42 (c : Dev nD) : Run.U17 m c main_v42 = Run.X4 m c :=
  (U17_step m c main_v42 (by decide)).trans (Run.U16_out m c)

theorem w1v_eq (c : Dev nD) : w1v m c = aW1 m c := Cert.KernelIdeal.HostReads.V10_arg2 m c
theorem w2v_eq (c : Dev nD) : w2v m c = aW2 m c := (U14_keep m c main_arg4 (by decide)).trans (V10_arg4 m c)
theorem x2v_eq (c : Dev nD) : x2v m c = h1 m c := Run.U14_out m c

theorem bias1_apply (c : Dev nD) (z : Fin 1) (j : Fin 128) :
    (Run.U13 m c main_v39 : FVec Ideal S1x128 .f32) (ix2 z j) = ab1 m c (ix1 j) := by
  unfold Run.U13
  rw [after2_v39, Cert.Layout.row_of_vec_apply, U12_keep m c main_arg3 (by decide), V10_arg3]

theorem bias2_apply (c : Dev nD) (z : Fin 1) (j : Fin 64) :
    (Run.U17 m c main_v43 : FVec Ideal S1x64 .f32) (ix2 z j) = ab2 m c (ix1 j) := by
  unfold Run.U17
  rw [after5_v43, Cert.Layout.row_of_vec_apply, U16_keep m c main_arg5 (by decide), V10_arg5]

theorem res_apply (c : Dev nD) (n : Fin 100000) (d : Fin 64) :
    res m c (ix2 n d) = h2 m c (ix2 ⟨n.val, Nat.lt_of_lt_of_le n.isLt (by decide)⟩ d) := by
  show (Run.U19 m c main_v45 : FVec Ideal S100000x64 .f32) (ix2 n d) = _
  unfold Run.U19
  rw [after6_v45, Cert.Layout.lead_rows_apply _ (by decide), Run.U18_out]

theorem chain_eq_klayer {NP EP K D : Nat} (src dst : Fin EP → BitVec 32) (norm : Fin EP → EReal)
    (x : Fin NP → Fin K → EReal) (W : Fin K → Fin D → EReal) (b : Fin D → EReal)
    (y : Fin NP → Fin D → EReal) (g : Fin EP → Fin D → EReal) (h : Fin NP → Fin D → EReal)
    (hy : ∀ r d, y r d = ∑ k : Fin K, x r k * W k d)
    (hg : ∀ e d, g e d = Cert.Bridge.gath src norm y e d)
    (hh : ∀ n d, h n d = Cert.Bridge.scat dst g b n d) (n : Fin NP) (d : Fin D) :
    h n d = Cert.Bridge.klayer src dst norm x W b n d := by
  have ey : y = Cert.Spec.proj x W := funext fun r => funext fun d => hy r d
  have eg : g = Cert.Bridge.gath src norm (Cert.Spec.proj x W) := funext fun e => funext fun d => by rw [hg, ey]
  rw [hh, eg]; rfl

theorem klayer_rows (hpre : Cert.Pre_KernelIdeal m) (c : Dev nD) {K D : Nat}
    (x : Fin 100000 → Fin K → EReal) (xq : Fin 100352 → Fin K → EReal)
    (hx : ∀ (r : Fin 100352) (h : r.val < 100000) (k : Fin K), xq r k = x ⟨r.val, h⟩ k)
    (W : Fin K → Fin D → EReal) (b : Fin D → EReal) (n : Fin 100000) (d : Fin D) :
    Cert.Bridge.klayer (srcp m c) (dstp m c) (normp m c) xq W b ⟨n.val, Nat.lt_of_lt_of_le n.isLt (by decide)⟩ d
      = Cert.Spec.layer (N := 100000) (E := 1700000) (by decide) 100000#32
          (fun e => Cert.KernelIdeal.HostReads.ksrc m c (ix1 e)) (fun e => Cert.KernelIdeal.HostReads.kdst m c (ix1 e))
          (fun e => Cert.KernelIdeal.HostReads.knorm (F := Ideal) m c (ix1 e)) x W b n d :=
  Cert.Bridge.klayer_eq_layer (N := 100000) (NP := 100352) (E := 1700000) (EP := 1701888)
    (by decide) (by decide) (by decide) (by norm_num)
    (fun e => Cert.KernelIdeal.HostReads.ksrc m c (ix1 e)) (fun e => Cert.KernelIdeal.HostReads.kdst m c (ix1 e))
    (fun e => Cert.KernelIdeal.HostReads.knorm (F := Ideal) m c (ix1 e))
    (srcp m c) (dstp m c) (normp m c)
    (fun e h => (Cert.KernelIdeal.HostReads.src_apply m c e).trans (dif_pos h))
    (fun e h => (Cert.KernelIdeal.HostReads.dst_apply m c e).trans (dif_pos h))
    (fun e h => (Cert.KernelIdeal.HostReads.norm_apply m c e).trans (dif_pos h))
    (fun e he => (Cert.KernelIdeal.HostReads.src_apply m c e).trans (dif_neg (Nat.not_lt.mpr he)))
    (fun e he => (Cert.KernelIdeal.HostReads.dst_apply m c e).trans (dif_neg (Nat.not_lt.mpr he)))
    (fun e he => (Cert.KernelIdeal.HostReads.norm_apply m c e).trans (dif_neg (Nat.not_lt.mpr he)))
    (fun e => ⟨(Cert.KernelIdeal.HostReads.src_range m hpre c e).1, by
      have := (Cert.KernelIdeal.HostReads.src_range m hpre c e).2; omega⟩)
    x xq hx W b n d

theorem net_of_region_values (hpre : Cert.Pre_KernelIdeal m) (c : Dev nD)
    (hP0 : ∀ (r : Fin 100352) (d : Fin 128), y1 m c (ix2 r d)
      = ∑ k : Fin 128, x1v m c (ix2 r k) * w1v m c (ix2 k d))
    (hG1 : ∀ (e : Fin 1701888) (d : Fin 128), g1 m c (ix2 e d)
      = Cert.Bridge.gath (NP := 100352) (fun e' : Fin 1701888 => (Run.U11 m c main_v33 : IVec S1x1701888 32) (ix2 (0 : Fin 1) e'))
          (fun e' => (Run.U11 m c main_v35 : FVec Ideal S1x1701888 .f32) (ix2 (0 : Fin 1) e'))
          (fun n d' => (Run.U11 m c main_v37 : FVec Ideal S100352x128 .f32) (ix2 n d')) e d)
    (hS2 : ∀ (n : Fin 100352) (d : Fin 128), h1 m c (ix2 n d)
      = Cert.Bridge.scat (EP := 1701888) (fun e : Fin 1701888 => (Run.U13 m c main_v34 : IVec S1x1701888 32) (ix2 (0 : Fin 1) e))
          (fun e d' => (Run.U13 m c main_v38 : FVec Ideal S1701888x128 .f32) (ix2 e d'))
          (fun d' => (Run.U13 m c main_v39 : FVec Ideal S1x128 .f32) (ix2 (0 : Fin 1) d')) n d)
    (hP3 : ∀ (r : Fin 100352) (d : Fin 64), y2 m c (ix2 r d)
      = ∑ k : Fin 128, x2v m c (ix2 r k) * w2v m c (ix2 k d))
    (hG4 : ∀ (e : Fin 1701888) (d : Fin 64), g2 m c (ix2 e d)
      = Cert.Bridge.gath (NP := 100352) (fun e' : Fin 1701888 => (Run.U15 m c main_v33 : IVec S1x1701888 32) (ix2 (0 : Fin 1) e'))
          (fun e' => (Run.U15 m c main_v35 : FVec Ideal S1x1701888 .f32) (ix2 (0 : Fin 1) e'))
          (fun n d' => (Run.U15 m c main_v41 : FVec Ideal S100352x64 .f32) (ix2 n d')) e d)
    (hS5 : ∀ (n : Fin 100352) (d : Fin 64), h2 m c (ix2 n d)
      = Cert.Bridge.scat (EP := 1701888) (fun e : Fin 1701888 => (Run.U17 m c main_v34 : IVec S1x1701888 32) (ix2 (0 : Fin 1) e))
          (fun e d' => (Run.U17 m c main_v42 : FVec Ideal S1701888x64 .f32) (ix2 e d'))
          (fun d' => (Run.U17 m c main_v43 : FVec Ideal S1x64 .f32) (ix2 (0 : Fin 1) d')) n d)
    (n : Fin 100000) (d : Fin 64) :
    res m c (ix2 n d)
      = Cert.Spec.net (N := 100000) (E := 1700000) (K := 128) (D₁ := 128) (D₂ := 64) (by decide) 100000#32
          (fun e => Cert.KernelIdeal.HostReads.ksrc m c (ix1 e)) (fun e => Cert.KernelIdeal.HostReads.kdst m c (ix1 e))
          (fun e => Cert.KernelIdeal.HostReads.knorm (F := Ideal) m c (ix1 e))
          (fun r k => ax m c (ix2 r k)) (fun k j => aW1 m c (ix2 k j)) (fun j => ab1 m c (ix1 j))
          (fun k j => aW2 m c (ix2 k j)) (fun j => ab2 m c (ix1 j)) n d := by

  have hy1 : ∀ (r : Fin 100352) (d : Fin 128), y1 m c (ix2 r d) = ∑ k : Fin 128, xp m c r k * aW1 m c (ix2 k d) := fun r d => by
    rw [hP0 r d, w1v_eq]
  have hg1 : ∀ (e : Fin 1701888) (d : Fin 128), g1 m c (ix2 e d)
      = Cert.Bridge.gath (srcp m c) (normp m c) (fun n d' => y1 m c (ix2 n d')) e d := fun e d => by
    rw [hG1 e d, U11_keep m c main_v33 (by decide), U11_keep m c main_v35 (by decide), Run.U11_out]
  have hh1 : ∀ (n : Fin 100352) (d : Fin 128), h1 m c (ix2 n d)
      = Cert.Bridge.scat (dstp m c) (fun e d' => g1 m c (ix2 e d')) (fun j => ab1 m c (ix1 j)) n d := fun n d => by
    rw [hS2 n d, U13_keep m c main_v34 (by decide), U13_v38]
    exact congrArg (fun b => Cert.Bridge.scat (dstp m c) (fun e d' => g1 m c (ix2 e d')) b n d) (funext fun j => bias1_apply m c 0 j)
  have L1 : ∀ (r : Fin 100352) (k : Fin 128), h1 m c (ix2 r k)
      = Cert.Bridge.klayer (srcp m c) (dstp m c) (normp m c) (xp m c) (fun k j => aW1 m c (ix2 k j)) (fun j => ab1 m c (ix1 j)) r k :=
    chain_eq_klayer (srcp m c) (dstp m c) (normp m c) (xp m c) (fun k j => aW1 m c (ix2 k j)) (fun j => ab1 m c (ix1 j))
      (fun r d => y1 m c (ix2 r d)) (fun e d => g1 m c (ix2 e d)) (fun n d => h1 m c (ix2 n d)) hy1 hg1 hh1

  have hy2 : ∀ (r : Fin 100352) (d : Fin 64), y2 m c (ix2 r d) = ∑ k : Fin 128, h1 m c (ix2 r k) * aW2 m c (ix2 k d) := fun r d => by
    rw [hP3 r d, x2v_eq, w2v_eq]
  have hg2 : ∀ (e : Fin 1701888) (d : Fin 64), g2 m c (ix2 e d)
      = Cert.Bridge.gath (srcp m c) (normp m c) (fun n d' => y2 m c (ix2 n d')) e d := fun e d => by
    rw [hG4 e d, U15_keep m c main_v33 (by decide), U15_keep m c main_v35 (by decide), Run.U15_out]
  have hh2 : ∀ (n : Fin 100352) (d : Fin 64), h2 m c (ix2 n d)
      = Cert.Bridge.scat (dstp m c) (fun e d' => g2 m c (ix2 e d')) (fun j => ab2 m c (ix1 j)) n d := fun n d => by
    rw [hS5 n d, U17_keep m c main_v34 (by decide), U17_v42]
    exact congrArg (fun b => Cert.Bridge.scat (dstp m c) (fun e d' => g2 m c (ix2 e d')) b n d) (funext fun j => bias2_apply m c 0 j)
  have L2 : ∀ (r : Fin 100352) (j : Fin 64), h2 m c (ix2 r j)
      = Cert.Bridge.klayer (srcp m c) (dstp m c) (normp m c) (fun r k => h1 m c (ix2 r k)) (fun k j => aW2 m c (ix2 k j)) (fun j => ab2 m c (ix1 j)) r j :=
    chain_eq_klayer (srcp m c) (dstp m c) (normp m c) (fun r k => h1 m c (ix2 r k)) (fun k j => aW2 m c (ix2 k j)) (fun j => ab2 m c (ix1 j))
      (fun r d => y2 m c (ix2 r d)) (fun e d => g2 m c (ix2 e d)) (fun n d => h2 m c (ix2 n d)) hy2 hg2 hh2

  have R1 : ∀ (r : Fin 100352) (h : r.val < 100000) (k : Fin 128), h1 m c (ix2 r k)
      = Cert.Spec.layer (N := 100000) (E := 1700000) (by decide) 100000#32
          (fun e => Cert.KernelIdeal.HostReads.ksrc m c (ix1 e)) (fun e => Cert.KernelIdeal.HostReads.kdst m c (ix1 e))
          (fun e => Cert.KernelIdeal.HostReads.knorm (F := Ideal) m c (ix1 e))
          (fun r k => ax m c (ix2 r k)) (fun k j => aW1 m c (ix2 k j)) (fun j => ab1 m c (ix1 j)) ⟨r.val, h⟩ k := fun r h k => by
    rw [L1 r k]
    exact klayer_rows m hpre c (fun r k => ax m c (ix2 r k)) (xp m c)
      (fun r h k => Cert.KernelIdeal.HostReads.x_apply_of_lt m c r k h) _ _ ⟨r.val, h⟩ k
  rw [res_apply, L2]
  exact klayer_rows m hpre c _ (fun r k => h1 m c (ix2 r k)) R1 _ _ n d

theorem result_apply (hpre : Cert.Pre_KernelIdeal m) (c : Dev nD) (n : Fin 100000) (d : Fin 64) :
    res m c (ix2 n d)
      = Cert.Spec.net (N := 100000) (E := 1700000) (K := 128) (D₁ := 128) (D₂ := 64) (by decide) 100000#32
          (fun e => Cert.KernelIdeal.HostReads.ksrc m c (ix1 e)) (fun e => Cert.KernelIdeal.HostReads.kdst m c (ix1 e))
          (fun e => Cert.KernelIdeal.HostReads.knorm (F := Ideal) m c (ix1 e))
          (fun r k => ax m c (ix2 r k)) (fun k j => aW1 m c (ix2 k j)) (fun j => ab1 m c (ix1 j))
          (fun k j => aW2 m c (ix2 k j)) (fun j => ab2 m c (ix1 j)) n d :=
  net_of_region_values m hpre c
    (Cert.KernelIdeal.Proj0.final_apply (Run.atTc (Gen.V10 m)) c)
    (Cert.KernelIdeal.Gather1.final_apply (Run.atTc (Run.U11 m)) c)
    (Cert.KernelIdeal.Scatter2.final_apply (Run.atTc (Run.U13 m)) c)
    (Cert.KernelIdeal.Proj3.final_apply (Run.atTc (Run.U14 m)) c)
    (Cert.KernelIdeal.Gather4.final_apply (Run.atTc (Run.U15 m)) c)
    (Cert.KernelIdeal.Scatter5.final_apply (Run.atTc (Run.U17 m)) c) n d

end Cert.KernelIdeal.NetValue

end
-- ==== Proof.RefLayer.lean ====
/- One layer of the reference is the specification's layer. -/
import proofs.«127098_j12489764897128_1_alg».proof.Proof.LibGatherScatter
import proofs.«127098_j12489764897128_1_alg».proof.Proof.Spec
import proofs.«127098_j12489764897128_1_alg».proof.Proof.Edges

noncomputable section

namespace Cert.RefLayer

open Idealize.ShloMosaic Idealize.ShloMosaic.ValueIdx
open Cert.LibGatherScatter
open scoped BigOperators

theorem wrapCol_apply {E : Nat} (hcol : (⟨1, ![E]⟩ : Shape).BroadcastsInDim ⟨2, ![E, 1]⟩ ![0])
    (h0 hn : (⟨0, ![]⟩ : Shape).BroadcastsInDim ⟨1, ![E]⟩ ![]) (nW : BitVec 32) (v : IVec ⟨1, ![E]⟩ 32) (e : Fin E) :
    broadcastInDim ⟨2, ![E, 1]⟩ ![0] hcol
      (select (cmpi .slt v (broadcastInDim ⟨1, ![E]⟩ ![] h0 (constantI ⟨0, ![]⟩ 32 0#32)))
        (addi v (broadcastInDim ⟨1, ![E]⟩ ![] hn (constantI ⟨0, ![]⟩ 32 nW))) v) (ix2 e 0)
      = wrapW nW (v (ix1 e)) := by
  rw [bcast_col_apply, wrap_apply]

section Layer
variable {N E D : Nat} (hN : 0 < N)
  (dG : GatherDims ⟨2, ![N, D]⟩ ⟨2, ![E, 1]⟩ ⟨2, ![E, D]⟩)
  (hoff : dG.offsetDims = [1]) (hcoll : dG.collapsedSliceDims = [0]) (hob : dG.operandBatchingDims = [])
  (hsim : dG.startIndexMap = [0]) (hivdG : dG.indexVectorDim = 1)
  (dS : ScatterDims ⟨2, ![N, D]⟩ ⟨2, ![E, 1]⟩ ⟨2, ![E, D]⟩)
  (huw : dS.updateWindowDims = [1]) (hiw : dS.insertedWindowDims = [0])
  (hsd : dS.scatterDimsToOperandDims = [0]) (hivdS : dS.indexVectorDim = 1)
  (y : FVec Ideal ⟨2, ![N, D]⟩ .f32) (srcCol dstCol : IVec ⟨2, ![E, 1]⟩ 32)
  (nrmB : FVec Ideal ⟨2, ![E, D]⟩ .f32) (z bB zero : FVec Ideal ⟨2, ![N, D]⟩ .f32)
  (nW : BitVec 32) (src dst : Fin E → BitVec 32) (nrm : Fin E → EReal) (b : Fin D → EReal)
  (hsrc : ∀ e : Fin E, srcCol (ix2 e 0) = wrapW nW (src e))
  (hdst : ∀ e : Fin E, dstCol (ix2 e 0) = dst e)
  (hn : ∀ (e : Fin E) (d : Fin D), nrmB (ix2 e d) = nrm e)
  (hz : ∀ (n : Fin N) (d : Fin D), z (ix2 n d) = 0)
  (hb : ∀ (n : Fin N) (d : Fin D), bB (ix2 n d) = b d)
  (hzero : ∀ (n : Fin N) (d : Fin D), zero (ix2 n d) = 0)
include hoff hcoll hob hsim hivdG huw hiw hsd hivdS hsrc hdst hn hz hb hzero

theorem layer_read (n : Fin N) (d : Fin D) :
    maximumf (addf (Host.scatterAdd (F := Ideal) dS z dstCol (mulf (Host.gather dG y srcCol) nrmB)) bB) zero (ix2 n d)
      = max (((0 : EReal) + ∑ e ∈ Finset.univ.filter (fun e : Fin E => (dst e).toInt = (n.val : ℤ)),
          y (ix2 (clampIdx N hN (wrapW nW (src e))) d) * nrm e) + b d) 0 := by
  have hbody : ∀ e : Fin E, mulf (Host.gather dG y srcCol) nrmB (ix2 e d)
      = y (ix2 (clampIdx N hN (wrapW nW (src e))) d) * nrm e := by
    intro e
    show Host.gather dG y srcCol (ix2 e d) * nrmB (ix2 e d) = _
    rw [gather2_apply hN dG hoff hcoll hob hsim hivdG, hsrc, hn]
  show max (Host.scatterAdd (F := Ideal) dS z dstCol (mulf (Host.gather dG y srcCol) nrmB) (ix2 n d) + bB (ix2 n d))
      (zero (ix2 n d)) = _
  rw [scatterAdd2_apply dS huw hiw hsd hivdS, hz, hb, hzero]
  simp only [hdst, hbody]

theorem layer_spec {K : Nat} (X : Fin N → Fin K → EReal) (W : Fin K → Fin D → EReal)
    (hy : ∀ (r : Fin N) (d : Fin D), y (ix2 r d) = Cert.Spec.proj X W r d) (n : Fin N) (d : Fin D) :
    maximumf (addf (Host.scatterAdd (F := Ideal) dS z dstCol (mulf (Host.gather dG y srcCol) nrmB)) bB) zero (ix2 n d)
      = Cert.Spec.layer hN nW src dst nrm X W b n d := by
  rw [layer_read hN dG hoff hcoll hob hsim hivdG dS huw hiw hsd hivdS y srcCol dstCol nrmB z bB zero nW src dst nrm b
    hsrc hdst hn hz hb hzero n d]
  unfold Cert.Spec.layer Cert.Spec.msg
  simp only [hy]

end Layer

end Cert.RefLayer

end
-- ==== Proof.RefValue.lean ====
/- The reference's result is the specification's network of the inputs. -/
import proofs.«127098_j12489764897128_1_alg».proof.Proof.RefRead
import proofs.«127098_j12489764897128_1_alg».proof.Proof.RefLayer
import proofs.«127098_j12489764897128_1_alg».proof.Proof.Spec
import proofs.«127098_j12489764897128_1_alg».proof.Proof.Edges

noncomputable section

namespace Cert.ReferenceIdeal.RefValue

open Idealize.ShloMosaic Idealize.ShloMosaic.ValueIdx
open Cert.ReferenceIdeal

variable [Cert.ReferenceIdeal.Facts]
open Cert.ReferenceIdeal.Facts₀ Cert.ReferenceIdeal.Facts

abbrev srcW (x1 : IVec S2x1600000 32) : IVec S1700000 32 :=
  Cert.Edges.ends 0 slices_S2x1600000_S1x1600000_0_0 shapeCasts_S1x1600000_S1600000 concatenates_S1600000_S100000_S1700000_d0 x1

abbrev dstW (x1 : IVec S2x1600000 32) : IVec S1700000 32 :=
  Cert.Edges.ends 1 slices_S2x1600000_S1x1600000_1_0 shapeCasts_S1x1600000_S1600000 concatenates_S1600000_S100000_S1700000_d0 x1

abbrev normV (x1 : IVec S2x1600000 32) : FVec Ideal S1700000 .f32 :=
  Cert.Edges.norm (F := Ideal) scatter_S100000_S1700000x1_S1700000_n_0_0_1 gather_S100000_S1700000x1_S1700000_n_0_n_n_0_1_1
    bcast_S_S1700000 bcast_S_S100000 bcast_S1700000_S1700000x1_0 (srcW x1) (dstW x1)

theorem srcW_eq (x1 : IVec S2x1600000 32) : ReadP.val_main_v3 (F := Ideal) x1 = srcW x1 := rfl

theorem dstW_eq (x1 : IVec S2x1600000 32) : ReadP.val_main_v6 (F := Ideal) x1 = dstW x1 := rfl

theorem normV_eq (x1 : IVec S2x1600000 32) : ReadP.val_main_v29 (F := Ideal) x1 = normV x1 := rfl

theorem srcCol1_apply (x1 : IVec S2x1600000 32) (e : Fin 1700000) :
    ReadP.val_main_v36 (F := Ideal) x1 (ix2 e 0) = Cert.LibGatherScatter.wrapW 100000#32 (srcW x1 (ix1 e)) := by
  unfold ReadP.val_main_v36 ReadP.val_main_v35 ReadP.val_main_v32 ReadP.val_main_v34 ReadP.val_main_v31
    ReadP.val_main_v33 ReadP.val_main_c_6 ReadP.val_main_c_7
  rw [srcW_eq]
  exact Cert.RefLayer.wrapCol_apply _ _ _ 100000#32 (srcW x1) e

theorem dstCol1_apply (x1 : IVec S2x1600000 32) (e : Fin 1700000) :
    ReadP.val_main_v42 (F := Ideal) x1 (ix2 e 0) = dstW x1 (ix1 e) := by
  unfold ReadP.val_main_v42
  rw [dstW_eq]
  exact Cert.LibGatherScatter.bcast_col_apply _ (dstW x1) e 0

theorem normCols1_apply (x1 : IVec S2x1600000 32) (e : Fin 1700000) (d : Fin 128) :
    ReadP.val_main_v39 (F := Ideal) x1 (ix2 e d) = normV x1 (ix1 e) := by
  rw [ReadP.val_main_v39_apply, ReadP.val_main_v38_apply, normV_eq]
  exact congrArg (normV x1) (funext fun a => Fin.ext (by match a with | ⟨0, _⟩ => rfl))

theorem zeros1_apply (n : Fin 100000) (d : Fin 128) : ReadP.val_main_v41 (F := Ideal) (ix2 n d) = 0 := by
  rw [ReadP.val_main_v41_apply, ReadP.val_main_cst_8_apply]
  exact Ideal.ofBits_zero_f32

theorem bias1_apply (x3 : FVec Ideal S128 .f32) (n : Fin 100000) (d : Fin 128) :
    ReadP.val_main_v45 (F := Ideal) x3 (ix2 n d) = x3 (ix1 d) := by
  rw [ReadP.val_main_v45_apply, ReadP.val_main_v44_apply]
  exact congrArg x3 (funext fun a => Fin.ext (by match a with | ⟨0, _⟩ => rfl))

theorem cut1_apply (n : Fin 100000) (d : Fin 128) : ReadP.val_main_call1_v0 (F := Ideal) (ix2 n d) = 0 := by
  rw [ReadP.val_main_call1_v0_apply, ReadP.val_main_call1_cst_apply]
  exact Ideal.ofBits_zero_f32

theorem proj1_apply (x0 : FVec Ideal S100000x128 .f32) (x2 : FVec Ideal S128x128 .f32) (r : Fin 100000) (d : Fin 128) :
    ReadP.val_main_v30 (F := Ideal) x0 x2 (ix2 r d)
      = Cert.Spec.proj (fun r k => x0 (ix2 r k)) (fun k j => x2 (ix2 k j)) r d := by
  rw [ReadP.val_main_v30_apply]
  unfold Cert.Spec.proj
  refine Finset.sum_congr rfl fun k _ => ?_
  have hl : ReadP.lidx_main_v30 (ix2 r d) k = ix2 r k :=
    funext fun a => Fin.ext (by match a with | ⟨0, _⟩ => rfl | ⟨1, _⟩ => rfl)
  have hr : ReadP.ridx_main_v30 (ix2 r d) k = ix2 k d :=
    funext fun a => Fin.ext (by match a with | ⟨0, _⟩ => rfl | ⟨1, _⟩ => rfl)
  rw [hl, hr]

theorem layer1_apply (x0 : FVec Ideal S100000x128 .f32) (x1 : IVec S2x1600000 32) (x2 : FVec Ideal S128x128 .f32)
    (x3 : FVec Ideal S128 .f32) (n : Fin 100000) (d : Fin 128) :
    ReadP.val_main_v47 (F := Ideal) x0 x1 x2 x3 (ix2 n d)
      = Cert.Spec.layer (N := 100000) (E := 1700000) (K := 128) (D := 128) (by decide) 100000#32
          (fun e => srcW x1 (ix1 e)) (fun e => dstW x1 (ix1 e)) (fun e => normV x1 (ix1 e))
          (fun r k => x0 (ix2 r k)) (fun k j => x2 (ix2 k j)) (fun j => x3 (ix1 j)) n d := by
  unfold ReadP.val_main_v47 ReadP.val_main_v46 ReadP.val_main_v43 ReadP.val_main_v40 ReadP.val_main_v37
  exact Cert.RefLayer.layer_spec (by decide)
    gather_S100000x128_S1700000x1_S1700000x128_1_0_n_n_0_1_1128 rfl rfl rfl rfl rfl
    scatter_S100000x128_S1700000x1_S1700000x128_1_0_0_1 rfl rfl rfl rfl
    (ReadP.val_main_v30 (F := Ideal) x0 x2) (ReadP.val_main_v36 (F := Ideal) x1) (ReadP.val_main_v42 (F := Ideal) x1)
    (ReadP.val_main_v39 (F := Ideal) x1) (ReadP.val_main_v41 (F := Ideal)) (ReadP.val_main_v45 (F := Ideal) x3)
    (ReadP.val_main_call1_v0 (F := Ideal)) 100000#32
    (fun e => srcW x1 (ix1 e)) (fun e => dstW x1 (ix1 e)) (fun e => normV x1 (ix1 e)) (fun j => x3 (ix1 j))
    (srcCol1_apply x1) (dstCol1_apply x1) (normCols1_apply x1) zeros1_apply (bias1_apply x3) cut1_apply
    (fun r k => x0 (ix2 r k)) (fun k j => x2 (ix2 k j)) (proj1_apply x0 x2) n d

theorem srcCol2_apply (x1 : IVec S2x1600000 32) (e : Fin 1700000) :
    ReadP.val_main_v54 (F := Ideal) x1 (ix2 e 0) = Cert.LibGatherScatter.wrapW 100000#32 (srcW x1 (ix1 e)) := by
  unfold ReadP.val_main_v54 ReadP.val_main_v53 ReadP.val_main_v50 ReadP.val_main_v52 ReadP.val_main_v49
    ReadP.val_main_v51 ReadP.val_main_c_9 ReadP.val_main_c_10
  rw [srcW_eq]
  exact Cert.RefLayer.wrapCol_apply _ _ _ 100000#32 (srcW x1) e

theorem dstCol2_apply (x1 : IVec S2x1600000 32) (e : Fin 1700000) :
    ReadP.val_main_v60 (F := Ideal) x1 (ix2 e 0) = dstW x1 (ix1 e) := by
  unfold ReadP.val_main_v60
  rw [dstW_eq]
  exact Cert.LibGatherScatter.bcast_col_apply _ (dstW x1) e 0

theorem normCols2_apply (x1 : IVec S2x1600000 32) (e : Fin 1700000) (d : Fin 64) :
    ReadP.val_main_v57 (F := Ideal) x1 (ix2 e d) = normV x1 (ix1 e) := by
  rw [ReadP.val_main_v57_apply, ReadP.val_main_v56_apply, normV_eq]
  exact congrArg (normV x1) (funext fun a => Fin.ext (by match a with | ⟨0, _⟩ => rfl))

theorem zeros2_apply (n : Fin 100000) (d : Fin 64) : ReadP.val_main_v59 (F := Ideal) (ix2 n d) = 0 := by
  rw [ReadP.val_main_v59_apply, ReadP.val_main_cst_11_apply]
  exact Ideal.ofBits_zero_f32

theorem bias2_apply (x5 : FVec Ideal S64 .f32) (n : Fin 100000) (d : Fin 64) :
    ReadP.val_main_v63 (F := Ideal) x5 (ix2 n d) = x5 (ix1 d) := by
  rw [ReadP.val_main_v63_apply, ReadP.val_main_v62_apply]
  exact congrArg x5 (funext fun a => Fin.ext (by match a with | ⟨0, _⟩ => rfl))

theorem cut2_apply (n : Fin 100000) (d : Fin 64) : ReadP.val_main_call2_v0 (F := Ideal) (ix2 n d) = 0 := by
  rw [ReadP.val_main_call2_v0_apply, ReadP.val_main_call2_cst_apply]
  exact Ideal.ofBits_zero_f32

theorem proj2_apply (x0 : FVec Ideal S100000x128 .f32) (x1 : IVec S2x1600000 32) (x2 : FVec Ideal S128x128 .f32)
    (x3 : FVec Ideal S128 .f32) (x4 : FVec Ideal S128x64 .f32) (r : Fin 100000) (d : Fin 64) :
    ReadP.val_main_v48 (F := Ideal) x0 x1 x2 x3 x4 (ix2 r d)
      = Cert.Spec.proj
          (Cert.Spec.layer (N := 100000) (E := 1700000) (K := 128) (D := 128) (by decide) 100000#32
            (fun e => srcW x1 (ix1 e)) (fun e => dstW x1 (ix1 e)) (fun e => normV x1 (ix1 e))
            (fun r k => x0 (ix2 r k)) (fun k j => x2 (ix2 k j)) (fun j => x3 (ix1 j)))
          (fun k j => x4 (ix2 k j)) r d := by
  rw [ReadP.val_main_v48_apply]
  unfold Cert.Spec.proj
  refine Finset.sum_congr rfl fun k _ => ?_
  have hl : ReadP.lidx_main_v48 (ix2 r d) k = ix2 r k :=
    funext fun a => Fin.ext (by match a with | ⟨0, _⟩ => rfl | ⟨1, _⟩ => rfl)
  have hr : ReadP.ridx_main_v48 (ix2 r d) k = ix2 k d :=
    funext fun a => Fin.ext (by match a with | ⟨0, _⟩ => rfl | ⟨1, _⟩ => rfl)
  rw [hl, hr, layer1_apply]

theorem result_apply (x0 : FVec Ideal S100000x128 .f32) (x1 : IVec S2x1600000 32) (x2 : FVec Ideal S128x128 .f32)
    (x3 : FVec Ideal S128 .f32) (x4 : FVec Ideal S128x64 .f32) (x5 : FVec Ideal S64 .f32) (n : Fin 100000) (d : Fin 64) :
    Cert.ReferenceIdeal.ReadP.val_main_v65 (F := Ideal) x0 x1 x2 x3 x4 x5 (ix2 n d)
      = Cert.Spec.net (N := 100000) (E := 1700000) (K := 128) (D₁ := 128) (D₂ := 64) (by decide) 100000#32
          (fun e => srcW x1 (ix1 e)) (fun e => dstW x1 (ix1 e)) (fun e => normV x1 (ix1 e))
          (fun r k => x0 (ix2 r k)) (fun k j => x2 (ix2 k j)) (fun j => x3 (ix1 j))
          (fun k j => x4 (ix2 k j)) (fun j => x5 (ix1 j)) n d := by
  unfold ReadP.val_main_v65 ReadP.val_main_v64 ReadP.val_main_v61 ReadP.val_main_v58 ReadP.val_main_v55
  unfold Cert.Spec.net
  exact Cert.RefLayer.layer_spec (by decide)
    gather_S100000x64_S1700000x1_S1700000x64_1_0_n_n_0_1_164 rfl rfl rfl rfl rfl
    scatter_S100000x64_S1700000x1_S1700000x64_1_0_0_1 rfl rfl rfl rfl
    (ReadP.val_main_v48 (F := Ideal) x0 x1 x2 x3 x4) (ReadP.val_main_v54 (F := Ideal) x1) (ReadP.val_main_v60 (F := Ideal) x1)
    (ReadP.val_main_v57 (F := Ideal) x1) (ReadP.val_main_v59 (F := Ideal)) (ReadP.val_main_v63 (F := Ideal) x5)
    (ReadP.val_main_call2_v0 (F := Ideal)) 100000#32
    (fun e => srcW x1 (ix1 e)) (fun e => dstW x1 (ix1 e)) (fun e => normV x1 (ix1 e)) (fun j => x5 (ix1 j))
    (srcCol2_apply x1) (dstCol2_apply x1) (normCols2_apply x1) zeros2_apply (bias2_apply x5) cut2_apply
    _ (fun k j => x4 (ix2 k j)) (proj2_apply x0 x1 x2 x3 x4) n d

end Cert.ReferenceIdeal.RefValue

end
-- ==== Proof.lean ====
/- The certificate's assembly: three frames, the trivial preservation, and the value claim through `Cert.Spec`. -/
import proofs.«127098_j12489764897128_1_alg».proof.Defs
import proofs.«127098_j12489764897128_1_alg».proof.Proof.Gen.Kernel
import proofs.«127098_j12489764897128_1_alg».proof.Proof.Gen.KernelIdeal
import proofs.«127098_j12489764897128_1_alg».proof.Proof.Gen.ReferenceIdeal
import proofs.«127098_j12489764897128_1_alg».proof.Proof.Gen.Pre_finite_inputs
import proofs.«127098_j12489764897128_1_alg».proof.Proof.IdealRegions.Run
import proofs.«127098_j12489764897128_1_alg».proof.Proof.IdealRegions.NetValue
import proofs.«127098_j12489764897128_1_alg».proof.Proof.RefValue
import Idealize.ShloMosaic.Lib.ValueIdx
import Idealize.ShloMosaic.Lib.Tactic
import Idealize.ShloMosaic.Adequacy
import Idealize.ShloMosaic.Init

noncomputable section

namespace Cert.Proof

open Idealize.ShloMosaic Idealize.ShloMosaic.TcCoe Idealize.ShloMosaic.Tactic Idealize.SL.Sem Idealize.ShloMosaic.ValueIdx

/-- No rewrite was applied, so both kernel programs are one term; its frame holds at every number format. -/
theorem frame_kernel : Cert.frame_Kernel := fun m ρ _ =>
  Eq.mp (by sl_kernel_rfl) (Cert.KernelIdeal.Run.frame (F := Bits) m ρ)

theorem frame_kernelIdeal : Cert.frame_KernelIdeal := fun m ρ _ => Cert.KernelIdeal.Run.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the two-layer network of `Cert.Spec` in their result buffers. -/
theorem algebraic : Cert.algebraic_KernelIdeal_ReferenceIdeal := by
  intro m ρ m' ρ' hpre hagree
  refine ⟨fun c => Cert.KernelIdeal.Run.U19 (F := Ideal) m c Cert.KernelIdeal.main_v45, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  funext idx
  obtain ⟨n, d, rfl⟩ : ∃ (n : Fin 100000) (d : Fin 64), idx = ix2 n d := ⟨idx 0, idx 1, eq_ix2 idx⟩
  rw [Cert.ReferenceIdeal.ReadP.val_main_v65_eq]
  refine (Cert.ReferenceIdeal.RefValue.result_apply _ _ _ _ _ _ n d).trans ?_
  rw [(hagree c).1, (hagree c).2.1, (hagree c).2.2.1, (hagree c).2.2.2.1, (hagree c).2.2.2.2.1, (hagree c).2.2.2.2.2]
  exact (Cert.KernelIdeal.NetValue.result_apply m hpre c n d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
